-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S64x128 : Shape := ⟨2, ![64, 128]⟩
abbrev S64 : Shape := ⟨1, ![64]⟩
abbrev S40x64 : Shape := ⟨2, ![40, 64]⟩
abbrev S40 : Shape := ⟨1, ![40]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S40x64 : S_.BroadcastsInDim S40x64 (![] : Fin 0 → Fin S40x64.rank)
  reducesTo_S40x64_S_d0_1 : S40x64.ReducesTo [0, 1] S_
  bcast_S_S40 : S_.BroadcastsInDim S40 (![] : Fin 0 → Fin S40.rank)
  reducesTo_S40_S_d0 : S40.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part2 {F : FTy → Type} [FloatOps F] (main_arg1 : IVec S2x600000 32) (main_v33 : IVec S_ 1) : IVec S_ 1 :=
  let main_v34 : IVec S1x600000 32 := (extractStridedSlice S1x600000 ![0, 0] · slices_S2x600000_S1x600000_0_0) main_arg1
  let main_v35 : IVec S600000 32 := shapeCast S600000 main_v34 shapeCasts_S1x600000_S600000
  let main_c_12 : IVec S_ 32 := constantI S_ 32 0#32
  let main_v36 : IVec S600000 32 := broadcastInDim S600000 ![] bcast_S_S600000 main_c_12
  let main_v37 : IVec S600000 1 := cmpi .sge main_v35 main_v36
  let main_c_13 : IVec S_ 1 := constantI S_ 1 1#1
  let main_v38 : IVec S_ 1 := (fun x v => Host.reduce IntOp.andi x v reducesTo_S600000_S_d0 h_S_) main_v37 main_c_13
  let main_v39 : IVec S_ 1 := andi main_v33 main_v38
  let main_v40 : IVec S1x600000 32 := (extractStridedSlice S1x600000 ![0, 0] · slices_S2x600000_S1x600000_0_0) main_arg1
  let main_v41 : IVec S600000 32 := shapeCast S600000 main_v40 shapeCasts_S1x600000_S600000
  let main_c_14 : IVec S_ 32 := constantI S_ 32 50000#32
  let main_v42 : IVec S600000 32 := broadcastInDim S600000 ![] bcast_S_S600000 main_c_14
  let main_v43 : IVec S600000 1 := cmpi .slt main_v41 main_v42
  let main_c_15 : IVec S_ 1 := constantI S_ 1 1#1
  let main_v44 : IVec S_ 1 := (fun x v => Host.reduce IntOp.andi x v reducesTo_S600000_S_d0 h_S_) main_v43 main_c_15
  let main_v45 : IVec S_ 1 := andi main_v39 main_v44
  main_v45

def fn_part1 {F : FTy → Type} [FloatOps F] (main_arg1 : IVec S2x600000 32) (main_arg5 : FVec F S40x64 .f32) (main_arg6 : FVec F S40 .f32) (main_arg7 : FVec F S40x64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S40x64 .f32 := Host.absf main_arg5
  let main_cst_6 : FVec F S_ .f32 := constant S_ .f32 0x7F800000#32
  let main_v20 : FVec F S40x64 .f32 := broadcastInDim S40x64 ![] bcast_S_S40x64 main_cst_6
  let main_v21 : IVec S40x64 1 := cmpf .olt main_v19 main_v20
  let main_c_7 : IVec S_ 1 := constantI S_ 1 1#1
  let main_v22 : IVec S_ 1 := (fun x v => Host.reduce IntOp.andi x v reducesTo_S40x64_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S40x64 .f32 := Host.absf main_arg7
  let main_cst_10 : FVec F S_ .f32 := constant S_ .f32 0x7F800000#32
  let main_v30 : FVec F S40x64 .f32 := broadcastInDim S40x64 ![] bcast_S_S40x64 main_cst_10
  let main_v31 : IVec S40x64 1 := cmpf .olt main_v29 main_v30
  let main_c_11 : IVec S_ 1 := constantI S_ 1 1#1
  let main_v32 : IVec S_ 1 := (fun x v => Host.reduce IntOp.andi x v reducesTo_S40x64_S_d0_1 h_S_) main_v31 main_c_11
  let main_v33 : IVec S_ 1 := andi main_v28 main_v32
  fn_part2 (F := F) main_arg1 main_v33

def fn {F : FTy → Type} [FloatOps F] (main_arg0 : FVec F S50000x128 .f32) (main_arg1 : IVec S2x600000 32) (main_arg2 : FVec F S64x128 .f32) (main_arg3 : FVec F S64 .f32) (main_arg4 : FVec F S64x128 .f32) (main_arg5 : FVec F S40x64 .f32) (main_arg6 : FVec F S40 .f32) (main_arg7 : FVec F S40x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg1 main_arg5 main_arg6 main_arg7 main_v13 main_v16
-- ==== Kernel.lean ====
abbrev S50000x128 : Shape := ⟨2, ![50000, 128]⟩
abbrev S2x600000 : Shape := ⟨2, ![2, 600000]⟩
abbrev S64x128 : Shape := ⟨2, ![64, 128]⟩
abbrev S64 : Shape := ⟨1, ![64]⟩
abbrev S40x64 : Shape := ⟨2, ![40, 64]⟩
abbrev S40 : Shape := ⟨1, ![40]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S51200 : Shape := ⟨1, ![51200]⟩
abbrev S51200x1 : Shape := ⟨2, ![51200, 1]⟩
abbrev S600064 : Shape := ⟨1, ![600064]⟩
abbrev S600064x1 : Shape := ⟨2, ![600064, 1]⟩
abbrev S1x600064 : Shape := ⟨2, ![1, 600064]⟩
abbrev S51200x128 : Shape := ⟨2, ![51200, 128]⟩
abbrev S128x64 : Shape := ⟨2, ![128, 64]⟩
abbrev S1x64 : Shape := ⟨2, ![1, 64]⟩
abbrev S600064x128 : Shape := ⟨2, ![600064, 128]⟩
abbrev S1024x1 : Shape := ⟨2, ![1024, 1]⟩
abbrev S2048x128 : Shape := ⟨2, ![2048, 128]⟩
abbrev S1024x128 : Shape := ⟨2, ![1024, 128]⟩
abbrev S1024x2048 : Shape := ⟨2, ![1024, 2048]⟩
abbrev S1x1024 : Shape := ⟨2, ![1, 1024]⟩
abbrev S2048x1024 : Shape := ⟨2, ![2048, 1024]⟩
abbrev S51200x64 : Shape := ⟨2, ![51200, 64]⟩
abbrev S2048x1 : Shape := ⟨2, ![2048, 1]⟩
abbrev S2048x64 : Shape := ⟨2, ![2048, 64]⟩
abbrev S64x40 : Shape := ⟨2, ![64, 40]⟩
abbrev S1x40 : Shape := ⟨2, ![1, 40]⟩
abbrev S1x128 : Shape := ⟨2, ![1, 128]⟩
abbrev S600064x64 : Shape := ⟨2, ![600064, 64]⟩
abbrev S1024x64 : Shape := ⟨2, ![1024, 64]⟩
abbrev S51200x40 : Shape := ⟨2, ![51200, 40]⟩
abbrev S50000x40 : Shape := ⟨2, ![50000, 40]⟩

abbrev nBuf : Space → Nat
  | .hbm => 61
  | .vmem => 54
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S40x64, .f32⟩
  | .hbm, ⟨6, _⟩ => ⟨S40, .f32⟩
  | .hbm, ⟨7, _⟩ => ⟨S40x64, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .i32⟩
  | .hbm, ⟨19, _⟩ => ⟨S_, .f32⟩
  | .hbm, ⟨20, _⟩ => ⟨S51200, .f32⟩
  | .hbm, ⟨21, _⟩ => ⟨S51200x1, .f32⟩
  | .hbm, ⟨22, _⟩ => ⟨S_, .i32⟩
  | .hbm, ⟨23, _⟩ => ⟨S_, .i32⟩
  | .hbm, ⟨24, _⟩ => ⟨S600064, .i32⟩
  | .hbm, ⟨25, _⟩ => ⟨S_, .i32⟩
  | .hbm, ⟨26, _⟩ => ⟨S_, .i32⟩
  | .hbm, ⟨27, _⟩ => ⟨S600064, .i32⟩
  | .hbm, ⟨28, _⟩ => ⟨S600064x1, .i32⟩
  | .hbm, ⟨29, _⟩ => ⟨S1x600064, .i32⟩
  | .hbm, ⟨30, _⟩ => ⟨S_, .i32⟩
  | .hbm, ⟨31, _⟩ => ⟨S_, .f32⟩
  | .hbm, ⟨32, _⟩ => ⟨S51200x128, .f32⟩
  | .hbm, ⟨33, _⟩ => ⟨S51200x128, .bf16⟩
  | .hbm, ⟨34, _⟩ => ⟨S128x64, .f32⟩
  | .hbm, ⟨35, _⟩ => ⟨S128x64, .bf16⟩
  | .hbm, ⟨36, _⟩ => ⟨S128x64, .f32⟩
  | .hbm, ⟨37, _⟩ => ⟨S128x64, .bf16⟩
  | .hbm, ⟨38, _⟩ => ⟨S1x64, .f32⟩
  | .hbm, ⟨39, _⟩ => ⟨S600064x128, .bf16⟩
  | .hbm, ⟨40, _⟩ => ⟨S51200x128, .f32⟩
  | .hbm, ⟨41, _⟩ => ⟨S51200x64, .bf16⟩
  | .hbm, ⟨42, _⟩ => ⟨S64x40, .f32⟩
  | .hbm, ⟨43, _⟩ => ⟨S64x40, .bf16⟩
  | .hbm, ⟨44, _⟩ => ⟨S64x40, .f32⟩
  | .hbm, ⟨45, _⟩ => ⟨S64x40, .bf16⟩
  | .hbm, ⟨46, _⟩ => ⟨S1x40, .f32⟩
  | .hbm, ⟨47, _⟩ => ⟨S_, .i32⟩
  | .hbm, ⟨48, _⟩ => ⟨S_, .bf16⟩
  | .hbm, ⟨49, _⟩ => ⟨S64x128, .bf16⟩
  | .hbm, ⟨50, _⟩ => ⟨S_, .i32⟩
  | .hbm, ⟨51, _⟩ => ⟨S_, .f32⟩
  | .hbm, ⟨52, _⟩ => ⟨S1x128, .f32⟩
  | .hbm, ⟨53, _⟩ => ⟨S_, .i32⟩
  | .hbm, ⟨54, _⟩ => ⟨S_, .bf16⟩
  | .hbm, ⟨55, _⟩ => ⟨S64x128, .bf16⟩
  | .hbm, ⟨56, _⟩ => ⟨S600064x64, .bf16⟩
  | .hbm, ⟨57, _⟩ => ⟨S51200x64, .f32⟩
  | .hbm, ⟨58, _⟩ => ⟨S51200x128, .f32⟩
  | .hbm, ⟨59, _⟩ => ⟨S51200x40, .f32⟩
  | .hbm, ⟨60, _⟩ => ⟨S50000x40, .f32⟩
  | .local _ .vmem, ⟨0, _⟩ => ⟨S1024x1, .i32⟩
  | .local _ .vmem, ⟨1, _⟩ => ⟨S1024x1, .i32⟩
  | .local _ .vmem, ⟨2, _⟩ => ⟨S2048x128, .bf16⟩
  | .local _ .vmem, ⟨3, _⟩ => ⟨S2048x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | .local _ .vmem, ⟨7, _⟩ => ⟨S1024x2048, .i32⟩
  | .local _ .vmem, ⟨8, _⟩ => ⟨S1x1024, .i32⟩
  | .local _ .vmem, ⟨9, _⟩ => ⟨S1x1024, .i32⟩
  | .local _ .vmem, ⟨10, _⟩ => ⟨S1024x128, .bf16⟩
  | .local _ .vmem, ⟨11, _⟩ => ⟨S1024x128, .bf16⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x1024, .i32⟩
  | .local _ .vmem, ⟨16, _⟩ => ⟨S2048x128, .f32⟩
  | .local _ .vmem, ⟨17, _⟩ => ⟨S2048x128, .f32⟩
  | .local _ .vmem, ⟨18, _⟩ => ⟨S2048x128, .bf16⟩
  | .local _ .vmem, ⟨19, _⟩ => ⟨S2048x128, .bf16⟩
  | .local _ .vmem, ⟨20, _⟩ => ⟨S2048x1, .f32⟩
  | .local _ .vmem, ⟨21, _⟩ => ⟨S2048x1, .f32⟩
  | .local _ .vmem, ⟨22, _⟩ => ⟨S128x64, .bf16⟩
  | .local _ .vmem, ⟨23, _⟩ => ⟨S1x64, .f32⟩
  | .local _ .vmem, ⟨24, _⟩ => ⟨S128x64, .bf16⟩
  | .local _ .vmem, ⟨25, _⟩ => ⟨S2048x64, .bf16⟩
  | .local _ .vmem, ⟨26, _⟩ => ⟨S2048x64, .bf16⟩
  | .local _ .vmem, ⟨27, _⟩ => ⟨S1024x1, .i32⟩
  | .local _ .vmem, ⟨28, _⟩ => ⟨S1024x1, .i32⟩
  | .local _ .vmem, ⟨29, _⟩ => ⟨S2048x64, .bf16⟩
  | .local _ .vmem, ⟨30, _⟩ => ⟨S2048x64, .bf16⟩
  | .local _ .vmem, ⟨31, _⟩ => ⟨S1024x64, .bf16⟩
  | .local _ .vmem, ⟨32, _⟩ => ⟨S1024x64, .bf16⟩
  | .local _ .vmem, ⟨33, _⟩ => ⟨S1024x64, .f32⟩
  | .local _ .vmem, ⟨34, _⟩ => ⟨S1024x2048, .i32⟩
  | .local _ .vmem, ⟨35, _⟩ => ⟨S1x1024, .i32⟩
  | .local _ .vmem, ⟨36, _⟩ => ⟨S1x1024, .i32⟩
  | .local _ .vmem, ⟨37, _⟩ => ⟨S1024x64, .bf16⟩
  | .local _ .vmem, ⟨38, _⟩ => ⟨S1024x64, .bf16⟩
  | .local _ .vmem, ⟨39, _⟩ => ⟨S2048x64, .f32⟩
  | .local _ .vmem, ⟨40, _⟩ => ⟨S2048x64, .f32⟩
  | .local _ .vmem, ⟨41, _⟩ => ⟨S2048x64, .f32⟩
  | .local _ .vmem, ⟨42, _⟩ => ⟨S2048x1024, .i32⟩
  | .local _ .vmem, ⟨43, _⟩ => ⟨S2048x64, .f32⟩
  | .local _ .vmem, ⟨44, _⟩ => ⟨S2048x64, .f32⟩
  | .local _ .vmem, ⟨45, _⟩ => ⟨S2048x64, .bf16⟩
  | .local _ .vmem, ⟨46, _⟩ => ⟨S2048x64, .bf16⟩
  | .local _ .vmem, ⟨47, _⟩ => ⟨S2048x1, .f32⟩
  | .local _ .vmem, ⟨48, _⟩ => ⟨S2048x1, .f32⟩
  | .local _ .vmem, ⟨49, _⟩ => ⟨S64x128, .bf16⟩
  | .local _ .vmem, ⟨50, _⟩ => ⟨S1x128, .f32⟩
  | .local _ .vmem, ⟨51, _⟩ => ⟨S64x128, .bf16⟩
  | .local _ .vmem, ⟨52, _⟩ => ⟨S2048x128, .f32⟩
  | .local _ .vmem, ⟨53, _⟩ => ⟨S2048x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_call0_v0 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_call1_v0 : Ref sig .tc := ⟨.hbm, 23, rfl⟩
abbrev main_v10 : Ref sig .tc := ⟨.hbm, 24, rfl⟩
abbrev main_c_2 : Ref sig .tc := ⟨.hbm, 25, rfl⟩
abbrev main_call2_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_call3_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_call4_v0 : Ref sig .tc := ⟨.hbm, 48, rfl⟩
abbrev main_v29 : Ref sig .tc := ⟨.hbm, 49, rfl⟩
abbrev main_c_5 : Ref sig .tc := ⟨.hbm, 50, rfl⟩
abbrev main_call5_v0 : Ref sig .tc := ⟨.hbm, 51, rfl⟩
abbrev main_v30 : Ref sig .tc := ⟨.hbm, 52, rfl⟩
abbrev main_c_6 : Ref sig .tc := ⟨.hbm, 53, rfl⟩
abbrev main_call6_v0 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc1_scratch1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_scratch0 : Ref sig .tc := ⟨.vmem, 33, rfl⟩
abbrev cc3_scratch1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg2_1 : Ref sig .tc := ⟨.vmem, 40, rfl⟩
abbrev cc4_scratch0 : Ref sig .tc := ⟨.vmem, 41, rfl⟩
abbrev cc4_scratch1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg2_1 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg5_0 : Ref sig .tc := ⟨.vmem, 51, rfl⟩
abbrev cc5_stg6_0 : Ref sig .tc := ⟨.vmem, 52, rfl⟩
abbrev cc5_stg6_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem2_1 : DmaSem sig := 40
abbrev cc5_sem3_0 : DmaSem sig := 41
abbrev cc5_sem4_0 : DmaSem sig := 42
abbrev cc5_sem5_0 : DmaSem sig := 43
abbrev cc5_sem6_0 : DmaSem sig := 44
abbrev cc5_sem6_1 : DmaSem sig := 45

abbrev nD : Nat := 1
abbrev τ : Topo := Topo.v7x

variable {F : FTy → Type} [FloatOps F]

abbrev grid0 : Pipeline.Grid := ⟨2, ![586, 25], ![false, false]⟩

def k0_cond2 (i : grid0.Coords) : BitVec 1 :=
  let arg1 : BitVec 32 := BitVec.ofNat 32 (i 1).val
  let c24_i32 : BitVec 32 := 24#32
  let v23 : BitVec 1 := Scalar.cmpi .eq arg1 c24_i32
  let v24 : BitVec 32 := Scalar.extui v23
  let c0_i32_10 : BitVec 32 := 0#32
  let v25 : BitVec 1 := Scalar.cmpi .ne v24 c0_i32_10
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![25, 586], ![false, false]⟩

def k1_cond2 (i : grid1.Coords) : BitVec 1 :=
  let arg1 : BitVec 32 := BitVec.ofNat 32 (i 1).val
  let c585_i32 : BitVec 32 := 585#32
  let v23 : BitVec 1 := Scalar.cmpi .eq arg1 c585_i32
  let v24 : BitVec 32 := Scalar.extui v23
  let c0_i32_10 : BitVec 32 := 0#32
  let v25 : BitVec 1 := Scalar.cmpi .ne v24 c0_i32_10
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x64 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2048x64 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨2, ![586, 25], ![false, false]⟩

def k3_cond2 (i : grid3.Coords) : BitVec 1 :=
  let arg1 : BitVec 32 := BitVec.ofNat 32 (i 1).val
  let c24_i32 : BitVec 32 := 24#32
  let v23 : BitVec 1 := Scalar.cmpi .eq arg1 c24_i32
  let v24 : BitVec 32 := Scalar.extui v23
  let c0_i32_10 : BitVec 32 := 0#32
  let v25 : BitVec 1 := Scalar.cmpi .ne v24 c0_i32_10
  v25

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![25, 586], ![false, false]⟩

def k4_cond2 (i : grid4.Coords) : BitVec 1 :=
  let arg1 : BitVec 32 := BitVec.ofNat 32 (i 1).val
  let c585_i32 : BitVec 32 := 585#32
  let v23 : BitVec 1 := Scalar.cmpi .eq arg1 c585_i32
  let v24 : BitVec 32 := Scalar.extui v23
  let c0_i32_10 : BitVec 32 := 0#32
  let v25 : BitVec 1 := Scalar.cmpi .ne v24 c0_i32_10
  v25

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1x1024 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1024x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x64 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2048x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64x128 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x128 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2048x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  pads_S50000_S51200_012000 : S50000.Pads (![0] : Fin 1 → Nat) ![1200] ![0] S51200
  h_S_ : 0 < S_.numel
  shapeCasts_S51200_S51200x1 : S51200.ShapeCasts S51200x1
  pads_S600000_S600064_0640 : S600000.Pads (![0] : Fin 1 → Nat) ![64] ![0] S600064
  shapeCasts_S600064_S600064x1 : S600064.ShapeCasts S600064x1
  shapeCasts_S600064_S1x600064 : S600064.ShapeCasts S1x600064
  pads_S50000x128_S51200x128_012000_000 : S50000x128.Pads (![0, 0] : Fin 2 → Nat) ![1200, 0] ![0, 0] S51200x128
  bitsLt_bf16_f32 : FTy.bits .bf16 < FTy.bits .f32
  transposes_S64x128_S128x64_1_0 : S64x128.Transposes [1, 0] S128x64
  shapeCasts_S64_S1x64 : S64.ShapeCasts S1x64
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  iota_S1024x2048_d1_w32 : S1024x2048.Iotas .tc 32 [1]
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x2048 : S1024x1.Broadcasts S1024x2048
  natLt_1_32 : 1 < 32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S1024x128_S1024x128_0_0 : (Rect.unit (s := S1024x128) ![0, 0] S1024x128.size inb_S1024x128_S1024x128_0_0).PackedRows (EltTy.packing .bf16)
  iota_S2048x1024_d0_w32 : S2048x1024.Iotas .tc 32 [0]
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  iota_S2048x64_d0_w32 : S2048x64.Iotas .tc 32 [0]
  inb_S2048x64_S2048x64_0_0 : ∀ a, (![0, 0] : Fin 2 → Nat) a + S2048x64.size a ≤ S2048x64.size a
  h_S2048x64 : 0 < S2048x64.numel
  packedbf16_S2048x64_S2048x64_0_0 : (Rect.unit (s := S2048x64) ![0, 0] S2048x64.size inb_S2048x64_S2048x64_0_0).PackedRows (EltTy.packing .bf16)
  transposes_S40x64_S64x40_1_0 : S40x64.Transposes [1, 0] S64x40
  shapeCasts_S40_S1x40 : S40.ShapeCasts S1x40
  pads_S64x40_S64x128_000_0880 : S64x40.Pads (![0, 0] : Fin 2 → Nat) ![0, 88] ![0, 0] S64x128
  pads_S1x40_S1x128_000_0880 : S1x40.Pads (![0, 0] : Fin 2 → Nat) ![0, 88] ![0, 0] S1x128
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  shapeCasts_S2048x64_S2048x64 : S2048x64.ShapeCasts S2048x64
  packedbf16_S1024x64_S1024x64_0_0 : (Rect.unit (s := S1024x64) ![0, 0] S1024x64.size inb_S1024x64_S1024x64_0_0).PackedRows (EltTy.packing .bf16)
  broadcasts_S2048x1_S2048x64 : S2048x1.Broadcasts S2048x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  iota_S2048x128_d0_w32 : S2048x128.Iotas .tc 32 [0]
  slices_S51200x128_S51200x40_0_0 : S51200x128.Slices ![0, 0] S51200x40
  slices_S51200x40_S50000x40_0_0 : S51200x40.Slices ![0, 0] S50000x40
  scatter_S50000_S600000x1_S600000_n_0_0_1_wf : ScatterDims.WF S50000 S600000x1 S600000 [] [0] [0] 1
  dot_S1024x2048_S2048x128_S1024x128_1_0_0_1_n_n_wf : DotDims.WF S1024x2048 S2048x128 S1024x128 [1] [0] [0] [1] [] []
  dot_S2048x1024_S1024x128_S2048x128_1_0_0_1_n_n_wf : DotDims.WF S2048x1024 S1024x128 S2048x128 [1] [0] [0] [1] [] []
  dot_S2048x128_S128x64_S2048x64_1_0_0_1_n_n_wf : DotDims.WF S2048x128 S128x64 S2048x64 [1] [0] [0] [1] [] []
  dot_S1024x2048_S2048x64_S1024x64_1_0_0_1_n_n_wf : DotDims.WF S1024x2048 S2048x64 S1024x64 [1] [0] [0] [1] [] []
  dot_S2048x1024_S1024x64_S2048x64_1_0_0_1_n_n_wf : DotDims.WF S2048x1024 S1024x64 S2048x64 [1] [0] [0] [1] [] []
  dot_S2048x64_S64x128_S2048x128_1_0_0_1_n_n_wf : DotDims.WF S2048x64 S64x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S600064x1.size a
  hwx0_0 : ∀ i : grid0.Coords, EltTy.bits .i32 = 32 ∨ (Rect.block (s := S600064x1) S1024x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S51200x128.size a
  hwx0_1 : ∀ i : grid0.Coords, EltTy.bits .bf16 = 32 ∨ (Rect.block (s := S51200x128) S2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S600064x128.size a
  hwx0_2 : ∀ i : grid0.Coords, EltTy.bits .bf16 = 32 ∨ (Rect.block (s := S600064x128) S1024x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x600064.size a
  hwx1_0 : ∀ i : grid1.Coords, EltTy.bits .i32 = 32 ∨ (Rect.block (s := S1x600064) S1x1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S600064x128.size a
  hwx1_1 : ∀ i : grid1.Coords, EltTy.bits .bf16 = 32 ∨ (Rect.block (s := S600064x128) S1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S51200x128.size a
  hwx1_2 : ∀ i : grid1.Coords, EltTy.bits .f32 = 32 ∨ (Rect.block (s := S51200x128) S2048x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S51200x128.size a
  hwx2_0 : ∀ i : grid2.Coords, EltTy.bits .f32 = 32 ∨ (Rect.block (s := S51200x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S51200x128.size a
  hwx2_1 : ∀ i : grid2.Coords, EltTy.bits .bf16 = 32 ∨ (Rect.block (s := S51200x128) S2048x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S51200x1.size a
  hwx2_2 : ∀ i : grid2.Coords, EltTy.bits .f32 = 32 ∨ (Rect.block (s := S51200x1) S2048x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .bf16 = 32 ∨ (Rect.block (s := S128x64) S128x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x64.size a ≤ S128x64.size a
  hwx2_5 : ∀ i : grid2.Coords, EltTy.bits .bf16 = 32 ∨ (Rect.block (s := S128x64) S128x64.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2048x64.size a ≤ S51200x64.size a
  hwx2_6 : ∀ i : grid2.Coords, EltTy.bits .bf16 = 32 ∨ (Rect.block (s := S51200x64) S2048x64.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1.size a ≤ S600064x1.size a
  hwx3_0 : ∀ i : grid3.Coords, EltTy.bits .i32 = 32 ∨ (Rect.block (s := S600064x1) S1024x1.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x64.size a ≤ S51200x64.size a
  hwx3_1 : ∀ i : grid3.Coords, EltTy.bits .bf16 = 32 ∨ (Rect.block (s := S51200x64) S2048x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x64.size a ≤ S600064x64.size a
  hwx3_2 : ∀ i : grid3.Coords, EltTy.bits .bf16 = 32 ∨ (Rect.block (s := S600064x64) S1024x64.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x1024.size a ≤ S1x600064.size a
  hwx4_0 : ∀ i : grid4.Coords, EltTy.bits .i32 = 32 ∨ (Rect.block (s := S1x600064) S1x1024.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x64.size a ≤ S600064x64.size a
  hwx4_1 : ∀ i : grid4.Coords, EltTy.bits .bf16 = 32 ∨ (Rect.block (s := S600064x64) S1024x64.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x64.size a ≤ S51200x64.size a
  hwx4_2 : ∀ i : grid4.Coords, EltTy.bits .f32 = 32 ∨ (Rect.block (s := S51200x64) S2048x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x64.size a ≤ S51200x64.size a
  hwx5_0 : ∀ i : grid5.Coords, EltTy.bits .f32 = 32 ∨ (Rect.block (s := S51200x64) S2048x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x64.size a ≤ S51200x64.size a
  hwx5_1 : ∀ i : grid5.Coords, EltTy.bits .bf16 = 32 ∨ (Rect.block (s := S51200x64) S2048x64.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x1.size a ≤ S51200x1.size a
  hwx5_2 : ∀ i : grid5.Coords, EltTy.bits .f32 = 32 ∨ (Rect.block (s := S51200x1) S2048x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x128.size a ≤ S64x128.size a
  hwx5_3 : ∀ i : grid5.Coords, EltTy.bits .bf16 = 32 ∨ (Rect.block (s := S64x128) S64x128.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x128.size a ≤ S64x128.size a
  hwx5_5 : ∀ i : grid5.Coords, EltTy.bits .bf16 = 32 ∨ (Rect.block (s := S64x128) S64x128.size (cc5_transform_5 i) (hinb5_5 i)).WholeWords (EltTy.packing .bf16)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2048x128.size a ≤ S51200x128.size a
  hwx5_6 : ∀ i : grid5.Coords, EltTy.bits .f32 = 32 ∨ (Rect.block (s := S51200x128) S2048x128.size (cc5_transform_6 i) (hinb5_6 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf

abbrev win0_0 : Pipeline.Window sig grid0 :=
  Pipeline.Window.ofSpec (Memref.whole main_v12) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v13) S1x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v22) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v17) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S128x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v23) S2048x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v12) S1024x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32) S1024x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v13) S1x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S1024x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v33) S2048x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v33) S2048x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v23) S2048x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v9) S2048x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v29) S64x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v30) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v31) S64x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v34) S2048x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S64x128 : Shape := ⟨2, ![64, 128]⟩
abbrev S64 : Shape := ⟨1, ![64]⟩
abbrev S40x64 : Shape := ⟨2, ![40, 64]⟩
abbrev S40 : Shape := ⟨1, ![40]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S128x64 : Shape := ⟨2, ![128, 64]⟩
abbrev S50000x64 : Shape := ⟨2, ![50000, 64]⟩
abbrev S1x64 : Shape := ⟨2, ![1, 64]⟩
abbrev S600000x64 : Shape := ⟨2, ![600000, 64]⟩
abbrev S64x40 : Shape := ⟨2, ![64, 40]⟩
abbrev S50000x40 : Shape := ⟨2, ![50000, 40]⟩
abbrev S1x40 : Shape := ⟨2, ![1, 40]⟩

abbrev nBuf : Space → Nat
  | .hbm => 86
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S40x64, .f32⟩
  | .hbm, ⟨6, _⟩ => ⟨S40, .f32⟩
  | .hbm, ⟨7, _⟩ => ⟨S40x64, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S50000, .f32⟩
  | .hbm, ⟨29, _⟩ => ⟨S600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x64, .f32⟩
  | .hbm, ⟨38, _⟩ => ⟨S50000x64, .f32⟩
  | .hbm, ⟨39, _⟩ => ⟨S1x64, .f32⟩
  | .hbm, ⟨40, _⟩ => ⟨S50000x64, .f32⟩
  | .hbm, ⟨41, _⟩ => ⟨S50000x64, .f32⟩
  | .hbm, ⟨42, _⟩ => ⟨S128x64, .f32⟩
  | .hbm, ⟨43, _⟩ => ⟨S50000x64, .f32⟩
  | .hbm, ⟨44, _⟩ => ⟨S50000x64, .f32⟩
  | .hbm, ⟨45, _⟩ => ⟨S50000x64, .f32⟩
  | .hbm, ⟨46, _⟩ => ⟨S50000x64, .f32⟩
  | .hbm, ⟨47, _⟩ => ⟨S_, .f32⟩
  | .hbm, ⟨48, _⟩ => ⟨S50000x64, .f32⟩
  | .hbm, ⟨49, _⟩ => ⟨S50000x64, .f32⟩
  | .hbm, ⟨50, _⟩ => ⟨S_, .f32⟩
  | .hbm, ⟨51, _⟩ => ⟨S50000x64, .f32⟩
  | .hbm, ⟨52, _⟩ => ⟨S50000x64, .f32⟩
  | .hbm, ⟨53, _⟩ => ⟨S_, .i32⟩
  | .hbm, ⟨54, _⟩ => ⟨S600000, .i32⟩
  | .hbm, ⟨55, _⟩ => ⟨S600000, .i1⟩
  | .hbm, ⟨56, _⟩ => ⟨S_, .i32⟩
  | .hbm, ⟨57, _⟩ => ⟨S600000, .i32⟩
  | .hbm, ⟨58, _⟩ => ⟨S600000, .i32⟩
  | .hbm, ⟨59, _⟩ => ⟨S600000, .i32⟩
  | .hbm, ⟨60, _⟩ => ⟨S600000x1, .i32⟩
  | .hbm, ⟨61, _⟩ => ⟨S600000x64, .f32⟩
  | .hbm, ⟨62, _⟩ => ⟨S_, .f32⟩
  | .hbm, ⟨63, _⟩ => ⟨S50000x64, .f32⟩
  | .hbm, ⟨64, _⟩ => ⟨S600000x1, .i32⟩
  | .hbm, ⟨65, _⟩ => ⟨S50000x64, .f32⟩
  | .hbm, ⟨66, _⟩ => ⟨S_, .f32⟩
  | .hbm, ⟨67, _⟩ => ⟨S600000, .f32⟩
  | .hbm, ⟨68, _⟩ => ⟨S_, .f32⟩
  | .hbm, ⟨69, _⟩ => ⟨S50000, .f32⟩
  | .hbm, ⟨70, _⟩ => ⟨S600000x1, .i32⟩
  | .hbm, ⟨71, _⟩ => ⟨S50000, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S50000x1, .f32⟩
  | .hbm, ⟨76, _⟩ => ⟨S50000x64, .f32⟩
  | .hbm, ⟨77, _⟩ => ⟨S50000x64, .f32⟩
  | .hbm, ⟨78, _⟩ => ⟨S64x40, .f32⟩
  | .hbm, ⟨79, _⟩ => ⟨S50000x40, .f32⟩
  | .hbm, ⟨80, _⟩ => ⟨S1x40, .f32⟩
  | .hbm, ⟨81, _⟩ => ⟨S50000x40, .f32⟩
  | .hbm, ⟨82, _⟩ => ⟨S50000x40, .f32⟩
  | .hbm, ⟨83, _⟩ => ⟨S64x40, .f32⟩
  | .hbm, ⟨84, _⟩ => ⟨S50000x40, .f32⟩
  | .hbm, ⟨85, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_v37 : Ref sig .tc := ⟨.hbm, 54, rfl⟩
abbrev main_v38 : Ref sig .tc := ⟨.hbm, 55, rfl⟩
abbrev main_c_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  transposes_S40x64_S64x40_1_0 : S40x64.Transposes [1, 0] S64x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x64_S50000x64_1_0_0_1_n_n_wf : DotDims.WF S50000x128 S128x64 S50000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  dot_S50000x64_S64x40_S50000x40_1_0_0_1_n_n_wf : DotDims.WF S50000x64 S64x40 S50000x40 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf

class Facts : Prop extends Facts₀ where

variable [Facts]
-- ==== Proof.PreFacts.lean ====
import proofs.«421913_j33337536151789_3_alg».proof.Pre_finite_inputs
import Idealize.ShloMosaic.Lib.ReduceAll
import Idealize.ShloMosaic.Lib.ValueLayout

noncomputable section

namespace Cert.Pre_finite_inputs.Hand

open Idealize.ShloMosaic Cert.Pre_finite_inputs

variable {F : FTy → Type} [FloatOps F]

instance : Subsingleton S_.Idx := ⟨fun a b => funext fun d => d.elim0⟩

theorem ofBool_one : ∀ c : Bool, BitVec.ofBool c = 1#1 → c = true := by decide

theorem toNat_lt_of_signed_range (w b : BitVec 32) (hb : b.toNat < 2 ^ 31)
    (h0 : IntOp.cmpi .sge w 0#32 = 1#1) (h1 : IntOp.cmpi .slt w b = 1#1) : w.toNat < b.toNat := by
  have e0 : (0#32 : BitVec 32).toInt ≤ w.toInt := of_decide_eq_true (ofBool_one ((0#32 : BitVec 32).sle w) h0)
  have e1 : w.toInt < b.toInt := of_decide_eq_true (ofBool_one (w.slt b) h1)
  rw [BitVec.toInt_zero] at e0
  have tw := BitVec.toInt_eq_toNat_cond w
  have tb := BitVec.toInt_eq_toNat_cond b
  have hw := w.isLt
  split at tw <;> split at tb <;> omega

theorem row0_read [Facts] (ei : IVec S2x600000 32) (e : Fin 600000) :
    shapeCast S600000 ((extractStridedSlice S1x600000 ![0, 0] · Facts.slices_S2x600000_S1x600000_0_0) ei)
        Facts.shapeCasts_S1x600000_S600000 (ValueIdx.ix1 e)
      = ei (ValueIdx.ix2 0 e) := by
  rw [ValueIdx.shapeCast_1a_a_apply]
  exact ValueIdx.slice2_axis0_apply 0 _ _ _ _ (0 : Fin 2) rfl

theorem src_lt [Cert.Pre_finite_inputs.Facts] (x : FVec F S50000x128 .f32) (ei : IVec S2x600000 32)
    (Wl1 : FVec F S64x128 .f32) (bl1 : FVec F S64 .f32) (Wr1 : FVec F S64x128 .f32) (Wl2 : FVec F S40x64 .f32)
    (bl2 : FVec F S40 .f32) (Wr2 : FVec F S40x64 .f32)
    (h : Cert.Pre_finite_inputs.fn (F := F) x ei Wl1 bl1 Wr1 Wl2 bl2 Wr2 = fun _ => 1#1) :
    ∀ e : Fin 600000, (ei (Idealize.ShloMosaic.ValueIdx.ix2 0 e)).toNat < 50000 := by
  intro e
  have h0 := congrFun h ValueIdx.ix0
  dsimp only [fn, fn_part1, fn_part2] at h0
  change IntOp.andi (IntOp.andi _ (Host.reduce IntOp.andi _ _ _ _ _)) (Host.reduce IntOp.andi _ _ _ _ _) = 1#1 at h0
  obtain ⟨hA, hlt⟩ := IntOp.andi_eq_one.1 h0
  obtain ⟨-, hge⟩ := IntOp.andi_eq_one.1 hA
  have g := Host.reduce_andi_all _ _ _ _ _ hge (ValueIdx.ix1 e)
  have l := Host.reduce_andi_all _ _ _ _ _ hlt (ValueIdx.ix1 e)
  have g' : IntOp.cmpi .sge (ei (ValueIdx.ix2 0 e)) 0#32 = 1#1 := by
    rw [← row0_read ei e]; exact g
  have l' : IntOp.cmpi .slt (ei (ValueIdx.ix2 0 e)) 50000#32 = 1#1 := by
    rw [← row0_read ei e]; exact l
  exact toNat_lt_of_signed_range _ 50000#32 (by decide) g' l'

end Cert.Pre_finite_inputs.Hand

end
-- ==== Proof.KI.R0Defs.lean ====
import proofs.«421913_j33337536151789_3_alg».proof.Proof.Gen.KernelIdeal.Launch
import proofs.«421913_j33337536151789_3_alg».proof.Proof.Gen.KernelIdeal.Skeleton
import proofs.«421913_j33337536151789_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev sc0_0 : Memref sig .tc .vmem S1024x128 .f32 := Memref.whole cc0_scratch0
abbrev sc0_1 : Memref sig .tc .vmem S1024x2048 .i32 := Memref.whole cc0_scratch1

def acc0 (c : Dev nD) : (n : ℕ) → n < cfg0.N → Vec F S1024x128 .f32
  | 0, hn => k0_pay3 (grid0.coords ⟨0, hn⟩) (iblk0 V c 0 ⟨0, hn⟩) k0_pay2 k0_pay1 (iblk0 V c 1 ⟨0, hn⟩)
  | n + 1, hn => k0_pay3 (grid0.coords ⟨n + 1, hn⟩) (iblk0 V c 0 ⟨n + 1, hn⟩) k0_pay2
      (if (n + 1) % 25 = 0 then k0_pay1 else acc0 c n (Nat.lt_of_succ_lt hn)) (iblk0 V c 1 ⟨n + 1, hn⟩)

theorem acc0_first (c : Dev nD) (t : Fin cfg0.N) (h : t.val % 25 = 0) :
    acc0 V c t.val t.isLt = k0_pay3 (grid0.coords t) (iblk0 V c 0 t) k0_pay2 k0_pay1 (iblk0 V c 1 t) := by
  obtain ⟨n, hn⟩ := t
  cases n with
  | zero => rfl
  | succ n => simp only [acc0]; rw [if_pos h]

theorem acc0_next (c : Dev nD) (t : Fin cfg0.N) (h : ¬ t.val % 25 = 0) :
    acc0 V c t.val t.isLt = k0_pay3 (grid0.coords t) (iblk0 V c 0 t) k0_pay2
      (acc0 V c (t.val - 1) (Nat.lt_of_le_of_lt (Nat.sub_le _ _) t.isLt)) (iblk0 V c 1 t) := by
  obtain ⟨n, hn⟩ := t
  cases n with
  | zero => exact absurd (Nat.zero_mod _) h
  | succ n => simp only [acc0]; rw [if_neg h]; rfl

def Phi0 (c : Dev nD) : (n : ℕ) → n ≤ cfg0.N → sProp 𝕄
  | 0, _ => Pipeline.ΦA spec0 c
  | n + 1, hn => iprop(owns (c : Thread nD τ) sc0_0 fullShare (acc0 V c n hn) ∗ owns (c : Thread nD τ) sc0_1 fullShare (k0_pay2 : Vec F S1024x2048 .i32)
      ∗ Pipeline.scopedRestBut (Ix := Unit) (Name := ℕ) (U := UR sig nD τ) (Lvl := ℕ) (Val := Elt F) spec0 c [cc0_scratch0, cc0_scratch1]
      ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay4 (acc0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay4 (acc0 V c t.val t.isLt) := by dsimp only [dat0]

end Cert.KernelIdeal.Hand

end
-- ==== Proof.KI.R1Defs.lean ====
import proofs.«421913_j33337536151789_3_alg».proof.Proof.Gen.KernelIdeal.Launch
import proofs.«421913_j33337536151789_3_alg».proof.Proof.Gen.KernelIdeal.Skeleton
import proofs.«421913_j33337536151789_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev sc1_0 : Memref sig .tc .vmem S2048x128 .f32 := Memref.whole cc1_scratch0
abbrev sc1_1 : Memref sig .tc .vmem S2048x1024 .i32 := Memref.whole cc1_scratch1

def acc1 (c : Dev nD) : (n : ℕ) → n < cfg1.N → Vec F S2048x128 .f32
  | 0, hn => k1_pay3 (grid1.coords ⟨0, hn⟩) (iblk1 V c 0 ⟨0, hn⟩) k1_pay2 k1_pay1 (iblk1 V c 1 ⟨0, hn⟩)
  | n + 1, hn => k1_pay3 (grid1.coords ⟨n + 1, hn⟩) (iblk1 V c 0 ⟨n + 1, hn⟩) k1_pay2
      (if (n + 1) % 586 = 0 then k1_pay1 else acc1 c n (Nat.lt_of_succ_lt hn)) (iblk1 V c 1 ⟨n + 1, hn⟩)

theorem acc1_first (c : Dev nD) (t : Fin cfg1.N) (h : t.val % 586 = 0) :
    acc1 V c t.val t.isLt = k1_pay3 (grid1.coords t) (iblk1 V c 0 t) k1_pay2 k1_pay1 (iblk1 V c 1 t) := by
  obtain ⟨n, hn⟩ := t
  cases n with
  | zero => rfl
  | succ n => simp only [acc1]; rw [if_pos h]

theorem acc1_next (c : Dev nD) (t : Fin cfg1.N) (h : ¬ t.val % 586 = 0) :
    acc1 V c t.val t.isLt = k1_pay3 (grid1.coords t) (iblk1 V c 0 t) k1_pay2
      (acc1 V c (t.val - 1) (Nat.lt_of_le_of_lt (Nat.sub_le _ _) t.isLt)) (iblk1 V c 1 t) := by
  obtain ⟨n, hn⟩ := t
  cases n with
  | zero => exact absurd (Nat.zero_mod _) h
  | succ n => simp only [acc1]; rw [if_neg h]; rfl

def Phi1 (c : Dev nD) : (n : ℕ) → n ≤ cfg1.N → sProp 𝕄
  | 0, _ => Pipeline.ΦA spec1 c
  | n + 1, hn => iprop(owns (c : Thread nD τ) sc1_0 fullShare (acc1 V c n hn) ∗ owns (c : Thread nD τ) sc1_1 fullShare (k1_pay2 : Vec F S2048x1024 .i32)
      ∗ Pipeline.scopedRestBut (Ix := Unit) (Name := ℕ) (U := UR sig nD τ) (Lvl := ℕ) (Val := Elt F) spec1 c [cc1_scratch0, cc1_scratch1]
      ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

end Cert.KernelIdeal.Hand

end
-- ==== Proof.KI.R2Defs.lean ====
import proofs.«421913_j33337536151789_3_alg».proof.Proof.Gen.KernelIdeal.Launch
import proofs.«421913_j33337536151789_3_alg».proof.Proof.Gen.KernelIdeal.Skeleton
import proofs.«421913_j33337536151789_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2 (c : Dev nD) (t : Fin cfg2.N) : Vec F S2048x64 .bf16 :=
  k2_pay1 (grid2.coords t) (iblk2 V c 0 t) (iblk2 V c 2 t) (iblk2 V c 3 t) (iblk2 V c 4 t) (iblk2 V c 1 t) (iblk2 V c 5 t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2 V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2 V c t := by dsimp only [dat2]

end Cert.KernelIdeal.Hand

end
-- ==== Proof.KI.R3Defs.lean ====
import proofs.«421913_j33337536151789_3_alg».proof.Proof.Gen.KernelIdeal.Launch
import proofs.«421913_j33337536151789_3_alg».proof.Proof.Gen.KernelIdeal.Skeleton
import proofs.«421913_j33337536151789_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev sc3_0 : Memref sig .tc .vmem S1024x64 .f32 := Memref.whole cc3_scratch0
abbrev sc3_1 : Memref sig .tc .vmem S1024x2048 .i32 := Memref.whole cc3_scratch1

def acc3 (c : Dev nD) : (n : ℕ) → n < cfg3.N → Vec F S1024x64 .f32
  | 0, hn => k3_pay3 (grid3.coords ⟨0, hn⟩) (iblk3 V c 0 ⟨0, hn⟩) k3_pay2 k3_pay1 (iblk3 V c 1 ⟨0, hn⟩)
  | n + 1, hn => k3_pay3 (grid3.coords ⟨n + 1, hn⟩) (iblk3 V c 0 ⟨n + 1, hn⟩) k3_pay2
      (if (n + 1) % 25 = 0 then k3_pay1 else acc3 c n (Nat.lt_of_succ_lt hn)) (iblk3 V c 1 ⟨n + 1, hn⟩)

theorem acc3_first (c : Dev nD) (t : Fin cfg3.N) (h : t.val % 25 = 0) :
    acc3 V c t.val t.isLt = k3_pay3 (grid3.coords t) (iblk3 V c 0 t) k3_pay2 k3_pay1 (iblk3 V c 1 t) := by
  obtain ⟨n, hn⟩ := t
  cases n with
  | zero => rfl
  | succ n => simp only [acc3]; rw [if_pos h]

theorem acc3_next (c : Dev nD) (t : Fin cfg3.N) (h : ¬ t.val % 25 = 0) :
    acc3 V c t.val t.isLt = k3_pay3 (grid3.coords t) (iblk3 V c 0 t) k3_pay2
      (acc3 V c (t.val - 1) (Nat.lt_of_le_of_lt (Nat.sub_le _ _) t.isLt)) (iblk3 V c 1 t) := by
  obtain ⟨n, hn⟩ := t
  cases n with
  | zero => exact absurd (Nat.zero_mod _) h
  | succ n => simp only [acc3]; rw [if_neg h]; rfl

def Phi3 (c : Dev nD) : (n : ℕ) → n ≤ cfg3.N → sProp 𝕄
  | 0, _ => Pipeline.ΦA spec3 c
  | n + 1, hn => iprop(owns (c : Thread nD τ) sc3_0 fullShare (acc3 V c n hn) ∗ owns (c : Thread nD τ) sc3_1 fullShare (k3_pay2 : Vec F S1024x2048 .i32)
      ∗ Pipeline.scopedRestBut (Ix := Unit) (Name := ℕ) (U := UR sig nD τ) (Lvl := ℕ) (Val := Elt F) spec3 c [cc3_scratch0, cc3_scratch1]
      ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay4 (acc3 V c t.val t.isLt)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = k3_pay4 (acc3 V c t.val t.isLt) := by dsimp only [dat3]

end Cert.KernelIdeal.Hand

end
-- ==== Proof.KI.R4Defs.lean ====
import proofs.«421913_j33337536151789_3_alg».proof.Proof.Gen.KernelIdeal.Launch
import proofs.«421913_j33337536151789_3_alg».proof.Proof.Gen.KernelIdeal.Skeleton
import proofs.«421913_j33337536151789_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev sc4_0 : Memref sig .tc .vmem S2048x64 .f32 := Memref.whole cc4_scratch0
abbrev sc4_1 : Memref sig .tc .vmem S2048x1024 .i32 := Memref.whole cc4_scratch1

def acc4 (c : Dev nD) : (n : ℕ) → n < cfg4.N → Vec F S2048x64 .f32
  | 0, hn => k4_pay3 (grid4.coords ⟨0, hn⟩) (iblk4 V c 0 ⟨0, hn⟩) k4_pay2 k4_pay1 (iblk4 V c 1 ⟨0, hn⟩)
  | n + 1, hn => k4_pay3 (grid4.coords ⟨n + 1, hn⟩) (iblk4 V c 0 ⟨n + 1, hn⟩) k4_pay2
      (if (n + 1) % 586 = 0 then k4_pay1 else acc4 c n (Nat.lt_of_succ_lt hn)) (iblk4 V c 1 ⟨n + 1, hn⟩)

theorem acc4_first (c : Dev nD) (t : Fin cfg4.N) (h : t.val % 586 = 0) :
    acc4 V c t.val t.isLt = k4_pay3 (grid4.coords t) (iblk4 V c 0 t) k4_pay2 k4_pay1 (iblk4 V c 1 t) := by
  obtain ⟨n, hn⟩ := t
  cases n with
  | zero => rfl
  | succ n => simp only [acc4]; rw [if_pos h]

theorem acc4_next (c : Dev nD) (t : Fin cfg4.N) (h : ¬ t.val % 586 = 0) :
    acc4 V c t.val t.isLt = k4_pay3 (grid4.coords t) (iblk4 V c 0 t) k4_pay2
      (acc4 V c (t.val - 1) (Nat.lt_of_le_of_lt (Nat.sub_le _ _) t.isLt)) (iblk4 V c 1 t) := by
  obtain ⟨n, hn⟩ := t
  cases n with
  | zero => exact absurd (Nat.zero_mod _) h
  | succ n => simp only [acc4]; rw [if_neg h]; rfl

def Phi4 (c : Dev nD) : (n : ℕ) → n ≤ cfg4.N → sProp 𝕄
  | 0, _ => Pipeline.ΦA spec4 c
  | n + 1, hn => iprop(owns (c : Thread nD τ) sc4_0 fullShare (acc4 V c n hn) ∗ owns (c : Thread nD τ) sc4_1 fullShare (k4_pay2 : Vec F S2048x1024 .i32)
      ∗ Pipeline.scopedRestBut (Ix := Unit) (Name := ℕ) (U := UR sig nD τ) (Lvl := ℕ) (Val := Elt F) spec4 c [cc4_scratch0, cc4_scratch1]
      ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4 V c t.val t.isLt := by dsimp only [dat4]

end Cert.KernelIdeal.Hand

end
-- ==== Proof.KI.R5Defs.lean ====
import proofs.«421913_j33337536151789_3_alg».proof.Proof.Gen.KernelIdeal.Launch
import proofs.«421913_j33337536151789_3_alg».proof.Proof.Gen.KernelIdeal.Skeleton
import proofs.«421913_j33337536151789_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5 (c : Dev nD) (t : Fin cfg5.N) : Vec F S2048x128 .f32 :=
  k5_pay1 (grid5.coords t) (iblk5 V c 0 t) (iblk5 V c 2 t) (iblk5 V c 3 t) (iblk5 V c 4 t) (iblk5 V c 1 t) (iblk5 V c 5 t)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5 V c t
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5 V c t := by dsimp only [dat5]

end Cert.KernelIdeal.Hand

end
-- ==== Proof.KI.RunOuts.lean ====
import proofs.«421913_j33337536151789_3_alg».proof.Proof.Gen.KernelIdeal.Regions
import proofs.«421913_j33337536151789_3_alg».proof.Proof.KI.R0Defs
import proofs.«421913_j33337536151789_3_alg».proof.Proof.KI.R1Defs
import proofs.«421913_j33337536151789_3_alg».proof.Proof.KI.R2Defs
import proofs.«421913_j33337536151789_3_alg».proof.Proof.KI.R3Defs
import proofs.«421913_j33337536151789_3_alg».proof.Proof.KI.R4Defs
import proofs.«421913_j33337536151789_3_alg».proof.Proof.KI.R5Defs

noncomputable section

namespace Cert.KernelIdeal.Hand

open Idealize.ShloMosaic Idealize.ShloMosaic.TcCoe
open Idealize.ShloMosaic.Pipeline (Dat Cfg)
open Cert.KernelIdeal Cert.KernelIdeal.Gen

variable {F : FTy → Type} [FloatOps F]

/-- At the exit every array but the call's output array holds what it held at the entry. -/
theorem exit_arr {cfg : Cfg sig Λ₀} {c : Dev nD} {d : Dat τ (Elt F) Unit ℕ (UR sig nD τ) ℕ cfg c} {V : Valuation τ sig (Elt F)}
    (hA : ∀ w, d.A w = V (Pipeline.arrRef cfg.spec w)) (o : Fin cfg.W)
    (hin : ∀ w, w ≠ o → (cfg.win w).isOut = false ∧ Pipeline.arrRef cfg.spec w ≠ Pipeline.arrRef cfg.spec o)
    {x : Buf (Elt F) ((c : Thread nD τ).loc (Pipeline.arrRef cfg.spec o))} (hx : x = d.arrAt o cfg.N) (w : Fin cfg.W) :
    d.arrAt w cfg.N = Function.update V (Pipeline.arrRef cfg.spec o) x (Pipeline.arrRef cfg.spec w) := by
  by_cases h : w = o
  · subst h hx; rw [Function.update_self]
  · rw [Function.update_of_ne (StableHlo.devRef_ne_of_ne (hin w h).2), d.arrAt_in w (hin w h).1, hA]

theorem exit_rest {W : ℕ} {f : Fin W → Ref sig .tc} (o : Fin W) {V : Valuation τ sig (Elt F)}
    {x : (Proc.devRef .tc (f o) : DevRef τ sig).ty.Contents (Elt F)} (b : Ref sig .tc) (hb : b ∉ Finset.univ.image f) :
    Function.update V (f o) x b = V b :=
  Function.update_of_ne (StableHlo.devRef_ne_of_ne (ne_of_mem_of_not_mem (Finset.mem_image_of_mem f (Finset.mem_univ o)) hb).symm) _ _

variable (m : (ℓ : Loc nD τ sig) → Buf (Elt F) ℓ)

abbrev Vin0 : (c : Dev nD) → (b : Ref sig .tc) → Buf (Elt F) ((c : Thread nD τ).loc b) := fun c b => Gen.V9 m c b
def X10 (c : Dev nD) : Buf (Elt F) ((c : Thread nD τ).loc main_v21) := (dat0 (Vin0 m) c).arrAt 2 cfg0.N
abbrev W1 (c : Dev nD) := Function.update (Gen.V9 m c) main_v21 (X10 m c)
abbrev Vin1 : (c : Dev nD) → (b : Ref sig .tc) → Buf (Elt F) ((c : Thread nD τ).loc b) := fun c b => W1 m c b
def X11 (c : Dev nD) : Buf (Elt F) ((c : Thread nD τ).loc main_v22) := (dat1 (Vin1 m) c).arrAt 2 cfg1.N
abbrev W2 (c : Dev nD) := Function.update (W1 m c) main_v22 (X11 m c)
abbrev Vin2 : (c : Dev nD) → (b : Ref sig .tc) → Buf (Elt F) ((c : Thread nD τ).loc b) := fun c b => W2 m c b
def X12 (c : Dev nD) : Buf (Elt F) ((c : Thread nD τ).loc main_v23) := (dat2 (Vin2 m) c).arrAt 6 cfg2.N
abbrev W3 (c : Dev nD) :=
  StableHlo.after hostOps3_5 (StableHlo.after hostOps3_4 (StableHlo.after hostOps3_3 (StableHlo.after hostOps3_2 (StableHlo.after hostOps3_1
    (StableHlo.after hostOps3 (Function.update (W2 m c) main_v23 (X12 m c)))))))
abbrev Vin3 : (c : Dev nD) → (b : Ref sig .tc) → Buf (Elt F) ((c : Thread nD τ).loc b) := fun c b => W3 m c b
def X19 (c : Dev nD) : Buf (Elt F) ((c : Thread nD τ).loc main_v32) := (dat3 (Vin3 m) c).arrAt 2 cfg3.N
abbrev W4 (c : Dev nD) := Function.update (W3 m c) main_v32 (X19 m c)
abbrev Vin4 : (c : Dev nD) → (b : Ref sig .tc) → Buf (Elt F) ((c : Thread nD τ).loc b) := fun c b => W4 m c b
def X20 (c : Dev nD) : Buf (Elt F) ((c : Thread nD τ).loc main_v33) := (dat4 (Vin4 m) c).arrAt 2 cfg4.N
abbrev W5 (c : Dev nD) := Function.update (W4 m c) main_v33 (X20 m c)
abbrev Vin5 : (c : Dev nD) → (b : Ref sig .tc) → Buf (Elt F) ((c : Thread nD τ).loc b) := fun c b => W5 m c b
def X21 (c : Dev nD) : Buf (Elt F) ((c : Thread nD τ).loc main_v34) := (dat5 (Vin5 m) c).arrAt 6 cfg5.N

/-- What the six calls leave, each in its own output array. -/
def outs : Gen.Outs (F := F) := fun _ r c =>
  if h : r = main_v21 then h ▸ X10 m c else
  if h : r = main_v22 then h ▸ X11 m c else
  if h : r = main_v23 then h ▸ X12 m c else
  if h : r = main_v32 then h ▸ X19 m c else
  if h : r = main_v33 then h ▸ X20 m c else
  if h : r = main_v34 then h ▸ X21 m c else m ((c : Thread nD τ).loc r)

theorem outs_v21 (J : ℕ) (c : Dev nD) : outs m J main_v21 c = X10 m c := dif_pos rfl
theorem outs_v22 (J : ℕ) (c : Dev nD) : outs m J main_v22 c = X11 m c := (dif_neg (by decide)).trans (dif_pos rfl)
theorem outs_v23 (J : ℕ) (c : Dev nD) : outs m J main_v23 c = X12 m c :=
  (dif_neg (by decide)).trans ((dif_neg (by decide)).trans (dif_pos rfl))
theorem outs_v32 (J : ℕ) (c : Dev nD) : outs m J main_v32 c = X19 m c :=
  (dif_neg (by decide)).trans ((dif_neg (by decide)).trans ((dif_neg (by decide)).trans (dif_pos rfl)))
theorem outs_v33 (J : ℕ) (c : Dev nD) : outs m J main_v33 c = X20 m c :=
  (dif_neg (by decide)).trans ((dif_neg (by decide)).trans ((dif_neg (by decide)).trans ((dif_neg (by decide)).trans (dif_pos rfl))))
theorem outs_v34 (J : ℕ) (c : Dev nD) : outs m J main_v34 c = X21 m c :=
  (dif_neg (by decide)).trans ((dif_neg (by decide)).trans ((dif_neg (by decide)).trans ((dif_neg (by decide)).trans ((dif_neg (by decide)).trans (dif_pos rfl)))))

theorem W1_outs : Gen.V10 m (outs m) = W1 m := by funext c; unfold Gen.V10; rw [outs_v21]
theorem W2_outs : Gen.V11 m (outs m) = W2 m := by funext c; unfold Gen.V11; rw [W1_outs, outs_v22]
theorem W3_outs : Gen.V18 m (outs m) = W3 m := by
  funext c; unfold Gen.V18 Gen.V17 Gen.V16 Gen.V15 Gen.V14 Gen.V13 Gen.V12; rw [W2_outs, outs_v23]
theorem W4_outs : Gen.V19 m (outs m) = W4 m := by funext c; unfold Gen.V19; rw [W3_outs, outs_v32]
theorem W5_outs : Gen.V20 m (outs m) = W5 m := by funext c; unfold Gen.V20; rw [W4_outs, outs_v33]

theorem outs_v21' (c : Dev nD) : outs m 10 main_v21 c = (dat0 (Vin0 m) c).arrAt 2 cfg0.N := outs_v21 m 10 c
theorem outs_v22' (c : Dev nD) : outs m 11 main_v22 c = (dat1 (fun c b => Gen.V10 m (outs m) c b) c).arrAt 2 cfg1.N := by
  rw [W1_outs]; exact outs_v22 m 11 c
theorem outs_v23' (c : Dev nD) : outs m 12 main_v23 c = (dat2 (fun c b => Gen.V11 m (outs m) c b) c).arrAt 6 cfg2.N := by
  rw [W2_outs]; exact outs_v23 m 12 c
theorem outs_v32' (c : Dev nD) : outs m 19 main_v32 c = (dat3 (fun c b => Gen.V18 m (outs m) c b) c).arrAt 2 cfg3.N := by
  rw [W3_outs]; exact outs_v32 m 19 c
theorem outs_v33' (c : Dev nD) : outs m 20 main_v33 c = (dat4 (fun c b => Gen.V19 m (outs m) c b) c).arrAt 2 cfg4.N := by
  rw [W4_outs]; exact outs_v33 m 20 c
theorem outs_v34' (c : Dev nD) : outs m 21 main_v34 c = (dat5 (fun c b => Gen.V20 m (outs m) c b) c).arrAt 6 cfg5.N := by
  rw [W5_outs]; exact outs_v34 m 21 c

theorem hA0 (c : Dev nD) (w : Fin cfg0.W) : (dat0 (Vin0 m) c).A w = Gen.V9 m c (Pipeline.arrRef spec0 w) := A_eq0 (Vin0 m) c w
theorem hA1 (c : Dev nD) (w : Fin cfg1.W) : (dat1 (Vin1 m) c).A w = Gen.V10 m (outs m) c (Pipeline.arrRef spec1 w) := by
  rw [W1_outs]; exact A_eq1 _ c w
theorem hA2 (c : Dev nD) (w : Fin cfg2.W) : (dat2 (Vin2 m) c).A w = Gen.V11 m (outs m) c (Pipeline.arrRef spec2 w) := by
  rw [W2_outs]; exact A_eq2 _ c w
theorem hA3 (c : Dev nD) (w : Fin cfg3.W) : (dat3 (Vin3 m) c).A w = Gen.V18 m (outs m) c (Pipeline.arrRef spec3 w) := by
  rw [W3_outs]; exact A_eq3 _ c w
theorem hA4 (c : Dev nD) (w : Fin cfg4.W) : (dat4 (Vin4 m) c).A w = Gen.V19 m (outs m) c (Pipeline.arrRef spec4 w) := by
  rw [W4_outs]; exact A_eq4 _ c w
theorem hA5 (c : Dev nD) (w : Fin cfg5.W) : (dat5 (Vin5 m) c).A w = Gen.V20 m (outs m) c (Pipeline.arrRef spec5 w) := by
  rw [W5_outs]; exact A_eq5 _ c w

theorem hF0 (c : Dev nD) : ∀ w : Fin 3, (dat0 (Vin0 m) c).arrAt w cfg0.N = Gen.V10 m (outs m) c (Pipeline.arrRef spec0 w) :=
  exit_arr (hA0 m c) 2 (by decide) (outs_v21 m 10 c)
theorem hrest0 (c : Dev nD) : ∀ b, b ∉ Finset.univ.image (Pipeline.arrRef spec0) → Gen.V10 m (outs m) c b = Gen.V9 m c b :=
  exit_rest (2 : Fin 3)
theorem hF1 (c : Dev nD) : ∀ w : Fin 3, (dat1 (Vin1 m) c).arrAt w cfg1.N = Gen.V11 m (outs m) c (Pipeline.arrRef spec1 w) :=
  exit_arr (hA1 m c) 2 (by decide) (outs_v22 m 11 c)
theorem hrest1 (c : Dev nD) : ∀ b, b ∉ Finset.univ.image (Pipeline.arrRef spec1) → Gen.V11 m (outs m) c b = Gen.V10 m (outs m) c b :=
  exit_rest (2 : Fin 3)
theorem hF2 (c : Dev nD) : ∀ w : Fin 7, (dat2 (Vin2 m) c).arrAt w cfg2.N = Gen.V12 m (outs m) c (Pipeline.arrRef spec2 w) :=
  exit_arr (hA2 m c) 6 (by decide) (outs_v23 m 12 c)
theorem hrest2 (c : Dev nD) : ∀ b, b ∉ Finset.univ.image (Pipeline.arrRef spec2) → Gen.V12 m (outs m) c b = Gen.V11 m (outs m) c b :=
  exit_rest (6 : Fin 7)
theorem hF3 (c : Dev nD) : ∀ w : Fin 3, (dat3 (Vin3 m) c).arrAt w cfg3.N = Gen.V19 m (outs m) c (Pipeline.arrRef spec3 w) :=
  exit_arr (hA3 m c) 2 (by decide) (outs_v32 m 19 c)
theorem hrest3 (c : Dev nD) : ∀ b, b ∉ Finset.univ.image (Pipeline.arrRef spec3) → Gen.V19 m (outs m) c b = Gen.V18 m (outs m) c b :=
  exit_rest (2 : Fin 3)
theorem hF4 (c : Dev nD) : ∀ w : Fin 3, (dat4 (Vin4 m) c).arrAt w cfg4.N = Gen.V20 m (outs m) c (Pipeline.arrRef spec4 w) :=
  exit_arr (hA4 m c) 2 (by decide) (outs_v33 m 20 c)
theorem hrest4 (c : Dev nD) : ∀ b, b ∉ Finset.univ.image (Pipeline.arrRef spec4) → Gen.V20 m (outs m) c b = Gen.V19 m (outs m) c b :=
  exit_rest (2 : Fin 3)
theorem hF5 (c : Dev nD) : ∀ w : Fin 7, (dat5 (Vin5 m) c).arrAt w cfg5.N = Gen.V21 m (outs m) c (Pipeline.arrRef spec5 w) :=
  exit_arr (hA5 m c) 6 (by decide) (outs_v34 m 21 c)
theorem hrest5 (c : Dev nD) : ∀ b, b ∉ Finset.univ.image (Pipeline.arrRef spec5) → Gen.V21 m (outs m) c b = Gen.V20 m (outs m) c b :=
  exit_rest (6 : Fin 7)

end Cert.KernelIdeal.Hand

end
-- ==== Proof.KI.R0Conds.lean ====
import proofs.«421913_j33337536151789_3_alg».proof.Proof.Gen.KernelIdeal.Points

noncomputable section

namespace Cert.KernelIdeal.Hand

open Idealize.ShloMosaic Idealize.ShloMosaic.TcCoe
open Idealize.SL Idealize.SL.Sem
open Cert.KernelIdeal Cert.KernelIdeal.Gen

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 25 = 0 :=
  (by decide +kernel : ∀ t : Fin grid0.N, cond0_0 (grid0.coords t) ↔ t.val % 25 = 0)

abbrev cond0_1 (i : grid0.Coords) : Prop := k0_cond2 i = 1#1

theorem hcond0_1 : ∀ t : Fin cfg0.N, cond0_1 (grid0.coords t) ↔ t.val % 25 = 24 :=
  (by decide +kernel : ∀ t : Fin grid0.N, cond0_1 (grid0.coords t) ↔ t.val % 25 = 24)

theorem idle0_2_of (i : grid0.Coords) (h : ¬cond0_1 i) : cfg0.idle 2 i = true := by
  show (!(k0_cond2 i == 1#1)) = true
  rw [Bool.not_eq_true', beq_eq_false_iff_ne]; exact h

theorem live0_2_of (i : grid0.Coords) (h : cond0_1 i) : cfg0.idle 2 i = false := by
  show (!(k0_cond2 i == 1#1)) = false
  rw [Bool.not_eq_false', beq_iff_eq]; exact h

theorem noFlush0_2 (t : Fin cfg0.N) (h : ¬t.val % 25 = 24) : (cfg0.win 2).flush t = false :=
  Bool.eq_false_iff.mpr fun hf => h ((flush0_2 t).mp hf)

end Cert.KernelIdeal.Hand

end
-- ==== Proof.KI.R0Run.lean ====
import proofs.«421913_j33337536151789_3_alg».proof.Proof.Gen.KernelIdeal.Launch
import proofs.«421913_j33337536151789_3_alg».proof.Proof.Gen.KernelIdeal.Skeleton
import proofs.«421913_j33337536151789_3_alg».proof.Proof.KI.R0Conds
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem r0_hz : (![0, 0] : Fin 2 → Nat) = fun _ => 0 := funext fun a => by fin_cases a <;> rfl

theorem r0_read_writes_cons_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

theorem r0_readAt_whole {Val : EltTy → Type} {sg : RefSig} {κ : Kind} {sp : Space} {S : Shape} {e : EltTy}
    {m : Memref sg κ sp S e} (hm : m.IsWhole) {off : Fin S.rank → Nat} (h : off = fun _ => 0)
    (inb : ∀ a, off a + S.size a ≤ S.size a) (X : S.Idx → Val e) :
    m.view.readAt Val (Rect.unit off S.size inb).toLoadRect (hm.unread X) = X := by
  rw [View.readAt_eq_ld, hm.read_unread]; exact View.ld_unit_zero h inb X

/-- The running sum a tile leaves: its product added to zero over the fresh column table where a row starts, to the sum found over the table found elsewhere. -/
def k0_sum (i : grid0.Coords) (x0 : Vec F S1024x1 .i32) (xs1 : Vec F S1024x2048 .i32) (xs0 : Vec F S1024x128 .f32) (x1 : Vec F S2048x128 .bf16) : Vec F S1024x128 .f32 :=
  k0_pay3 i x0 (if cond0_0 i then k0_pay2 else xs1) (if cond0_0 i then k0_pay1 else xs0) x1

set_option maxHeartbeats 1000000 in
/-- The body on whole buffers at known contents, at any coordinates where a row's first tile is not its last. -/
theorem kernel0 (c : Dev nD) (i : grid0.Coords) (arg2 : Memref sig .tc .vmem S1024x1 .i32) (harg2 : arg2.IsWhole) (arg3 : Memref sig .tc .vmem S2048x128 .bf16) (harg3 : arg3.IsWhole) (arg4 : Memref sig .tc .vmem S1024x128 .bf16) (harg4 : arg4.IsWhole) (arg5 : Memref sig .tc .vmem S1024x128 .f32) (harg5 : arg5.IsWhole) (arg6 : Memref sig .tc .vmem S1024x2048 .i32) (harg6 : arg6.IsWhole)
    (hx : cond0_0 i → ¬cond0_1 i)
    (x0 : Vec F S1024x1 .i32) (x1 : Vec F S2048x128 .bf16) (xi : Vec F S1024x128 .bf16) (xs0 : Vec F S1024x128 .f32) (xs1 : Vec F S1024x2048 .i32) (E : Set ℕ) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare xs0 ∗ owns (c : Thread nD τ) arg6 fullShare xs1
        ∗ (iprop(owns (c : Thread nD τ) arg2 fullShare x0 ∗ owns (c : Thread nD τ) arg3 fullShare x1
            ∗ owns (c : Thread nD τ) arg4 fullShare (if cond0_1 i then k0_pay4 (k0_sum i x0 xs1 xs0 x1) else xi)
            ∗ owns (c : Thread nD τ) arg5 fullShare (k0_sum i x0 xs1 xs0 x1) ∗ owns (c : Thread nD τ) arg6 fullShare (if cond0_0 i then k0_pay2 else xs1)) -∗ K ⟨⟩))
      ⊢ wp frame (wpE (defs₀ (F := F)) Variants.none c none) E (cc0__gather_kernel i arg2 harg2 arg3 harg3 arg4 harg4 arg5 harg5 arg6 harg6) K := by
  by_cases hc0 : cond0_0 i <;> by_cases hc1 : cond0_1 i
  · exact absurd hc1 (hx hc0)
  all_goals
    first | simp only [k0_sum, if_neg hc0] | simp only [k0_sum, if_pos hc0]
    first | simp only [if_neg hc1] | simp only [if_pos hc1]
    simp only [cc0__gather_kernel_eq_skeleton]; unfold cc0__gather_kernel_skel owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]; rotate_left; isplitl [H1]; rotate_left; isplitl [H2]; rotate_left; isplitl [H3]; rotate_left
    all_goals (iexists _; isplitr; swap; · first | iexact H0 | iexact H1 | iexact H2 | iexact H3 | iexact H4)
    all_goals
      ipureintro; sl_unfold_words
      simp only [r0_read_writes_cons_whole (Val := Elt F) (S := S1024x128) _ _ r0_hz, r0_read_writes_cons_whole (Val := Elt F) (S := S1024x2048) _ _ r0_hz,
        Memref.IsWhole.read_unread, r0_readAt_whole harg2 r0_hz, r0_readAt_whole harg3 r0_hz, r0_readAt_whole harg5 r0_hz,
        r0_readAt_whole harg6 r0_hz, View.readCov_unit_zero (S := S1024x128) _ r0_hz, View.readCov_unit_zero (S := S1024x2048) _ r0_hz]

end Cert.KernelIdeal.Hand

end
-- ==== Proof.KI.R0Body.lean ====
import proofs.«421913_j33337536151789_3_alg».proof.Proof.KI.R0Defs
import proofs.«421913_j33337536151789_3_alg».proof.Proof.KI.R0Run
import proofs.«421913_j33337536151789_3_alg».proof.Proof.KI.R0Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ms0_0 (t : Fin cfg0.N) : Memref sig .tc .vmem S1024x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)

abbrev rest0 (c : Dev nD) : sProp 𝕄 := Pipeline.scopedRestBut (Ix := Unit) (Name := ℕ) (U := UR sig nD τ) (Lvl := ℕ) (Val := Elt F) spec0 c [cc0_scratch0, cc0_scratch1]

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem PhiA0_eq (c : Dev nD) :
    (Pipeline.ΦA spec0 c : sProp 𝕄)
      = iprop(iprop(iprop((∃ d, owns (c : Thread nD τ) sc0_0 fullShare d) ∗ (∃ d, owns (c : Thread nD τ) sc0_1 fullShare d))
          ∗ rest0 c) ∗ (∃ r, prngReg c r)) := by
  unfold Pipeline.ΦA; rw [scopedRest0_split]; simp only [sc0_0, sc0_1, owns_whole]; try rfl

theorem Phi0_zero (c : Dev nD) (n : ℕ) (h : n ≤ cfg0.N) (hz : n = 0) : Phi0 V c n h = Pipeline.ΦA spec0 c := by
  subst hz; rfl

theorem Phi0_pos (c : Dev nD) (n : ℕ) (h : n ≤ cfg0.N) (hz : n ≠ 0) :
    Phi0 V c n h = iprop(owns (c : Thread nD τ) sc0_0 fullShare (acc0 V c (n - 1) (by omega)) ∗ owns (c : Thread nD τ) sc0_1 fullShare (k0_pay2 : Vec F S1024x2048 .i32)
      ∗ rest0 c
      ∗ (∃ r, prngReg c r)) := by
  cases n with
  | zero => exact absurd rfl hz
  | succ n => rfl

/-- Before any point the scratch buffers are owned at some contents: off a row's start, the sum the point before left and the column table. -/
theorem Phi0_open (c : Dev nD) (t : Fin cfg0.N) :
    (dat0 V c).Φ t.castSucc ⊢ iprop(∃ d0 d1, ⌜¬cond0_0 (grid0.coords t) → d0 = acc0 V c (t.val - 1) (Nat.lt_of_le_of_lt (Nat.sub_le _ _) t.isLt) ∧ d1 = (k0_pay2 : Vec F S1024x2048 .i32)⌝
      ∗ owns (c : Thread nD τ) sc0_0 fullShare d0 ∗ owns (c : Thread nD τ) sc0_1 fullShare d1
      ∗ rest0 c ∗ (∃ r, prngReg c r)) := by
  rw [show (dat0 V c).Φ t.castSucc = Phi0 V c t.val (Nat.le_of_lt t.isLt) from rfl]
  by_cases hz : t.val = 0
  · rw [Phi0_zero V c _ _ hz, PhiA0_eq]
    iintro ⟨⟨⟨⟨%d0, HS0⟩, ⟨%d1, HS1⟩⟩, HR⟩, Hg⟩
    iexists d0, d1
    iframe HS0 HS1 HR Hg
    ipureintro; exact fun h => absurd ((hcond0_0 t).mpr (by rw [hz])) h
  · rw [Phi0_pos V c _ _ hz]
    iintro ⟨HS0, HS1, HR, Hg⟩
    iexists acc0 V c (t.val - 1) (Nat.lt_of_le_of_lt (Nat.sub_le _ _) t.isLt), k0_pay2
    iframe HS0 HS1 HR Hg
    ipureintro; exact fun _ => ⟨rfl, rfl⟩

/-- The kernel's new sum and table, from what the invariant handed it, are this point's. -/
theorem acc0_step (c : Dev nD) (t : Fin cfg0.N) (d0 : Vec F S1024x128 .f32) (d1 : Vec F S1024x2048 .i32)
    (hd : ¬cond0_0 (grid0.coords t) → d0 = acc0 V c (t.val - 1) (Nat.lt_of_le_of_lt (Nat.sub_le _ _) t.isLt) ∧ d1 = k0_pay2) :
    (if cond0_0 (grid0.coords t) then k0_pay2 else d1) = k0_pay2
      ∧ k0_sum (grid0.coords t) (iblk0 V c 0 t) d1 d0 (iblk0 V c 1 t) = acc0 V c t.val t.isLt := by
  unfold k0_sum
  by_cases hc : cond0_0 (grid0.coords t)
  · simp only [if_pos hc]; exact ⟨trivial, (acc0_first V c t ((hcond0_0 t).mp hc)).symm⟩
  · obtain ⟨rfl, rfl⟩ := hd hc
    simp only [if_neg hc]; exact ⟨trivial, (acc0_next V c t fun h => hc ((hcond0_0 t).mpr h)).symm⟩

/-- The output block's buffer as the kernel leaves it is what the window is owed, stored to or not. -/
theorem leaves0_2 (c : Dev nD) (t : Fin cfg0.N) (d) :
    owns (c : Thread nD τ) (ms0_2 t) fullShare (if cond0_1 (grid0.coords t) then k0_pay4 (acc0 V c t.val t.isLt) else (dat0 V c).before 2 t d)
      ⊢ (dat0 V c).leavesExact 2 t := by
  by_cases hc : cond0_1 (grid0.coords t)
  · rw [if_pos hc]; unfold Dat.leavesExact; rw [live0_2_of _ hc, after0_2]
  · rw [if_neg hc, Dat.leavesExact_idle (dat0 V c) 2 t (idle0_2_of _ hc) (noFlush0_2 t fun h => hc ((hcond0_1 t).mpr h))]
    iintro H; iexists _; iexact H

theorem body_obligation0 (c : Dev nD) : BodyObligation (dat0 (F := F) V c) (defs₀ (F := F)) Variants.none () Set.univ := fun t => by
  rw [bigSep_W0, bigSep_W0]
  simp only [before0_0 V, before0_1 V]
  rw [show (dat0 V c).owesAt () t.succ = (dat0 V c).owesAt () t.castSucc from rfl,
    show (dat0 V c).Φ t.succ = iprop(owns (c : Thread nD τ) sc0_0 fullShare (acc0 V c t.val t.isLt) ∗ owns (c : Thread nD τ) sc0_1 fullShare (k0_pay2 : Vec F S1024x2048 .i32)
      ∗ rest0 c ∗ (∃ r, prngReg c r)) from rfl,
    after0_0 V c t, after0_1 V c t]
  iintro ⟨HP, Ho, ⟨%e0, H0⟩, ⟨%e1, H1⟩, ⟨%e2, H2⟩⟩
  icases Phi0_open V c t $$ HP with ⟨%d0, %d1, %hd, HS0, HS1, HR, Hg⟩
  obtain ⟨hT, hN⟩ := acc0_step V c t d0 d1 hd
  iapply (kernel0 c (grid0.coords t) (ms0_0 t) (hs0_0 t) (ms0_1 t) (hs0_1 t) (ms0_2 t) (hs0_2 t) sc0_0 (Memref.isWhole_whole _) sc0_1 (Memref.isWhole_whole _)
    (fun h0 h1 => by have := (hcond0_0 t).mp h0; have := (hcond0_1 t).mp h1; omega) (iblk0 V c 0 t) (iblk0 V c 1 t) ((dat0 V c).before 2 t e2) d0 d1 Set.univ _)
  rw [hT, hN]
  iframe H0 H1 H2 HS0 HS1
  iintro ⟨H0, H1, H2, HS0, HS1⟩
  iframe H0 H1 HS0 HS1 HR Hg Ho
  iapply leaves0_2 V c t e2
  iexact H2

theorem hin0 (c : Dev nD) : Pipeline.ΦA spec0 c ⊢ (dat0 V c).Φ 0 := by
  rw [show (dat0 V c).Φ 0 = Pipeline.ΦA spec0 c from rfl]

theorem hout0 (c : Dev nD) : (dat0 V c).Φ (Fin.last cfg0.N) ⊢ Pipeline.ΦA spec0 c := by
  rw [show (dat0 V c).Φ (Fin.last cfg0.N) = Phi0 V c cfg0.N (Nat.le_refl _) from rfl, Phi0_pos V c _ _ (by have : cfg0.N = 14650 := N_0; omega), PhiA0_eq]
  iintro ⟨HS0, HS1, HR, Hg⟩
  iframe HR Hg
  isplitl [HS0]
  · iexists _; iexact HS0
  iexists _; iexact HS1

end Cert.KernelIdeal.Hand

end
-- ==== Proof.KI.R1Run.lean ====
import proofs.«421913_j33337536151789_3_alg».proof.Proof.Gen.KernelIdeal.Launch
import proofs.«421913_j33337536151789_3_alg».proof.Proof.Gen.KernelIdeal.Skeleton
import proofs.«421913_j33337536151789_3_alg».proof.Proof.KI.R0Run
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

set_option maxHeartbeats 4000000 in
/-- The body on whole memrefs at known contents: a row's first tile resets the sum and writes the row-index table, every tile adds its product to the sum, a row's last tile copies the sum out. -/
theorem run1 (c : Dev nD) (i : grid1.Coords)
    (arg2 : Memref sig .tc .vmem S1x1024 .i32) (harg2 : arg2.IsWhole)
    (arg3 : Memref sig .tc .vmem S1024x128 .bf16) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S2048x1024 .i32) (harg6 : arg6.IsWhole)
    (hne : cond1_0 i → ¬cond1_1 i)
    (x0 : Vec F S1x1024 .i32) (x1 : Vec F S1024x128 .bf16) (xi xs0 : Vec F S2048x128 .f32)
    (xs1 : Vec F S2048x1024 .i32) (E : Set ℕ) (K : PUnit → sProp 𝕄) :
    iprop(owns (c : Thread nD τ) arg2 fullShare x0 ∗ owns (c : Thread nD τ) arg3 fullShare x1
        ∗ owns (c : Thread nD τ) arg4 fullShare xi
        ∗ owns (c : Thread nD τ) arg5 fullShare xs0 ∗ owns (c : Thread nD τ) arg6 fullShare xs1
        ∗ (iprop(owns (c : Thread nD τ) arg2 fullShare x0 ∗ owns (c : Thread nD τ) arg3 fullShare x1
            ∗ owns (c : Thread nD τ) arg4 fullShare (if cond1_1 i then k1_pay3 i x0 (if cond1_0 i then k1_pay2 else xs1) (if cond1_0 i then k1_pay1 else xs0) x1 else xi)
            ∗ owns (c : Thread nD τ) arg5 fullShare (k1_pay3 i x0 (if cond1_0 i then k1_pay2 else xs1) (if cond1_0 i then k1_pay1 else xs0) x1)
            ∗ owns (c : Thread nD τ) arg6 fullShare (if cond1_0 i then k1_pay2 else xs1)) -∗ K ⟨⟩))
      ⊢ wp frame (wpE (defs₀ (F := F)) Variants.none c none) E
          (cc1__scatter_kernel i arg2 harg2 arg3 harg3 arg4 harg4 arg5 harg5 arg6 harg6) K := by
  by_cases hc0 : cond1_0 i <;> by_cases hc1 : cond1_1 i
  · exact absurd hc1 (hne hc0)
  all_goals
    first | rw [if_pos hc0, if_pos hc0] | rw [if_neg hc0, if_neg hc0]
    first | rw [if_pos hc1] | rw [if_neg hc1]
    rw [cc1__scatter_kernel_eq_skeleton]; unfold cc1__scatter_kernel_skel
    unfold owns
    iintro ⟨⟨%f0, %hf0, H0⟩, ⟨%f1, %hf1, H1⟩, ⟨%f2, %hf2, H2⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf5; obtain rfl := harg6.eq_unread hf6
    sl_exec (disch := first | exact hc0 | exact hc1)
    sl_step
    iapply Hk
    isplitl [H0]; rotate_left; isplitl [H1]; rotate_left; isplitl [H2]; rotate_left; isplitl [H5]; rotate_left
    all_goals
      iexists _; isplitr; swap; · first | iexact H0 | iexact H1 | iexact H2 | iexact H5 | iexact H6
      ipureintro; sl_unfold_words
      simp only [r0_read_writes_cons_whole (Val := Elt F) (S := S2048x128) _ _ r0_hz, r0_read_writes_cons_whole (Val := Elt F) (S := S2048x1024) _ _ r0_hz,
        View.readAt_eq_ld, harg2.read_unread, harg3.read_unread, harg4.read_unread, harg5.read_unread, harg6.read_unread,
        View.ld_unit_zero (S := S1x1024) r0_hz, View.ld_unit_zero (S := S1024x128) r0_hz,
        View.ld_unit_zero (S := S2048x128) r0_hz, View.ld_unit_zero (S := S2048x1024) r0_hz,
        View.readCov_unit_zero (S := S2048x128) _ r0_hz, View.readCov_unit_zero (S := S2048x1024) _ r0_hz]

end Cert.KernelIdeal.Hand

end
-- ==== Proof.KI.R1Body.lean ====
import proofs.«421913_j33337536151789_3_alg».proof.Proof.KI.R1Defs
import proofs.«421913_j33337536151789_3_alg».proof.Proof.KI.R1Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hcond1_0 : ∀ t : Fin cfg1.N, cond1_0 (grid1.coords t) ↔ t.val % 586 = 0 :=
  (by decide +kernel : ∀ t : Fin grid1.N, cond1_0 (grid1.coords t) ↔ t.val % 586 = 0)
theorem hcond1_1 : ∀ t : Fin cfg1.N, cond1_1 (grid1.coords t) ↔ t.val % 586 = 585 :=
  (by decide +kernel : ∀ t : Fin grid1.N, cond1_1 (grid1.coords t) ↔ t.val % 586 = 585)

theorem liveAt1_0 (t : Fin cfg1.N) : cfg1.idle 0 (grid1.coords t) = false := rfl
theorem liveAt1_1 (t : Fin cfg1.N) : cfg1.idle 1 (grid1.coords t) = false := rfl
theorem idleAt1_2 (t : Fin cfg1.N) (h : ¬cond1_1 (grid1.coords t)) : cfg1.idle 2 (grid1.coords t) = true := by
  show (!(k1_cond2 (grid1.coords t) == 1#1)) = true
  rw [Bool.not_eq_true', beq_eq_false_iff_ne]; exact h
theorem liveAt1_2 (t : Fin cfg1.N) (h : cond1_1 (grid1.coords t)) : cfg1.idle 2 (grid1.coords t) = false := by
  show (!(k1_cond2 (grid1.coords t) == 1#1)) = false
  rw [Bool.not_eq_false', beq_iff_eq]; exact h
theorem noFlush1_2 (t : Fin cfg1.N) (h : ¬t.val % 586 = 585) : (cfg1.win 2).flush t = false :=
  Bool.eq_false_iff.mpr fun hf => h ((flush1_2 t).mp hf)

abbrev ms1_0 (t : Fin cfg1.N) : Memref sig .tc .vmem S1x1024 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x128 .f32 := win1_2.stage (cfg1.slots t 2)
abbrev hs1_2 (t : Fin cfg1.N) : (ms1_2 t).IsWhole := hstage1_2 ((cfg1.slots t 2).cast nbuf1_2)

theorem PhiA1_eq (c : Dev nD) :
    (Pipeline.ΦA spec1 c : sProp 𝕄)
      = iprop(iprop(iprop((∃ d, owns (c : Thread nD τ) sc1_0 fullShare d) ∗ (∃ d, owns (c : Thread nD τ) sc1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [sc1_0, sc1_1, owns_whole]; try rfl

theorem Phi1_zero (c : Dev nD) (n : ℕ) (h : n ≤ cfg1.N) (hz : n = 0) : Phi1 V c n h = Pipeline.ΦA spec1 c := by
  subst hz; rfl

theorem Phi1_pos (c : Dev nD) (n : ℕ) (h : n ≤ cfg1.N) (hz : n ≠ 0) :
    Phi1 V c n h = iprop(owns (c : Thread nD τ) sc1_0 fullShare (acc1 V c (n - 1) (by omega)) ∗ owns (c : Thread nD τ) sc1_1 fullShare (k1_pay2 : Vec F S2048x1024 .i32)
      ∗ Pipeline.scopedRestBut (Ix := Unit) (Name := ℕ) (U := UR sig nD τ) (Lvl := ℕ) (Val := Elt F) spec1 c [cc1_scratch0, cc1_scratch1]
      ∗ (∃ r, prngReg c r)) := by
  cases n with
  | zero => exact absurd rfl hz
  | succ n => rfl

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- At every position the invariant entails the entry condition: what the scratch buffers hold is forgotten. -/
theorem Phi1_out (c : Dev nD) (t : Fin (cfg1.N + 1)) : (dat1 V c).Φ t ⊢ Pipeline.ΦA spec1 c := by
  rw [show (dat1 V c).Φ t = Phi1 V c t.val (Nat.le_of_lt_succ t.isLt) from rfl]
  by_cases ht : t.val = 0
  · rw [Phi1_zero V c _ _ ht]
  · rw [Phi1_pos V c _ _ ht, PhiA1_eq]
    iintro ⟨HS0, HS1, Hr, Hg⟩
    iframe Hr Hg
    isplitl [HS0] <;> (iexists _; iassumption)

/-- Before any point the scratch buffers are held at contents from which the body computes the point's running sum and the row-index table: any at all at a row's first tile, what the point before left elsewhere. -/
theorem Phi1_open (c : Dev nD) (t : Fin cfg1.N) :
    (dat1 V c).Φ t.castSucc ⊢ iprop(∃ xs0 xs1,
      ⌜k1_pay3 (grid1.coords t) (iblk1 V c 0 t) (if cond1_0 (grid1.coords t) then k1_pay2 else xs1)
          (if cond1_0 (grid1.coords t) then k1_pay1 else xs0) (iblk1 V c 1 t) = acc1 V c t.val t.isLt
        ∧ (if cond1_0 (grid1.coords t) then k1_pay2 else xs1) = k1_pay2⌝
      ∗ owns (c : Thread nD τ) sc1_0 fullShare xs0 ∗ owns (c : Thread nD τ) sc1_1 fullShare xs1
      ∗ Pipeline.scopedRestBut (Ix := Unit) (Name := ℕ) (U := UR sig nD τ) (Lvl := ℕ) (Val := Elt F) spec1 c [cc1_scratch0, cc1_scratch1]
      ∗ (∃ r, prngReg c r)) := by
  by_cases h0 : t.val % 586 = 0
  · have hc := (hcond1_0 t).mpr h0
    refine (Phi1_out V c t.castSucc).trans ?_; rw [PhiA1_eq]
    iintro ⟨⟨⟨⟨%xs0, HS0⟩, ⟨%xs1, HS1⟩⟩, Hr⟩, Hg⟩
    iexists xs0, xs1; iframe HS0 HS1 Hr Hg; ipureintro
    rw [if_pos hc, if_pos hc, acc1_first V c t h0]; exact ⟨rfl, rfl⟩
  · have hc : ¬cond1_0 (grid1.coords t) := fun h => h0 ((hcond1_0 t).mp h)
    rw [show (dat1 V c).Φ t.castSucc = Phi1 V c t.val (Nat.le_of_lt t.isLt) from rfl, Phi1_pos V c _ _ fun e => h0 (by rw [e])]
    iintro ⟨HS0, HS1, Hr, Hg⟩
    iexists acc1 V c (t.val - 1) (Nat.lt_of_le_of_lt (Nat.sub_le _ _) t.isLt), k1_pay2; iframe HS0 HS1 Hr Hg; ipureintro
    rw [if_neg hc, if_neg hc, acc1_next V c t h0]; exact ⟨rfl, rfl⟩

/-- The output block's buffer as the body leaves it: at the finished sum at a row's last tile, as found elsewhere. -/
theorem leaves1_2 (c : Dev nD) (t : Fin cfg1.N) (d) :
    owns (c : Thread nD τ) (ms1_2 t) fullShare (if cond1_1 (grid1.coords t) then acc1 V c t.val t.isLt else (dat1 V c).before 2 t d)
      ⊢ (dat1 V c).leavesExact 2 t := by
  by_cases h1 : cond1_1 (grid1.coords t)
  · rw [if_pos h1, show (dat1 V c).leavesExact 2 t = owns (c : Thread nD τ) (ms1_2 t) fullShare ((dat1 V c).after 2 t) from by
      unfold Dat.leavesExact; rw [liveAt1_2 t h1], after1_2]
  · rw [if_neg h1, Dat.leavesExact_idle (dat1 V c) 2 t (idleAt1_2 t h1) (noFlush1_2 t fun h => h1 ((hcond1_1 t).mpr h))]
    iintro H; iexists _; iexact H

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the invariant opened, the kernel's triple applied once, and its result read back as the point's running sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = iprop(owns (c : Thread nD τ) sc1_0 fullShare (acc1 V c t.val t.isLt) ∗ owns (c : Thread nD τ) sc1_1 fullShare (k1_pay2 : Vec F S2048x1024 .i32)
      ∗ Pipeline.scopedRestBut (Ix := Unit) (Name := ℕ) (U := UR sig nD τ) (Lvl := ℕ) (Val := Elt F) spec1 c [cc1_scratch0, cc1_scratch1]
      ∗ (∃ r, prngReg c r)) from rfl,
    show (dat1 V c).leavesExact 0 t = owns (c : Thread nD τ) (ms1_0 t) fullShare ((dat1 V c).after 0 t) from by
      unfold Dat.leavesExact; rw [liveAt1_0 t], after1_0,
    show (dat1 V c).leavesExact 1 t = owns (c : Thread nD τ) (ms1_1 t) fullShare ((dat1 V c).after 1 t) from by
      unfold Dat.leavesExact; rw [liveAt1_1 t], after1_1]
  refine (sep_mono_left (Phi1_open V c t)).trans ?_
  iintro ⟨⟨%xs0, %xs1, %hx, HS0, HS1, Hr, Hg⟩, Ho, ⟨%d0, H0⟩, ⟨%d1, H1⟩, ⟨%d2, H2⟩⟩
  iapply (run1 c (grid1.coords t) _ (hs1_0 t) _ (hs1_1 t) _ (hs1_2 t) _ (Memref.isWhole_whole _) _ (Memref.isWhole_whole _)
    (fun a b => by have := (hcond1_0 t).mp a; have := (hcond1_1 t).mp b; omega)
    (iblk1 V c 0 t) (iblk1 V c 1 t) ((dat1 V c).before 2 t d2) xs0 xs1 Set.univ _)
  iframe H0 H1 H2 HS0 HS1
  iintro ⟨H0, H1, H2, HS0, HS1⟩
  rw [hx.1, hx.2]
  iframe H0 H1 HS0 HS1 Hr Hg Ho
  iapply leaves1_2 V c t d2; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = Phi1 V c 0 (Nat.zero_le _) from rfl, Phi1_zero V c 0 _ rfl]

theorem hout1 (c : Dev nD) : (dat1 V c).Φ (Fin.last cfg1.N) ⊢ Pipeline.ΦA spec1 c := Phi1_out V c _

end Cert.KernelIdeal.Hand

end
-- ==== Proof.KI.R2Body.lean ====
import proofs.«421913_j33337536151789_3_alg».proof.Proof.KI.R2Defs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

theorem before2_4 (c : Dev nD) (t : Fin cfg2.N) (d) : (dat2 V c).before 4 t d = iblk2 V c 4 t :=
  ((dat2 V c).before_in_eq_fetched 4 rfl (fun _ => rfl) (fun _ _ _ => rfl)
      (fun t => by rw [after2_4]; unfold Dat.blockOf iblk2; rw [A_eq2]; try rfl) t d).trans
    (by unfold Dat.fetched Dat.blockOf iblk2; rw [A_eq2]; try rfl)

theorem before2_5 (c : Dev nD) (t : Fin cfg2.N) (d) : (dat2 V c).before 5 t d = iblk2 V c 5 t :=
  ((dat2 V c).before_in_eq_fetched 5 rfl (fun _ => rfl) (fun _ _ _ => rfl)
      (fun t => by rw [after2_5]; unfold Dat.blockOf iblk2; rw [A_eq2]; try rfl) t d).trans
    (by unfold Dat.fetched Dat.blockOf iblk2; rw [A_eq2]; try rfl)

theorem hz2 : (![0, 0] : Fin 2 → Nat) = fun _ => 0 := funext fun a => by fin_cases a <;> rfl

set_option maxHeartbeats 1000000 in

theorem sound_kernel2 (c : Dev nD) (E : Set ℕ) (i : grid2.Coords)
    (arg1 : Memref sig .tc .vmem S2048x128 .f32) (harg1 : arg1.IsWhole)
    (arg2 : Memref sig .tc .vmem S2048x128 .bf16) (harg2 : arg2.IsWhole)
    (arg3 : Memref sig .tc .vmem S2048x1 .f32) (harg3 : arg3.IsWhole)
    (arg4 : Memref sig .tc .vmem S128x64 .bf16) (harg4 : arg4.IsWhole)
    (arg5 : Memref sig .tc .vmem S1x64 .f32) (harg5 : arg5.IsWhole)
    (arg6 : Memref sig .tc .vmem S128x64 .bf16) (harg6 : arg6.IsWhole)
    (arg7 : Memref sig .tc .vmem S2048x64 .bf16) (harg7 : arg7.IsWhole)
    (x1 : Vec F S2048x128 .f32) (x2 : Vec F S2048x128 .bf16) (x3 : Vec F S2048x1 .f32)
    (x4 : Vec F S128x64 .bf16) (x5 : Vec F S1x64 .f32) (x6 : Vec F S128x64 .bf16)
    (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ (∃ d, owns (c : Thread nD τ) arg7 fullShare d)
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare (k2_pay1 i x1 x3 x4 x5 x2 x6)) -∗ K ⟨⟩))
      ⊢ wp frame (wpE (defs₀ (F := F)) Variants.none c none) E
          (cc2__combine_kernel i arg1 harg1 arg2 harg2 arg3 harg3 arg4 harg4 arg5 harg5 arg6 harg6 arg7 harg7) K := by
  simp only [cc2__combine_kernel_eq_skeleton]; unfold cc2__combine_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (fun y => ⟨_, List.mem_singleton_self _, View.mem_set_unit_zero hz2 inb_S2048x64_S2048x64_0_0 y⟩),
    View.canon_unit_zero hz2]
  simp only [View.readAt_eq_ld, View.ld_unit_zero (S := S2048x128) hz2, View.ld_unit_zero (S := S2048x1) hz2,
    View.ld_unit_zero (S := S128x64) hz2, View.ld_unit_zero (S := S1x64) hz2]

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  unfold out2
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _
    (iblk2 V c 0 t) (iblk2 V c 1 t) (iblk2 V c 2 t) (iblk2 V c 3 t) (iblk2 V c 4 t) (iblk2 V c 5 t) _)
  iframe H0 H1 H2 H3 H4 H5
  isplitl [H6]; · iexists _; iexact H6
  iintro ⟨H0, H1, H2, H3, H4, H5, H6⟩
  iframe HΦ Ho H0 H1 H2 H3 H4 H5
  iexact H6

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := BI.Entails.refl _

theorem hout2 (c : Dev nD) : (dat2 V c).Φ (Fin.last cfg2.N) ⊢ Pipeline.ΦA spec2 c := BI.Entails.refl _

end Cert.KernelIdeal.Hand

end
-- ==== Proof.KI.R3Conds.lean ====
import proofs.«421913_j33337536151789_3_alg».proof.Proof.Gen.KernelIdeal.Points

noncomputable section

namespace Cert.KernelIdeal.Hand

open Idealize.ShloMosaic Idealize.ShloMosaic.TcCoe
open Idealize.SL Idealize.SL.Sem
open Cert.KernelIdeal Cert.KernelIdeal.Gen

abbrev cond3_0 (i : grid3.Coords) : Prop := (Scalar.cmpi .ne (Scalar.extui (Scalar.cmpi .eq (BitVec.ofNat 32 (i 1).val) 0#32)) 0#32) = 1#1

theorem hcond3_0 : ∀ t : Fin cfg3.N, cond3_0 (grid3.coords t) ↔ t.val % 25 = 0 :=
  (by decide +kernel : ∀ t : Fin grid3.N, cond3_0 (grid3.coords t) ↔ t.val % 25 = 0)

abbrev cond3_1 (i : grid3.Coords) : Prop := k3_cond2 i = 1#1

theorem hcond3_1 : ∀ t : Fin cfg3.N, cond3_1 (grid3.coords t) ↔ t.val % 25 = 24 :=
  (by decide +kernel : ∀ t : Fin grid3.N, cond3_1 (grid3.coords t) ↔ t.val % 25 = 24)

theorem idle3_2_of (i : grid3.Coords) (h : ¬cond3_1 i) : cfg3.idle 2 i = true := by
  show (!(k3_cond2 i == 1#1)) = true
  rw [Bool.not_eq_true', beq_eq_false_iff_ne]; exact h

theorem live3_2_of (i : grid3.Coords) (h : cond3_1 i) : cfg3.idle 2 i = false := by
  show (!(k3_cond2 i == 1#1)) = false
  rw [Bool.not_eq_false', beq_iff_eq]; exact h

theorem noFlush3_2 (t : Fin cfg3.N) (h : ¬t.val % 25 = 24) : (cfg3.win 2).flush t = false :=
  Bool.eq_false_iff.mpr fun hf => h ((flush3_2 t).mp hf)

end Cert.KernelIdeal.Hand

end
-- ==== Proof.KI.R3Run.lean ====
import proofs.«421913_j33337536151789_3_alg».proof.Proof.Gen.KernelIdeal.Launch
import proofs.«421913_j33337536151789_3_alg».proof.Proof.Gen.KernelIdeal.Skeleton
import proofs.«421913_j33337536151789_3_alg».proof.Proof.KI.R3Conds
import proofs.«421913_j33337536151789_3_alg».proof.Proof.KI.R0Run
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The running sum a tile leaves: its product added to zero over the fresh column table where a row starts, to the sum found over the table found elsewhere. -/
def k3_sum (i : grid3.Coords) (x0 : Vec F S1024x1 .i32) (xs1 : Vec F S1024x2048 .i32) (xs0 : Vec F S1024x64 .f32) (x1 : Vec F S2048x64 .bf16) : Vec F S1024x64 .f32 :=
  k3_pay3 i x0 (if cond3_0 i then k3_pay2 else xs1) (if cond3_0 i then k3_pay1 else xs0) x1

set_option maxHeartbeats 1000000 in
/-- The body on whole buffers at known contents, at any coordinates where a row's first tile is not its last. -/
theorem kernel3 (c : Dev nD) (i : grid3.Coords) (arg2 : Memref sig .tc .vmem S1024x1 .i32) (harg2 : arg2.IsWhole) (arg3 : Memref sig .tc .vmem S2048x64 .bf16) (harg3 : arg3.IsWhole) (arg4 : Memref sig .tc .vmem S1024x64 .bf16) (harg4 : arg4.IsWhole) (arg5 : Memref sig .tc .vmem S1024x64 .f32) (harg5 : arg5.IsWhole) (arg6 : Memref sig .tc .vmem S1024x2048 .i32) (harg6 : arg6.IsWhole)
    (hx : cond3_0 i → ¬cond3_1 i)
    (x0 : Vec F S1024x1 .i32) (x1 : Vec F S2048x64 .bf16) (xi : Vec F S1024x64 .bf16) (xs0 : Vec F S1024x64 .f32) (xs1 : Vec F S1024x2048 .i32) (E : Set ℕ) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare xs0 ∗ owns (c : Thread nD τ) arg6 fullShare xs1
        ∗ (iprop(owns (c : Thread nD τ) arg2 fullShare x0 ∗ owns (c : Thread nD τ) arg3 fullShare x1
            ∗ owns (c : Thread nD τ) arg4 fullShare (if cond3_1 i then k3_pay4 (k3_sum i x0 xs1 xs0 x1) else xi)
            ∗ owns (c : Thread nD τ) arg5 fullShare (k3_sum i x0 xs1 xs0 x1) ∗ owns (c : Thread nD τ) arg6 fullShare (if cond3_0 i then k3_pay2 else xs1)) -∗ K ⟨⟩))
      ⊢ wp frame (wpE (defs₀ (F := F)) Variants.none c none) E (cc3__gather_kernel i arg2 harg2 arg3 harg3 arg4 harg4 arg5 harg5 arg6 harg6) K := by
  by_cases hc0 : cond3_0 i <;> by_cases hc1 : cond3_1 i
  · exact absurd hc1 (hx hc0)
  all_goals
    first | simp only [k3_sum, if_neg hc0] | simp only [k3_sum, if_pos hc0]
    first | simp only [if_neg hc1] | simp only [if_pos hc1]
    simp only [cc3__gather_kernel_eq_skeleton]; unfold cc3__gather_kernel_skel owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]; rotate_left; isplitl [H1]; rotate_left; isplitl [H2]; rotate_left; isplitl [H3]; rotate_left
    all_goals (iexists _; isplitr; swap; · first | iexact H0 | iexact H1 | iexact H2 | iexact H3 | iexact H4)
    all_goals
      ipureintro; sl_unfold_words
      simp only [r0_read_writes_cons_whole (Val := Elt F) (S := S1024x64) _ _ r0_hz, r0_read_writes_cons_whole (Val := Elt F) (S := S1024x2048) _ _ r0_hz,
        Memref.IsWhole.read_unread, r0_readAt_whole harg2 r0_hz, r0_readAt_whole harg3 r0_hz, r0_readAt_whole harg5 r0_hz,
        r0_readAt_whole harg6 r0_hz, View.readCov_unit_zero (S := S1024x64) _ r0_hz, View.readCov_unit_zero (S := S1024x2048) _ r0_hz]

end Cert.KernelIdeal.Hand

end
-- ==== Proof.KI.R3Body.lean ====
import proofs.«421913_j33337536151789_3_alg».proof.Proof.KI.R3Defs
import proofs.«421913_j33337536151789_3_alg».proof.Proof.KI.R3Run
import proofs.«421913_j33337536151789_3_alg».proof.Proof.KI.R3Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ms3_0 (t : Fin cfg3.N) : Memref sig .tc .vmem S1024x1 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x64 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x64 .bf16 := win3_2.stage (cfg3.slots t 2)
abbrev hs3_2 (t : Fin cfg3.N) : (ms3_2 t).IsWhole := hstage3_2 ((cfg3.slots t 2).cast nbuf3_2)

abbrev rest3 (c : Dev nD) : sProp 𝕄 := Pipeline.scopedRestBut (Ix := Unit) (Name := ℕ) (U := UR sig nD τ) (Lvl := ℕ) (Val := Elt F) spec3 c [cc3_scratch0, cc3_scratch1]

theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

theorem PhiA3_eq (c : Dev nD) :
    (Pipeline.ΦA spec3 c : sProp 𝕄)
      = iprop(iprop(iprop((∃ d, owns (c : Thread nD τ) sc3_0 fullShare d) ∗ (∃ d, owns (c : Thread nD τ) sc3_1 fullShare d))
          ∗ rest3 c) ∗ (∃ r, prngReg c r)) := by
  unfold Pipeline.ΦA; rw [scopedRest3_split]; simp only [sc3_0, sc3_1, owns_whole]; try rfl

theorem Phi3_zero (c : Dev nD) (n : ℕ) (h : n ≤ cfg3.N) (hz : n = 0) : Phi3 V c n h = Pipeline.ΦA spec3 c := by
  subst hz; rfl

theorem Phi3_pos (c : Dev nD) (n : ℕ) (h : n ≤ cfg3.N) (hz : n ≠ 0) :
    Phi3 V c n h = iprop(owns (c : Thread nD τ) sc3_0 fullShare (acc3 V c (n - 1) (by omega)) ∗ owns (c : Thread nD τ) sc3_1 fullShare (k3_pay2 : Vec F S1024x2048 .i32)
      ∗ rest3 c
      ∗ (∃ r, prngReg c r)) := by
  cases n with
  | zero => exact absurd rfl hz
  | succ n => rfl

/-- Before any point the scratch buffers are owned at some contents: off a row's start, the sum the point before left and the column table. -/
theorem Phi3_open (c : Dev nD) (t : Fin cfg3.N) :
    (dat3 V c).Φ t.castSucc ⊢ iprop(∃ d0 d1, ⌜¬cond3_0 (grid3.coords t) → d0 = acc3 V c (t.val - 1) (Nat.lt_of_le_of_lt (Nat.sub_le _ _) t.isLt) ∧ d1 = (k3_pay2 : Vec F S1024x2048 .i32)⌝
      ∗ owns (c : Thread nD τ) sc3_0 fullShare d0 ∗ owns (c : Thread nD τ) sc3_1 fullShare d1
      ∗ rest3 c ∗ (∃ r, prngReg c r)) := by
  rw [show (dat3 V c).Φ t.castSucc = Phi3 V c t.val (Nat.le_of_lt t.isLt) from rfl]
  by_cases hz : t.val = 0
  · rw [Phi3_zero V c _ _ hz, PhiA3_eq]
    iintro ⟨⟨⟨⟨%d0, HS0⟩, ⟨%d1, HS1⟩⟩, HR⟩, Hg⟩
    iexists d0, d1
    iframe HS0 HS1 HR Hg
    ipureintro; exact fun h => absurd ((hcond3_0 t).mpr (by rw [hz])) h
  · rw [Phi3_pos V c _ _ hz]
    iintro ⟨HS0, HS1, HR, Hg⟩
    iexists acc3 V c (t.val - 1) (Nat.lt_of_le_of_lt (Nat.sub_le _ _) t.isLt), k3_pay2
    iframe HS0 HS1 HR Hg
    ipureintro; exact fun _ => ⟨rfl, rfl⟩

/-- The kernel's new sum and table, from what the invariant handed it, are this point's. -/
theorem acc3_step (c : Dev nD) (t : Fin cfg3.N) (d0 : Vec F S1024x64 .f32) (d1 : Vec F S1024x2048 .i32)
    (hd : ¬cond3_0 (grid3.coords t) → d0 = acc3 V c (t.val - 1) (Nat.lt_of_le_of_lt (Nat.sub_le _ _) t.isLt) ∧ d1 = k3_pay2) :
    (if cond3_0 (grid3.coords t) then k3_pay2 else d1) = k3_pay2
      ∧ k3_sum (grid3.coords t) (iblk3 V c 0 t) d1 d0 (iblk3 V c 1 t) = acc3 V c t.val t.isLt := by
  unfold k3_sum
  by_cases hc : cond3_0 (grid3.coords t)
  · simp only [if_pos hc]; exact ⟨trivial, (acc3_first V c t ((hcond3_0 t).mp hc)).symm⟩
  · obtain ⟨rfl, rfl⟩ := hd hc
    simp only [if_neg hc]; exact ⟨trivial, (acc3_next V c t fun h => hc ((hcond3_0 t).mpr h)).symm⟩

/-- The output block's buffer as the kernel leaves it is what the window is owed, stored to or not. -/
theorem leaves3_2 (c : Dev nD) (t : Fin cfg3.N) (d) :
    owns (c : Thread nD τ) (ms3_2 t) fullShare (if cond3_1 (grid3.coords t) then k3_pay4 (acc3 V c t.val t.isLt) else (dat3 V c).before 2 t d)
      ⊢ (dat3 V c).leavesExact 2 t := by
  by_cases hc : cond3_1 (grid3.coords t)
  · rw [if_pos hc]; unfold Dat.leavesExact; rw [live3_2_of _ hc, after3_2]
  · rw [if_neg hc, Dat.leavesExact_idle (dat3 V c) 2 t (idle3_2_of _ hc) (noFlush3_2 t fun h => hc ((hcond3_1 t).mpr h))]
    iintro H; iexists _; iexact H

theorem body_obligation3 (c : Dev nD) : BodyObligation (dat3 (F := F) V c) (defs₀ (F := F)) Variants.none () Set.univ := fun t => by
  rw [bigSep_W3, bigSep_W3]
  simp only [before3_0 V, before3_1 V]
  rw [show (dat3 V c).owesAt () t.succ = (dat3 V c).owesAt () t.castSucc from rfl,
    show (dat3 V c).Φ t.succ = iprop(owns (c : Thread nD τ) sc3_0 fullShare (acc3 V c t.val t.isLt) ∗ owns (c : Thread nD τ) sc3_1 fullShare (k3_pay2 : Vec F S1024x2048 .i32)
      ∗ rest3 c ∗ (∃ r, prngReg c r)) from rfl,
    after3_0 V c t, after3_1 V c t]
  iintro ⟨HP, Ho, ⟨%e0, H0⟩, ⟨%e1, H1⟩, ⟨%e2, H2⟩⟩
  icases Phi3_open V c t $$ HP with ⟨%d0, %d1, %hd, HS0, HS1, HR, Hg⟩
  obtain ⟨hT, hN⟩ := acc3_step V c t d0 d1 hd
  iapply (kernel3 c (grid3.coords t) (ms3_0 t) (hs3_0 t) (ms3_1 t) (hs3_1 t) (ms3_2 t) (hs3_2 t) sc3_0 (Memref.isWhole_whole _) sc3_1 (Memref.isWhole_whole _)
    (fun h0 h1 => by have := (hcond3_0 t).mp h0; have := (hcond3_1 t).mp h1; omega) (iblk3 V c 0 t) (iblk3 V c 1 t) ((dat3 V c).before 2 t e2) d0 d1 Set.univ _)
  rw [hT, hN]
  iframe H0 H1 H2 HS0 HS1
  iintro ⟨H0, H1, H2, HS0, HS1⟩
  iframe H0 H1 HS0 HS1 HR Hg Ho
  iapply leaves3_2 V c t e2
  iexact H2

theorem hin3 (c : Dev nD) : Pipeline.ΦA spec3 c ⊢ (dat3 V c).Φ 0 := by
  rw [show (dat3 V c).Φ 0 = Pipeline.ΦA spec3 c from rfl]

theorem hout3 (c : Dev nD) : (dat3 V c).Φ (Fin.last cfg3.N) ⊢ Pipeline.ΦA spec3 c := by
  rw [show (dat3 V c).Φ (Fin.last cfg3.N) = Phi3 V c cfg3.N (Nat.le_refl _) from rfl, Phi3_pos V c _ _ (by have : cfg3.N = 14650 := N_3; omega), PhiA3_eq]
  iintro ⟨HS0, HS1, HR, Hg⟩
  iframe HR Hg
  isplitl [HS0]
  · iexists _; iexact HS0
  iexists _; iexact HS1

end Cert.KernelIdeal.Hand

end
-- ==== Proof.KI.R4Run.lean ====
import proofs.«421913_j33337536151789_3_alg».proof.Proof.Gen.KernelIdeal.Launch
import proofs.«421913_j33337536151789_3_alg».proof.Proof.Gen.KernelIdeal.Skeleton
import proofs.«421913_j33337536151789_3_alg».proof.Proof.KI.R0Run
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
abbrev cond4_0 (i : grid4.Coords) : Prop := (Scalar.cmpi .ne (Scalar.extui (Scalar.cmpi .eq (BitVec.ofNat 32 (i 1).val) 0#32)) 0#32) = 1#1
abbrev cond4_1 (i : grid4.Coords) : Prop := k4_cond2 i = 1#1

set_option maxHeartbeats 4000000 in
/-- The body on whole memrefs at known contents: a row's first tile resets the sum and writes the row-index table, every tile adds its product to the sum, a row's last tile copies the sum out. -/
theorem run4 (c : Dev nD) (i : grid4.Coords)
    (arg2 : Memref sig .tc .vmem S1x1024 .i32) (harg2 : arg2.IsWhole)
    (arg3 : Memref sig .tc .vmem S1024x64 .bf16) (harg3 : arg3.IsWhole)
    (arg4 : Memref sig .tc .vmem S2048x64 .f32) (harg4 : arg4.IsWhole)
    (arg5 : Memref sig .tc .vmem S2048x64 .f32) (harg5 : arg5.IsWhole)
    (arg6 : Memref sig .tc .vmem S2048x1024 .i32) (harg6 : arg6.IsWhole)
    (hne : cond4_0 i → ¬cond4_1 i)
    (x0 : Vec F S1x1024 .i32) (x1 : Vec F S1024x64 .bf16) (xi xs0 : Vec F S2048x64 .f32)
    (xs1 : Vec F S2048x1024 .i32) (E : Set ℕ) (K : PUnit → sProp 𝕄) :
    iprop(owns (c : Thread nD τ) arg2 fullShare x0 ∗ owns (c : Thread nD τ) arg3 fullShare x1
        ∗ owns (c : Thread nD τ) arg4 fullShare xi
        ∗ owns (c : Thread nD τ) arg5 fullShare xs0 ∗ owns (c : Thread nD τ) arg6 fullShare xs1
        ∗ (iprop(owns (c : Thread nD τ) arg2 fullShare x0 ∗ owns (c : Thread nD τ) arg3 fullShare x1
            ∗ owns (c : Thread nD τ) arg4 fullShare (if cond4_1 i then k4_pay3 i x0 (if cond4_0 i then k4_pay2 else xs1) (if cond4_0 i then k4_pay1 else xs0) x1 else xi)
            ∗ owns (c : Thread nD τ) arg5 fullShare (k4_pay3 i x0 (if cond4_0 i then k4_pay2 else xs1) (if cond4_0 i then k4_pay1 else xs0) x1)
            ∗ owns (c : Thread nD τ) arg6 fullShare (if cond4_0 i then k4_pay2 else xs1)) -∗ K ⟨⟩))
      ⊢ wp frame (wpE (defs₀ (F := F)) Variants.none c none) E
          (cc4__scatter_kernel i arg2 harg2 arg3 harg3 arg4 harg4 arg5 harg5 arg6 harg6) K := by
  by_cases hc0 : cond4_0 i <;> by_cases hc1 : cond4_1 i
  · exact absurd hc1 (hne hc0)
  all_goals
    first | rw [if_pos hc0, if_pos hc0] | rw [if_neg hc0, if_neg hc0]
    first | rw [if_pos hc1] | rw [if_neg hc1]
    rw [cc4__scatter_kernel_eq_skeleton]; unfold cc4__scatter_kernel_skel
    unfold owns
    iintro ⟨⟨%f0, %hf0, H0⟩, ⟨%f1, %hf1, H1⟩, ⟨%f2, %hf2, H2⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf5; obtain rfl := harg6.eq_unread hf6
    sl_exec (disch := first | exact hc0 | exact hc1)
    sl_step
    iapply Hk
    isplitl [H0]; rotate_left; isplitl [H1]; rotate_left; isplitl [H2]; rotate_left; isplitl [H5]; rotate_left
    all_goals
      iexists _; isplitr; swap; · first | iexact H0 | iexact H1 | iexact H2 | iexact H5 | iexact H6
      ipureintro; sl_unfold_words
      simp only [r0_read_writes_cons_whole (Val := Elt F) (S := S2048x64) _ _ r0_hz, r0_read_writes_cons_whole (Val := Elt F) (S := S2048x1024) _ _ r0_hz,
        View.readAt_eq_ld, harg2.read_unread, harg3.read_unread, harg4.read_unread, harg5.read_unread, harg6.read_unread,
        View.ld_unit_zero (S := S1x1024) r0_hz, View.ld_unit_zero (S := S1024x64) r0_hz,
        View.ld_unit_zero (S := S2048x64) r0_hz, View.ld_unit_zero (S := S2048x1024) r0_hz,
        View.readCov_unit_zero (S := S2048x64) _ r0_hz, View.readCov_unit_zero (S := S2048x1024) _ r0_hz]

end Cert.KernelIdeal.Hand

end
-- ==== Proof.KI.R4Body.lean ====
import proofs.«421913_j33337536151789_3_alg».proof.Proof.KI.R4Defs
import proofs.«421913_j33337536151789_3_alg».proof.Proof.KI.R4Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hcond4_0 : ∀ t : Fin cfg4.N, cond4_0 (grid4.coords t) ↔ t.val % 586 = 0 :=
  (by decide +kernel : ∀ t : Fin grid4.N, cond4_0 (grid4.coords t) ↔ t.val % 586 = 0)
theorem hcond4_1 : ∀ t : Fin cfg4.N, cond4_1 (grid4.coords t) ↔ t.val % 586 = 585 :=
  (by decide +kernel : ∀ t : Fin grid4.N, cond4_1 (grid4.coords t) ↔ t.val % 586 = 585)

theorem liveAt4_0 (t : Fin cfg4.N) : cfg4.idle 0 (grid4.coords t) = false := rfl
theorem liveAt4_1 (t : Fin cfg4.N) : cfg4.idle 1 (grid4.coords t) = false := rfl
theorem idleAt4_2 (t : Fin cfg4.N) (h : ¬cond4_1 (grid4.coords t)) : cfg4.idle 2 (grid4.coords t) = true := by
  show (!(k4_cond2 (grid4.coords t) == 1#1)) = true
  rw [Bool.not_eq_true', beq_eq_false_iff_ne]; exact h
theorem liveAt4_2 (t : Fin cfg4.N) (h : cond4_1 (grid4.coords t)) : cfg4.idle 2 (grid4.coords t) = false := by
  show (!(k4_cond2 (grid4.coords t) == 1#1)) = false
  rw [Bool.not_eq_false', beq_iff_eq]; exact h
theorem noFlush4_2 (t : Fin cfg4.N) (h : ¬t.val % 586 = 585) : (cfg4.win 2).flush t = false :=
  Bool.eq_false_iff.mpr fun hf => h ((flush4_2 t).mp hf)

abbrev ms4_0 (t : Fin cfg4.N) : Memref sig .tc .vmem S1x1024 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x64 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x64 .f32 := win4_2.stage (cfg4.slots t 2)
abbrev hs4_2 (t : Fin cfg4.N) : (ms4_2 t).IsWhole := hstage4_2 ((cfg4.slots t 2).cast nbuf4_2)

theorem PhiA4_eq (c : Dev nD) :
    (Pipeline.ΦA spec4 c : sProp 𝕄)
      = iprop(iprop(iprop((∃ d, owns (c : Thread nD τ) sc4_0 fullShare d) ∗ (∃ d, owns (c : Thread nD τ) sc4_1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [sc4_0, sc4_1, owns_whole]; try rfl

theorem Phi4_zero (c : Dev nD) (n : ℕ) (h : n ≤ cfg4.N) (hz : n = 0) : Phi4 V c n h = Pipeline.ΦA spec4 c := by
  subst hz; rfl

theorem Phi4_pos (c : Dev nD) (n : ℕ) (h : n ≤ cfg4.N) (hz : n ≠ 0) :
    Phi4 V c n h = iprop(owns (c : Thread nD τ) sc4_0 fullShare (acc4 V c (n - 1) (by omega)) ∗ owns (c : Thread nD τ) sc4_1 fullShare (k4_pay2 : Vec F S2048x1024 .i32)
      ∗ Pipeline.scopedRestBut (Ix := Unit) (Name := ℕ) (U := UR sig nD τ) (Lvl := ℕ) (Val := Elt F) spec4 c [cc4_scratch0, cc4_scratch1]
      ∗ (∃ r, prngReg c r)) := by
  cases n with
  | zero => exact absurd rfl hz
  | succ n => rfl

theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

/-- At every position the invariant entails the entry condition: what the scratch buffers hold is forgotten. -/
theorem Phi4_out (c : Dev nD) (t : Fin (cfg4.N + 1)) : (dat4 V c).Φ t ⊢ Pipeline.ΦA spec4 c := by
  rw [show (dat4 V c).Φ t = Phi4 V c t.val (Nat.le_of_lt_succ t.isLt) from rfl]
  by_cases ht : t.val = 0
  · rw [Phi4_zero V c _ _ ht]
  · rw [Phi4_pos V c _ _ ht, PhiA4_eq]
    iintro ⟨HS0, HS1, Hr, Hg⟩
    iframe Hr Hg
    isplitl [HS0] <;> (iexists _; iassumption)

/-- Before any point the scratch buffers are held at contents from which the body computes the point's running sum and the row-index table: any at all at a row's first tile, what the point before left elsewhere. -/
theorem Phi4_open (c : Dev nD) (t : Fin cfg4.N) :
    (dat4 V c).Φ t.castSucc ⊢ iprop(∃ xs0 xs1,
      ⌜k4_pay3 (grid4.coords t) (iblk4 V c 0 t) (if cond4_0 (grid4.coords t) then k4_pay2 else xs1)
          (if cond4_0 (grid4.coords t) then k4_pay1 else xs0) (iblk4 V c 1 t) = acc4 V c t.val t.isLt
        ∧ (if cond4_0 (grid4.coords t) then k4_pay2 else xs1) = k4_pay2⌝
      ∗ owns (c : Thread nD τ) sc4_0 fullShare xs0 ∗ owns (c : Thread nD τ) sc4_1 fullShare xs1
      ∗ Pipeline.scopedRestBut (Ix := Unit) (Name := ℕ) (U := UR sig nD τ) (Lvl := ℕ) (Val := Elt F) spec4 c [cc4_scratch0, cc4_scratch1]
      ∗ (∃ r, prngReg c r)) := by
  by_cases h0 : t.val % 586 = 0
  · have hc := (hcond4_0 t).mpr h0
    refine (Phi4_out V c t.castSucc).trans ?_; rw [PhiA4_eq]
    iintro ⟨⟨⟨⟨%xs0, HS0⟩, ⟨%xs1, HS1⟩⟩, Hr⟩, Hg⟩
    iexists xs0, xs1; iframe HS0 HS1 Hr Hg; ipureintro
    rw [if_pos hc, if_pos hc, acc4_first V c t h0]; exact ⟨rfl, rfl⟩
  · have hc : ¬cond4_0 (grid4.coords t) := fun h => h0 ((hcond4_0 t).mp h)
    rw [show (dat4 V c).Φ t.castSucc = Phi4 V c t.val (Nat.le_of_lt t.isLt) from rfl, Phi4_pos V c _ _ fun e => h0 (by rw [e])]
    iintro ⟨HS0, HS1, Hr, Hg⟩
    iexists acc4 V c (t.val - 1) (Nat.lt_of_le_of_lt (Nat.sub_le _ _) t.isLt), k4_pay2; iframe HS0 HS1 Hr Hg; ipureintro
    rw [if_neg hc, if_neg hc, acc4_next V c t h0]; exact ⟨rfl, rfl⟩

/-- The output block's buffer as the body leaves it: at the finished sum at a row's last tile, as found elsewhere. -/
theorem leaves4_2 (c : Dev nD) (t : Fin cfg4.N) (d) :
    owns (c : Thread nD τ) (ms4_2 t) fullShare (if cond4_1 (grid4.coords t) then acc4 V c t.val t.isLt else (dat4 V c).before 2 t d)
      ⊢ (dat4 V c).leavesExact 2 t := by
  by_cases h1 : cond4_1 (grid4.coords t)
  · rw [if_pos h1, show (dat4 V c).leavesExact 2 t = owns (c : Thread nD τ) (ms4_2 t) fullShare ((dat4 V c).after 2 t) from by
      unfold Dat.leavesExact; rw [liveAt4_2 t h1], after4_2]
  · rw [if_neg h1, Dat.leavesExact_idle (dat4 V c) 2 t (idleAt4_2 t h1) (noFlush4_2 t fun h => h1 ((hcond4_1 t).mpr h))]
    iintro H; iexists _; iexact H

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the invariant opened, the kernel's triple applied once, and its result read back as the point's running sum. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl,
    show (dat4 V c).Φ t.succ = iprop(owns (c : Thread nD τ) sc4_0 fullShare (acc4 V c t.val t.isLt) ∗ owns (c : Thread nD τ) sc4_1 fullShare (k4_pay2 : Vec F S2048x1024 .i32)
      ∗ Pipeline.scopedRestBut (Ix := Unit) (Name := ℕ) (U := UR sig nD τ) (Lvl := ℕ) (Val := Elt F) spec4 c [cc4_scratch0, cc4_scratch1]
      ∗ (∃ r, prngReg c r)) from rfl,
    show (dat4 V c).leavesExact 0 t = owns (c : Thread nD τ) (ms4_0 t) fullShare ((dat4 V c).after 0 t) from by
      unfold Dat.leavesExact; rw [liveAt4_0 t], after4_0,
    show (dat4 V c).leavesExact 1 t = owns (c : Thread nD τ) (ms4_1 t) fullShare ((dat4 V c).after 1 t) from by
      unfold Dat.leavesExact; rw [liveAt4_1 t], after4_1]
  refine (sep_mono_left (Phi4_open V c t)).trans ?_
  iintro ⟨⟨%xs0, %xs1, %hx, HS0, HS1, Hr, Hg⟩, Ho, ⟨%d0, H0⟩, ⟨%d1, H1⟩, ⟨%d2, H2⟩⟩
  iapply (run4 c (grid4.coords t) _ (hs4_0 t) _ (hs4_1 t) _ (hs4_2 t) _ (Memref.isWhole_whole _) _ (Memref.isWhole_whole _)
    (fun a b => by have := (hcond4_0 t).mp a; have := (hcond4_1 t).mp b; omega)
    (iblk4 V c 0 t) (iblk4 V c 1 t) ((dat4 V c).before 2 t d2) xs0 xs1 Set.univ _)
  iframe H0 H1 H2 HS0 HS1
  iintro ⟨H0, H1, H2, HS0, HS1⟩
  rw [hx.1, hx.2]
  iframe H0 H1 HS0 HS1 Hr Hg Ho
  iapply leaves4_2 V c t d2; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = Phi4 V c 0 (Nat.zero_le _) from rfl, Phi4_zero V c 0 _ rfl]

theorem hout4 (c : Dev nD) : (dat4 V c).Φ (Fin.last cfg4.N) ⊢ Pipeline.ΦA spec4 c := Phi4_out V c _

end Cert.KernelIdeal.Hand

end
-- ==== Proof.KI.R5Body.lean ====
import proofs.«421913_j33337536151789_3_alg».proof.Proof.KI.R5Defs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before5_0 (c : Dev nD) (t : Fin cfg5.N) (d) : (dat5 V c).before 0 t d = iblk5 V c 0 t :=
  ((dat5 V c).before_in_eq_fetched 0 rfl (fun _ => rfl) (fun _ _ _ => rfl)
      (fun t => by rw [after5_0]; unfold Dat.blockOf iblk5; rw [A_eq5]; try rfl) t d).trans
    (by unfold Dat.fetched Dat.blockOf iblk5; rw [A_eq5]; try rfl)

theorem before5_1 (c : Dev nD) (t : Fin cfg5.N) (d) : (dat5 V c).before 1 t d = iblk5 V c 1 t :=
  ((dat5 V c).before_in_eq_fetched 1 rfl (fun _ => rfl) (fun _ _ _ => rfl)
      (fun t => by rw [after5_1]; unfold Dat.blockOf iblk5; rw [A_eq5]; try rfl) t d).trans
    (by unfold Dat.fetched Dat.blockOf iblk5; rw [A_eq5]; try rfl)

theorem before5_2 (c : Dev nD) (t : Fin cfg5.N) (d) : (dat5 V c).before 2 t d = iblk5 V c 2 t :=
  ((dat5 V c).before_in_eq_fetched 2 rfl (fun _ => rfl) (fun _ _ _ => rfl)
      (fun t => by rw [after5_2]; unfold Dat.blockOf iblk5; rw [A_eq5]; try rfl) t d).trans
    (by unfold Dat.fetched Dat.blockOf iblk5; rw [A_eq5]; try rfl)

theorem before5_3 (c : Dev nD) (t : Fin cfg5.N) (d) : (dat5 V c).before 3 t d = iblk5 V c 3 t :=
  ((dat5 V c).before_in_eq_fetched 3 rfl (fun _ => rfl) (fun _ _ _ => rfl)
      (fun t => by rw [after5_3]; unfold Dat.blockOf iblk5; rw [A_eq5]; try rfl) t d).trans
    (by unfold Dat.fetched Dat.blockOf iblk5; rw [A_eq5]; try rfl)

theorem before5_4 (c : Dev nD) (t : Fin cfg5.N) (d) : (dat5 V c).before 4 t d = iblk5 V c 4 t :=
  ((dat5 V c).before_in_eq_fetched 4 rfl (fun _ => rfl) (fun _ _ _ => rfl)
      (fun t => by rw [after5_4]; unfold Dat.blockOf iblk5; rw [A_eq5]; try rfl) t d).trans
    (by unfold Dat.fetched Dat.blockOf iblk5; rw [A_eq5]; try rfl)

theorem before5_5 (c : Dev nD) (t : Fin cfg5.N) (d) : (dat5 V c).before 5 t d = iblk5 V c 5 t :=
  ((dat5 V c).before_in_eq_fetched 5 rfl (fun _ => rfl) (fun _ _ _ => rfl)
      (fun t => by rw [after5_5]; unfold Dat.blockOf iblk5; rw [A_eq5]; try rfl) t d).trans
    (by unfold Dat.fetched Dat.blockOf iblk5; rw [A_eq5]; try rfl)

theorem hz5 : (![0, 0] : Fin 2 → Nat) = fun _ => 0 := funext fun a => by fin_cases a <;> rfl

set_option maxHeartbeats 1000000 in

theorem sound_kernel5 (c : Dev nD) (E : Set ℕ) (i : grid5.Coords)
    (arg1 : Memref sig .tc .vmem S2048x64 .f32) (harg1 : arg1.IsWhole)
    (arg2 : Memref sig .tc .vmem S2048x64 .bf16) (harg2 : arg2.IsWhole)
    (arg3 : Memref sig .tc .vmem S2048x1 .f32) (harg3 : arg3.IsWhole)
    (arg4 : Memref sig .tc .vmem S64x128 .bf16) (harg4 : arg4.IsWhole)
    (arg5 : Memref sig .tc .vmem S1x128 .f32) (harg5 : arg5.IsWhole)
    (arg6 : Memref sig .tc .vmem S64x128 .bf16) (harg6 : arg6.IsWhole)
    (arg7 : Memref sig .tc .vmem S2048x128 .f32) (harg7 : arg7.IsWhole)
    (x1 : Vec F S2048x64 .f32) (x2 : Vec F S2048x64 .bf16) (x3 : Vec F S2048x1 .f32)
    (x4 : Vec F S64x128 .bf16) (x5 : Vec F S1x128 .f32) (x6 : Vec F S64x128 .bf16)
    (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ (∃ d, owns (c : Thread nD τ) arg7 fullShare d)
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare (k5_pay1 i x1 x3 x4 x5 x2 x6)) -∗ K ⟨⟩))
      ⊢ wp frame (wpE (defs₀ (F := F)) Variants.none c none) E
          (cc5__combine_kernel i arg1 harg1 arg2 harg2 arg3 harg3 arg4 harg4 arg5 harg5 arg6 harg6 arg7 harg7) K := by
  simp only [cc5__combine_kernel_eq_skeleton]; unfold cc5__combine_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (fun y => ⟨_, List.mem_singleton_self _, View.mem_set_unit_zero hz5 inb_S2048x128_S2048x128_0_0 y⟩),
    View.canon_unit_zero hz5]
  simp only [View.readAt_eq_ld, View.ld_unit_zero (S := S2048x64) hz5, View.ld_unit_zero (S := S2048x1) hz5,
    View.ld_unit_zero (S := S64x128) hz5, View.ld_unit_zero (S := S1x128) hz5]

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  unfold out5
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _
    (iblk5 V c 0 t) (iblk5 V c 1 t) (iblk5 V c 2 t) (iblk5 V c 3 t) (iblk5 V c 4 t) (iblk5 V c 5 t) _)
  iframe H0 H1 H2 H3 H4 H5
  isplitl [H6]; · iexists _; iexact H6
  iintro ⟨H0, H1, H2, H3, H4, H5, H6⟩
  iframe HΦ Ho H0 H1 H2 H3 H4 H5
  iexact H6

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := BI.Entails.refl _

theorem hout5 (c : Dev nD) : (dat5 V c).Φ (Fin.last cfg5.N) ⊢ Pipeline.ΦA spec5 c := BI.Entails.refl _

end Cert.KernelIdeal.Hand

end
-- ==== Proof.KI.Bodies.lean ====
import proofs.«421913_j33337536151789_3_alg».proof.Proof.KI.R0Body
import proofs.«421913_j33337536151789_3_alg».proof.Proof.KI.R1Body
import proofs.«421913_j33337536151789_3_alg».proof.Proof.KI.R2Body
import proofs.«421913_j33337536151789_3_alg».proof.Proof.KI.R3Body
import proofs.«421913_j33337536151789_3_alg».proof.Proof.KI.R4Body
import proofs.«421913_j33337536151789_3_alg».proof.Proof.KI.R5Body
-- ==== Proof.KI.RunSegs.lean ====
import proofs.«421913_j33337536151789_3_alg».proof.Proof.KI.RunOuts
import proofs.«421913_j33337536151789_3_alg».proof.Proof.KI.Bodies

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

local notation "𝕄" => MT nD τ sig Unit (Elt F) ℕ (UR sig nD τ) ℕ

def pdats : (p : Fin 6) → (c : Dev nD) → Dat τ (Elt F) Unit ℕ (UR sig nD τ) ℕ (cfgs p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c
  | ⟨5, _⟩ => fun c => dat5 (Vin5 m) c
  | ⟨_ + 6, h⟩ => absurd h (Nat.not_lt.2 (Nat.le_add_left _ _))

abbrev runL : GSem nD τ sig → Finset Unit := fun _ => ∅
abbrev runLv : GSem nD τ sig → Unit → ℕ := fun _ _ => 0
/-- What rides beside the buffers between two calls: the generator register at some state, nothing owed. -/
abbrev Rest (c : Dev nD) : sProp 𝕄 := iprop((∃ r, prngReg c r) ∗ ∃ W, owes (c : Thread nD τ) (0 : CellTallies nD τ sig Unit) W)

theorem ΦA_of_entry {gr W : Nat} (win : Fin W → Pipeline.WinSpec sig gr) (c : Dev nD) (T : sProp 𝕄) :
    iprop((∃ r, prngReg c r) ∗ T ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, -, Hr⟩
  isplitl [Hr]; · iexact Hr
  iexact Hp

theorem exit_of_ΦA {gr W : Nat} (win : Fin W → Pipeline.WinSpec sig gr) (c : Dev nD) :
    (Pipeline.ΦA win c : sProp 𝕄)
      ⊢ iprop((∃ r, prngReg c r) ∗ emp ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

/-- A valuation read at the core's own references. -/
abbrev tcv (W : (c : Dev nD) → Valuation τ sig (Elt F)) : (c : Dev nD) → (b : Ref sig .tc) → Buf (Elt F) ((c : Thread nD τ).loc b) :=
  fun c b => W c b

set_option backward.isDefEq.respectTransparency.types false in
/-- Call `p` as a segment of the run, for every `p` at once: entered at the contents `Wpre`, left at `Wpost`. -/
def seg (p : Fin 6) (launch : Pipeline.LaunchFacts (nD := nD) (τ := τ) cfgs p)
    (hbody : ∀ c, BodyObligation (pdats m p c) (defs₀ (F := F)) Variants.none () Set.univ)
    (howed : ∀ c t, (pdats m p c).owed t = 0) (hrec : ∀ c, (pdats m p c).recorded 0 = Set.univ) (hq : ∀ c w, (pdats m p c).q w = fullShare)
    (hin : ∀ c, Pipeline.ΦA (cfgs p).spec c ⊢ (pdats m p c).Φ 0)
    (hout : ∀ c, (pdats m p c).Φ (Fin.last (cfgs p).N) ⊢ (Pipeline.ΦA (cfgs p).spec c : sProp 𝕄))
    (Wpre Wpost : (c : Dev nD) → Valuation τ sig (Elt F))
    (hA : ∀ c w, (pdats m p c).A w = tcv Wpre c (Pipeline.arrRef (cfgs p).spec w))
    (hF : ∀ c w, (pdats m p c).arrAt w (cfgs p).N = tcv Wpost c (Pipeline.arrRef (cfgs p).spec w))
    (hrest : ∀ c b, b ∉ Finset.univ.image (Pipeline.arrRef (cfgs p).spec) → tcv Wpost c b = tcv Wpre c b) :
    Pipeline.RegionSeg (pcfgs (F := F)) Gen.adm (pdats m) () defs₀ Variants.none runL runLv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ runL runLv p howed
  pre c := iprop(StableHlo.held (c : Thread nD τ) (Pipeline.ucRefs τ sig) (Wpre c) ∗ Rest c)
  post c := iprop(StableHlo.held (c : Thread nD τ) (Pipeline.ucRefs τ sig) (Wpost c) ∗ Rest c)
  X c := iprop(∃ r, prngReg c r)
  Y c := iprop(∃ r, prngReg c r)
  Z c := Pipeline.unscopedRest (Ix := Unit) (Name := ℕ) (U := UR sig nD τ) (Lvl := ℕ) (cfgs p).spec c (tcv Wpre c)
  hentry c := by
    rw [Pipeline.ownSems0_none]
    have hsplit := Pipeline.arrays_of_unscopedBufs (p := p) (pcfgs (F := F)) Gen.adm (pdats m) launch.win launch.arr_whole c
      ((pdats m p c).share_full (hq c)) (tcv Wpre c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c]; exact Set.mem_univ _)
      iexact HO
    isplitl [Hp]; · iexact Hp
    iexact Hrest
  hin c := (ΦA_of_entry (cfgs p).spec c _).trans (hin c)
  hout c := by
    rw [Pipeline.ownSems0_none]
    exact (hout c).trans (exit_of_ΦA (cfgs p).spec c)
  hexit c := by
    have hjoin := Pipeline.unscopedBufs_of_arrays (p := p) (pcfgs (F := F)) Gen.adm (Ix := Unit) (Name := ℕ) (U := UR sig nD τ) (Lvl := ℕ)
      launch.win launch.arr_whole c (pdats m) ((pdats m p c).share_full (hq c))
      (tcv Wpre c) (tcv Wpost c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c _]
    icases HO with ⟨%W, -, HO⟩; iexists W; iexact HO

set_option backward.isDefEq.respectTransparency.types false in
def reg0 := seg m 0 launch0 (body_obligation0 (Vin0 m)) (fun _ _ => rfl) (fun _ => rfl) (fun _ _ => rfl) (hin0 (Vin0 m)) (hout0 (Vin0 m)) (Gen.V9 m) (Gen.V10 m (outs m)) (hA0 m) (hF0 m) (hrest0 m)
set_option backward.isDefEq.respectTransparency.types false in
def reg1 := seg m 1 launch1 (body_obligation1 (Vin1 m)) (fun _ _ => rfl) (fun _ => rfl) (fun _ _ => rfl) (hin1 (Vin1 m)) (hout1 (Vin1 m)) (Gen.V10 m (outs m)) (Gen.V11 m (outs m)) (hA1 m) (hF1 m) (hrest1 m)
set_option backward.isDefEq.respectTransparency.types false in
def reg2 := seg m 2 launch2 (body_obligation2 (Vin2 m)) (fun _ _ => rfl) (fun _ => rfl) (fun _ _ => rfl) (hin2 (Vin2 m)) (hout2 (Vin2 m)) (Gen.V11 m (outs m)) (Gen.V12 m (outs m)) (hA2 m) (hF2 m) (hrest2 m)
set_option backward.isDefEq.respectTransparency.types false in
def reg3 := seg m 3 launch3 (body_obligation3 (Vin3 m)) (fun _ _ => rfl) (fun _ => rfl) (fun _ _ => rfl) (hin3 (Vin3 m)) (hout3 (Vin3 m)) (Gen.V18 m (outs m)) (Gen.V19 m (outs m)) (hA3 m) (hF3 m) (hrest3 m)
set_option backward.isDefEq.respectTransparency.types false in
def reg4 := seg m 4 launch4 (body_obligation4 (Vin4 m)) (fun _ _ => rfl) (fun _ => rfl) (fun _ _ => rfl) (hin4 (Vin4 m)) (hout4 (Vin4 m)) (Gen.V19 m (outs m)) (Gen.V20 m (outs m)) (hA4 m) (hF4 m) (hrest4 m)
set_option backward.isDefEq.respectTransparency.types false in
def reg5 := seg m 5 launch5 (body_obligation5 (Vin5 m)) (fun _ _ => rfl) (fun _ => rfl) (fun _ _ => rfl) (hin5 (Vin5 m)) (hout5 (Vin5 m)) (Gen.V20 m (outs m)) (Gen.V21 m (outs m)) (hA5 m) (hF5 m) (hrest5 m)

end Cert.KernelIdeal.Hand

end
-- ==== Proof.KI.Run.lean ====
import proofs.«421913_j33337536151789_3_alg».proof.Proof.KI.RunCond
import proofs.«421913_j33337536151789_3_alg».proof.Proof.KI.RunSegs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option backward.isDefEq.respectTransparency.types false in

theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v36) = Gen.V22 m (outs m) c main_v36
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Gen.run_cond m (Ix := Unit) (U := UR sig nD τ) (Lvl := ℕ) (EP := emb₁) (ι := ()) (𝒱₀ := Variants.none) (L := runL) (lv := runLv)
    (hL := fun _ _ => rfl) (ρ := ρ) (outs := outs m) (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rest c)
    (hE0 := by
      refine Pipeline.initEach runL runLv fun c => ?_
      iintro ⟨⟨-, HO, -, Hp, -⟩, -⟩
      imodintro
      isplitl [Hp]; · iexists _; iexact Hp
      iexists ∅; iexact HO)
    (hE6 := fun c => by iintro ⟨-, HO⟩; iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)

end Cert.KernelIdeal.Hand

end
-- ==== Proof.KB.R0Defs.lean ====
import proofs.«421913_j33337536151789_3_alg».proof.Proof.Gen.Kernel.Launch
import proofs.«421913_j33337536151789_3_alg».proof.Proof.Gen.Kernel.Skeleton
import proofs.«421913_j33337536151789_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev sc0_0 : Memref sig .tc .vmem S1024x128 .f32 := Memref.whole cc0_scratch0
abbrev sc0_1 : Memref sig .tc .vmem S1024x2048 .i32 := Memref.whole cc0_scratch1

def acc0 (c : Dev nD) : (n : ℕ) → n < cfg0.N → Vec F S1024x128 .f32
  | 0, hn => k0_pay3 (grid0.coords ⟨0, hn⟩) (iblk0 V c 0 ⟨0, hn⟩) k0_pay2 k0_pay1 (iblk0 V c 1 ⟨0, hn⟩)
  | n + 1, hn => k0_pay3 (grid0.coords ⟨n + 1, hn⟩) (iblk0 V c 0 ⟨n + 1, hn⟩) k0_pay2
      (if (n + 1) % 25 = 0 then k0_pay1 else acc0 c n (Nat.lt_of_succ_lt hn)) (iblk0 V c 1 ⟨n + 1, hn⟩)

theorem acc0_first (c : Dev nD) (t : Fin cfg0.N) (h : t.val % 25 = 0) :
    acc0 V c t.val t.isLt = k0_pay3 (grid0.coords t) (iblk0 V c 0 t) k0_pay2 k0_pay1 (iblk0 V c 1 t) := by
  obtain ⟨n, hn⟩ := t
  cases n with
  | zero => rfl
  | succ n => simp only [acc0]; rw [if_pos h]

theorem acc0_next (c : Dev nD) (t : Fin cfg0.N) (h : ¬ t.val % 25 = 0) :
    acc0 V c t.val t.isLt = k0_pay3 (grid0.coords t) (iblk0 V c 0 t) k0_pay2
      (acc0 V c (t.val - 1) (Nat.lt_of_le_of_lt (Nat.sub_le _ _) t.isLt)) (iblk0 V c 1 t) := by
  obtain ⟨n, hn⟩ := t
  cases n with
  | zero => exact absurd (Nat.zero_mod _) h
  | succ n => simp only [acc0]; rw [if_neg h]; rfl

def Phi0 (c : Dev nD) : (n : ℕ) → n ≤ cfg0.N → sProp 𝕄
  | 0, _ => Pipeline.ΦA spec0 c
  | n + 1, hn => iprop(owns (c : Thread nD τ) sc0_0 fullShare (acc0 V c n hn) ∗ owns (c : Thread nD τ) sc0_1 fullShare (k0_pay2 : Vec F S1024x2048 .i32)
      ∗ Pipeline.scopedRestBut (Ix := Unit) (Name := ℕ) (U := UR sig nD τ) (Lvl := ℕ) (Val := Elt F) spec0 c [cc0_scratch0, cc0_scratch1]
      ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay4 (acc0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay4 (acc0 V c t.val t.isLt) := by dsimp only [dat0]

end Cert.Kernel.Hand

end
-- ==== Proof.KB.R1Defs.lean ====
import proofs.«421913_j33337536151789_3_alg».proof.Proof.Gen.Kernel.Launch
import proofs.«421913_j33337536151789_3_alg».proof.Proof.Gen.Kernel.Skeleton
import proofs.«421913_j33337536151789_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev sc1_0 : Memref sig .tc .vmem S2048x128 .f32 := Memref.whole cc1_scratch0
abbrev sc1_1 : Memref sig .tc .vmem S2048x1024 .i32 := Memref.whole cc1_scratch1

def acc1 (c : Dev nD) : (n : ℕ) → n < cfg1.N → Vec F S2048x128 .f32
  | 0, hn => k1_pay3 (grid1.coords ⟨0, hn⟩) (iblk1 V c 0 ⟨0, hn⟩) k1_pay2 k1_pay1 (iblk1 V c 1 ⟨0, hn⟩)
  | n + 1, hn => k1_pay3 (grid1.coords ⟨n + 1, hn⟩) (iblk1 V c 0 ⟨n + 1, hn⟩) k1_pay2
      (if (n + 1) % 586 = 0 then k1_pay1 else acc1 c n (Nat.lt_of_succ_lt hn)) (iblk1 V c 1 ⟨n + 1, hn⟩)

theorem acc1_first (c : Dev nD) (t : Fin cfg1.N) (h : t.val % 586 = 0) :
    acc1 V c t.val t.isLt = k1_pay3 (grid1.coords t) (iblk1 V c 0 t) k1_pay2 k1_pay1 (iblk1 V c 1 t) := by
  obtain ⟨n, hn⟩ := t
  cases n with
  | zero => rfl
  | succ n => simp only [acc1]; rw [if_pos h]

theorem acc1_next (c : Dev nD) (t : Fin cfg1.N) (h : ¬ t.val % 586 = 0) :
    acc1 V c t.val t.isLt = k1_pay3 (grid1.coords t) (iblk1 V c 0 t) k1_pay2
      (acc1 V c (t.val - 1) (Nat.lt_of_le_of_lt (Nat.sub_le _ _) t.isLt)) (iblk1 V c 1 t) := by
  obtain ⟨n, hn⟩ := t
  cases n with
  | zero => exact absurd (Nat.zero_mod _) h
  | succ n => simp only [acc1]; rw [if_neg h]; rfl

def Phi1 (c : Dev nD) : (n : ℕ) → n ≤ cfg1.N → sProp 𝕄
  | 0, _ => Pipeline.ΦA spec1 c
  | n + 1, hn => iprop(owns (c : Thread nD τ) sc1_0 fullShare (acc1 V c n hn) ∗ owns (c : Thread nD τ) sc1_1 fullShare (k1_pay2 : Vec F S2048x1024 .i32)
      ∗ Pipeline.scopedRestBut (Ix := Unit) (Name := ℕ) (U := UR sig nD τ) (Lvl := ℕ) (Val := Elt F) spec1 c [cc1_scratch0, cc1_scratch1]
      ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

end Cert.Kernel.Hand

end
-- ==== Proof.KB.R2Defs.lean ====
import proofs.«421913_j33337536151789_3_alg».proof.Proof.Gen.Kernel.Launch
import proofs.«421913_j33337536151789_3_alg».proof.Proof.Gen.Kernel.Skeleton
import proofs.«421913_j33337536151789_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2 (c : Dev nD) (t : Fin cfg2.N) : Vec F S2048x64 .bf16 :=
  k2_pay1 (grid2.coords t) (iblk2 V c 0 t) (iblk2 V c 2 t) (iblk2 V c 3 t) (iblk2 V c 4 t) (iblk2 V c 1 t) (iblk2 V c 5 t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2 V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2 V c t := by dsimp only [dat2]

end Cert.Kernel.Hand

end
-- ==== Proof.KB.R3Defs.lean ====
import proofs.«421913_j33337536151789_3_alg».proof.Proof.Gen.Kernel.Launch
import proofs.«421913_j33337536151789_3_alg».proof.Proof.Gen.Kernel.Skeleton
import proofs.«421913_j33337536151789_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev sc3_0 : Memref sig .tc .vmem S1024x64 .f32 := Memref.whole cc3_scratch0
abbrev sc3_1 : Memref sig .tc .vmem S1024x2048 .i32 := Memref.whole cc3_scratch1

def acc3 (c : Dev nD) : (n : ℕ) → n < cfg3.N → Vec F S1024x64 .f32
  | 0, hn => k3_pay3 (grid3.coords ⟨0, hn⟩) (iblk3 V c 0 ⟨0, hn⟩) k3_pay2 k3_pay1 (iblk3 V c 1 ⟨0, hn⟩)
  | n + 1, hn => k3_pay3 (grid3.coords ⟨n + 1, hn⟩) (iblk3 V c 0 ⟨n + 1, hn⟩) k3_pay2
      (if (n + 1) % 25 = 0 then k3_pay1 else acc3 c n (Nat.lt_of_succ_lt hn)) (iblk3 V c 1 ⟨n + 1, hn⟩)

theorem acc3_first (c : Dev nD) (t : Fin cfg3.N) (h : t.val % 25 = 0) :
    acc3 V c t.val t.isLt = k3_pay3 (grid3.coords t) (iblk3 V c 0 t) k3_pay2 k3_pay1 (iblk3 V c 1 t) := by
  obtain ⟨n, hn⟩ := t
  cases n with
  | zero => rfl
  | succ n => simp only [acc3]; rw [if_pos h]

theorem acc3_next (c : Dev nD) (t : Fin cfg3.N) (h : ¬ t.val % 25 = 0) :
    acc3 V c t.val t.isLt = k3_pay3 (grid3.coords t) (iblk3 V c 0 t) k3_pay2
      (acc3 V c (t.val - 1) (Nat.lt_of_le_of_lt (Nat.sub_le _ _) t.isLt)) (iblk3 V c 1 t) := by
  obtain ⟨n, hn⟩ := t
  cases n with
  | zero => exact absurd (Nat.zero_mod _) h
  | succ n => simp only [acc3]; rw [if_neg h]; rfl

def Phi3 (c : Dev nD) : (n : ℕ) → n ≤ cfg3.N → sProp 𝕄
  | 0, _ => Pipeline.ΦA spec3 c
  | n + 1, hn => iprop(owns (c : Thread nD τ) sc3_0 fullShare (acc3 V c n hn) ∗ owns (c : Thread nD τ) sc3_1 fullShare (k3_pay2 : Vec F S1024x2048 .i32)
      ∗ Pipeline.scopedRestBut (Ix := Unit) (Name := ℕ) (U := UR sig nD τ) (Lvl := ℕ) (Val := Elt F) spec3 c [cc3_scratch0, cc3_scratch1]
      ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay4 (acc3 V c t.val t.isLt)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = k3_pay4 (acc3 V c t.val t.isLt) := by dsimp only [dat3]

end Cert.Kernel.Hand

end
-- ==== Proof.KB.R4Defs.lean ====
import proofs.«421913_j33337536151789_3_alg».proof.Proof.Gen.Kernel.Launch
import proofs.«421913_j33337536151789_3_alg».proof.Proof.Gen.Kernel.Skeleton
import proofs.«421913_j33337536151789_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev sc4_0 : Memref sig .tc .vmem S2048x64 .f32 := Memref.whole cc4_scratch0
abbrev sc4_1 : Memref sig .tc .vmem S2048x1024 .i32 := Memref.whole cc4_scratch1

def acc4 (c : Dev nD) : (n : ℕ) → n < cfg4.N → Vec F S2048x64 .f32
  | 0, hn => k4_pay3 (grid4.coords ⟨0, hn⟩) (iblk4 V c 0 ⟨0, hn⟩) k4_pay2 k4_pay1 (iblk4 V c 1 ⟨0, hn⟩)
  | n + 1, hn => k4_pay3 (grid4.coords ⟨n + 1, hn⟩) (iblk4 V c 0 ⟨n + 1, hn⟩) k4_pay2
      (if (n + 1) % 586 = 0 then k4_pay1 else acc4 c n (Nat.lt_of_succ_lt hn)) (iblk4 V c 1 ⟨n + 1, hn⟩)

theorem acc4_first (c : Dev nD) (t : Fin cfg4.N) (h : t.val % 586 = 0) :
    acc4 V c t.val t.isLt = k4_pay3 (grid4.coords t) (iblk4 V c 0 t) k4_pay2 k4_pay1 (iblk4 V c 1 t) := by
  obtain ⟨n, hn⟩ := t
  cases n with
  | zero => rfl
  | succ n => simp only [acc4]; rw [if_pos h]

theorem acc4_next (c : Dev nD) (t : Fin cfg4.N) (h : ¬ t.val % 586 = 0) :
    acc4 V c t.val t.isLt = k4_pay3 (grid4.coords t) (iblk4 V c 0 t) k4_pay2
      (acc4 V c (t.val - 1) (Nat.lt_of_le_of_lt (Nat.sub_le _ _) t.isLt)) (iblk4 V c 1 t) := by
  obtain ⟨n, hn⟩ := t
  cases n with
  | zero => exact absurd (Nat.zero_mod _) h
  | succ n => simp only [acc4]; rw [if_neg h]; rfl

def Phi4 (c : Dev nD) : (n : ℕ) → n ≤ cfg4.N → sProp 𝕄
  | 0, _ => Pipeline.ΦA spec4 c
  | n + 1, hn => iprop(owns (c : Thread nD τ) sc4_0 fullShare (acc4 V c n hn) ∗ owns (c : Thread nD τ) sc4_1 fullShare (k4_pay2 : Vec F S2048x1024 .i32)
      ∗ Pipeline.scopedRestBut (Ix := Unit) (Name := ℕ) (U := UR sig nD τ) (Lvl := ℕ) (Val := Elt F) spec4 c [cc4_scratch0, cc4_scratch1]
      ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4 V c t.val t.isLt := by dsimp only [dat4]

end Cert.Kernel.Hand

end
-- ==== Proof.KB.R5Defs.lean ====
import proofs.«421913_j33337536151789_3_alg».proof.Proof.Gen.Kernel.Launch
import proofs.«421913_j33337536151789_3_alg».proof.Proof.Gen.Kernel.Skeleton
import proofs.«421913_j33337536151789_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5 (c : Dev nD) (t : Fin cfg5.N) : Vec F S2048x128 .f32 :=
  k5_pay1 (grid5.coords t) (iblk5 V c 0 t) (iblk5 V c 2 t) (iblk5 V c 3 t) (iblk5 V c 4 t) (iblk5 V c 1 t) (iblk5 V c 5 t)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5 V c t
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5 V c t := by dsimp only [dat5]

end Cert.Kernel.Hand

end
-- ==== Proof.KB.RunOuts.lean ====
import proofs.«421913_j33337536151789_3_alg».proof.Proof.Gen.Kernel.Regions
import proofs.«421913_j33337536151789_3_alg».proof.Proof.KB.R0Defs
import proofs.«421913_j33337536151789_3_alg».proof.Proof.KB.R1Defs
import proofs.«421913_j33337536151789_3_alg».proof.Proof.KB.R2Defs
import proofs.«421913_j33337536151789_3_alg».proof.Proof.KB.R3Defs
import proofs.«421913_j33337536151789_3_alg».proof.Proof.KB.R4Defs
import proofs.«421913_j33337536151789_3_alg».proof.Proof.KB.R5Defs

noncomputable section

namespace Cert.Kernel.Hand

open Idealize.ShloMosaic Idealize.ShloMosaic.TcCoe
open Idealize.ShloMosaic.Pipeline (Dat Cfg)
open Cert.Kernel Cert.Kernel.Gen

variable {F : FTy → Type} [FloatOps F]

/-- At the exit every array but the call's output array holds what it held at the entry. -/
theorem exit_arr {cfg : Cfg sig Λ₀} {c : Dev nD} {d : Dat τ (Elt F) Unit ℕ (UR sig nD τ) ℕ cfg c} {V : Valuation τ sig (Elt F)}
    (hA : ∀ w, d.A w = V (Pipeline.arrRef cfg.spec w)) (o : Fin cfg.W)
    (hin : ∀ w, w ≠ o → (cfg.win w).isOut = false ∧ Pipeline.arrRef cfg.spec w ≠ Pipeline.arrRef cfg.spec o)
    {x : Buf (Elt F) ((c : Thread nD τ).loc (Pipeline.arrRef cfg.spec o))} (hx : x = d.arrAt o cfg.N) (w : Fin cfg.W) :
    d.arrAt w cfg.N = Function.update V (Pipeline.arrRef cfg.spec o) x (Pipeline.arrRef cfg.spec w) := by
  by_cases h : w = o
  · subst h hx; rw [Function.update_self]
  · rw [Function.update_of_ne (StableHlo.devRef_ne_of_ne (hin w h).2), d.arrAt_in w (hin w h).1, hA]

theorem exit_rest {W : ℕ} {f : Fin W → Ref sig .tc} (o : Fin W) {V : Valuation τ sig (Elt F)}
    {x : (Proc.devRef .tc (f o) : DevRef τ sig).ty.Contents (Elt F)} (b : Ref sig .tc) (hb : b ∉ Finset.univ.image f) :
    Function.update V (f o) x b = V b :=
  Function.update_of_ne (StableHlo.devRef_ne_of_ne (ne_of_mem_of_not_mem (Finset.mem_image_of_mem f (Finset.mem_univ o)) hb).symm) _ _

variable (m : (ℓ : Loc nD τ sig) → Buf (Elt F) ℓ)

abbrev Vin0 : (c : Dev nD) → (b : Ref sig .tc) → Buf (Elt F) ((c : Thread nD τ).loc b) := fun c b => Gen.V9 m c b
def X10 (c : Dev nD) : Buf (Elt F) ((c : Thread nD τ).loc main_v21) := (dat0 (Vin0 m) c).arrAt 2 cfg0.N
abbrev W1 (c : Dev nD) := Function.update (Gen.V9 m c) main_v21 (X10 m c)
abbrev Vin1 : (c : Dev nD) → (b : Ref sig .tc) → Buf (Elt F) ((c : Thread nD τ).loc b) := fun c b => W1 m c b
def X11 (c : Dev nD) : Buf (Elt F) ((c : Thread nD τ).loc main_v22) := (dat1 (Vin1 m) c).arrAt 2 cfg1.N
abbrev W2 (c : Dev nD) := Function.update (W1 m c) main_v22 (X11 m c)
abbrev Vin2 : (c : Dev nD) → (b : Ref sig .tc) → Buf (Elt F) ((c : Thread nD τ).loc b) := fun c b => W2 m c b
def X12 (c : Dev nD) : Buf (Elt F) ((c : Thread nD τ).loc main_v23) := (dat2 (Vin2 m) c).arrAt 6 cfg2.N
abbrev W3 (c : Dev nD) :=
  StableHlo.after hostOps3_5 (StableHlo.after hostOps3_4 (StableHlo.after hostOps3_3 (StableHlo.after hostOps3_2 (StableHlo.after hostOps3_1
    (StableHlo.after hostOps3 (Function.update (W2 m c) main_v23 (X12 m c)))))))
abbrev Vin3 : (c : Dev nD) → (b : Ref sig .tc) → Buf (Elt F) ((c : Thread nD τ).loc b) := fun c b => W3 m c b
def X19 (c : Dev nD) : Buf (Elt F) ((c : Thread nD τ).loc main_v32) := (dat3 (Vin3 m) c).arrAt 2 cfg3.N
abbrev W4 (c : Dev nD) := Function.update (W3 m c) main_v32 (X19 m c)
abbrev Vin4 : (c : Dev nD) → (b : Ref sig .tc) → Buf (Elt F) ((c : Thread nD τ).loc b) := fun c b => W4 m c b
def X20 (c : Dev nD) : Buf (Elt F) ((c : Thread nD τ).loc main_v33) := (dat4 (Vin4 m) c).arrAt 2 cfg4.N
abbrev W5 (c : Dev nD) := Function.update (W4 m c) main_v33 (X20 m c)
abbrev Vin5 : (c : Dev nD) → (b : Ref sig .tc) → Buf (Elt F) ((c : Thread nD τ).loc b) := fun c b => W5 m c b
def X21 (c : Dev nD) : Buf (Elt F) ((c : Thread nD τ).loc main_v34) := (dat5 (Vin5 m) c).arrAt 6 cfg5.N

/-- What the six calls leave, each in its own output array. -/
def outs : Gen.Outs (F := F) := fun _ r c =>
  if h : r = main_v21 then h ▸ X10 m c else
  if h : r = main_v22 then h ▸ X11 m c else
  if h : r = main_v23 then h ▸ X12 m c else
  if h : r = main_v32 then h ▸ X19 m c else
  if h : r = main_v33 then h ▸ X20 m c else
  if h : r = main_v34 then h ▸ X21 m c else m ((c : Thread nD τ).loc r)

theorem outs_v21 (J : ℕ) (c : Dev nD) : outs m J main_v21 c = X10 m c := dif_pos rfl
theorem outs_v22 (J : ℕ) (c : Dev nD) : outs m J main_v22 c = X11 m c := (dif_neg (by decide)).trans (dif_pos rfl)
theorem outs_v23 (J : ℕ) (c : Dev nD) : outs m J main_v23 c = X12 m c :=
  (dif_neg (by decide)).trans ((dif_neg (by decide)).trans (dif_pos rfl))
theorem outs_v32 (J : ℕ) (c : Dev nD) : outs m J main_v32 c = X19 m c :=
  (dif_neg (by decide)).trans ((dif_neg (by decide)).trans ((dif_neg (by decide)).trans (dif_pos rfl)))
theorem outs_v33 (J : ℕ) (c : Dev nD) : outs m J main_v33 c = X20 m c :=
  (dif_neg (by decide)).trans ((dif_neg (by decide)).trans ((dif_neg (by decide)).trans ((dif_neg (by decide)).trans (dif_pos rfl))))
theorem outs_v34 (J : ℕ) (c : Dev nD) : outs m J main_v34 c = X21 m c :=
  (dif_neg (by decide)).trans ((dif_neg (by decide)).trans ((dif_neg (by decide)).trans ((dif_neg (by decide)).trans ((dif_neg (by decide)).trans (dif_pos rfl)))))

theorem W1_outs : Gen.V10 m (outs m) = W1 m := by funext c; unfold Gen.V10; rw [outs_v21]
theorem W2_outs : Gen.V11 m (outs m) = W2 m := by funext c; unfold Gen.V11; rw [W1_outs, outs_v22]
theorem W3_outs : Gen.V18 m (outs m) = W3 m := by
  funext c; unfold Gen.V18 Gen.V17 Gen.V16 Gen.V15 Gen.V14 Gen.V13 Gen.V12; rw [W2_outs, outs_v23]
theorem W4_outs : Gen.V19 m (outs m) = W4 m := by funext c; unfold Gen.V19; rw [W3_outs, outs_v32]
theorem W5_outs : Gen.V20 m (outs m) = W5 m := by funext c; unfold Gen.V20; rw [W4_outs, outs_v33]

theorem outs_v21' (c : Dev nD) : outs m 10 main_v21 c = (dat0 (Vin0 m) c).arrAt 2 cfg0.N := outs_v21 m 10 c
theorem outs_v22' (c : Dev nD) : outs m 11 main_v22 c = (dat1 (fun c b => Gen.V10 m (outs m) c b) c).arrAt 2 cfg1.N := by
  rw [W1_outs]; exact outs_v22 m 11 c
theorem outs_v23' (c : Dev nD) : outs m 12 main_v23 c = (dat2 (fun c b => Gen.V11 m (outs m) c b) c).arrAt 6 cfg2.N := by
  rw [W2_outs]; exact outs_v23 m 12 c
theorem outs_v32' (c : Dev nD) : outs m 19 main_v32 c = (dat3 (fun c b => Gen.V18 m (outs m) c b) c).arrAt 2 cfg3.N := by
  rw [W3_outs]; exact outs_v32 m 19 c
theorem outs_v33' (c : Dev nD) : outs m 20 main_v33 c = (dat4 (fun c b => Gen.V19 m (outs m) c b) c).arrAt 2 cfg4.N := by
  rw [W4_outs]; exact outs_v33 m 20 c
theorem outs_v34' (c : Dev nD) : outs m 21 main_v34 c = (dat5 (fun c b => Gen.V20 m (outs m) c b) c).arrAt 6 cfg5.N := by
  rw [W5_outs]; exact outs_v34 m 21 c

theorem hA0 (c : Dev nD) (w : Fin cfg0.W) : (dat0 (Vin0 m) c).A w = Gen.V9 m c (Pipeline.arrRef spec0 w) := A_eq0 (Vin0 m) c w
theorem hA1 (c : Dev nD) (w : Fin cfg1.W) : (dat1 (Vin1 m) c).A w = Gen.V10 m (outs m) c (Pipeline.arrRef spec1 w) := by
  rw [W1_outs]; exact A_eq1 _ c w
theorem hA2 (c : Dev nD) (w : Fin cfg2.W) : (dat2 (Vin2 m) c).A w = Gen.V11 m (outs m) c (Pipeline.arrRef spec2 w) := by
  rw [W2_outs]; exact A_eq2 _ c w
theorem hA3 (c : Dev nD) (w : Fin cfg3.W) : (dat3 (Vin3 m) c).A w = Gen.V18 m (outs m) c (Pipeline.arrRef spec3 w) := by
  rw [W3_outs]; exact A_eq3 _ c w
theorem hA4 (c : Dev nD) (w : Fin cfg4.W) : (dat4 (Vin4 m) c).A w = Gen.V19 m (outs m) c (Pipeline.arrRef spec4 w) := by
  rw [W4_outs]; exact A_eq4 _ c w
theorem hA5 (c : Dev nD) (w : Fin cfg5.W) : (dat5 (Vin5 m) c).A w = Gen.V20 m (outs m) c (Pipeline.arrRef spec5 w) := by
  rw [W5_outs]; exact A_eq5 _ c w

theorem hF0 (c : Dev nD) : ∀ w : Fin 3, (dat0 (Vin0 m) c).arrAt w cfg0.N = Gen.V10 m (outs m) c (Pipeline.arrRef spec0 w) :=
  exit_arr (hA0 m c) 2 (by decide) (outs_v21 m 10 c)
theorem hrest0 (c : Dev nD) : ∀ b, b ∉ Finset.univ.image (Pipeline.arrRef spec0) → Gen.V10 m (outs m) c b = Gen.V9 m c b :=
  exit_rest (2 : Fin 3)
theorem hF1 (c : Dev nD) : ∀ w : Fin 3, (dat1 (Vin1 m) c).arrAt w cfg1.N = Gen.V11 m (outs m) c (Pipeline.arrRef spec1 w) :=
  exit_arr (hA1 m c) 2 (by decide) (outs_v22 m 11 c)
theorem hrest1 (c : Dev nD) : ∀ b, b ∉ Finset.univ.image (Pipeline.arrRef spec1) → Gen.V11 m (outs m) c b = Gen.V10 m (outs m) c b :=
  exit_rest (2 : Fin 3)
theorem hF2 (c : Dev nD) : ∀ w : Fin 7, (dat2 (Vin2 m) c).arrAt w cfg2.N = Gen.V12 m (outs m) c (Pipeline.arrRef spec2 w) :=
  exit_arr (hA2 m c) 6 (by decide) (outs_v23 m 12 c)
theorem hrest2 (c : Dev nD) : ∀ b, b ∉ Finset.univ.image (Pipeline.arrRef spec2) → Gen.V12 m (outs m) c b = Gen.V11 m (outs m) c b :=
  exit_rest (6 : Fin 7)
theorem hF3 (c : Dev nD) : ∀ w : Fin 3, (dat3 (Vin3 m) c).arrAt w cfg3.N = Gen.V19 m (outs m) c (Pipeline.arrRef spec3 w) :=
  exit_arr (hA3 m c) 2 (by decide) (outs_v32 m 19 c)
theorem hrest3 (c : Dev nD) : ∀ b, b ∉ Finset.univ.image (Pipeline.arrRef spec3) → Gen.V19 m (outs m) c b = Gen.V18 m (outs m) c b :=
  exit_rest (2 : Fin 3)
theorem hF4 (c : Dev nD) : ∀ w : Fin 3, (dat4 (Vin4 m) c).arrAt w cfg4.N = Gen.V20 m (outs m) c (Pipeline.arrRef spec4 w) :=
  exit_arr (hA4 m c) 2 (by decide) (outs_v33 m 20 c)
theorem hrest4 (c : Dev nD) : ∀ b, b ∉ Finset.univ.image (Pipeline.arrRef spec4) → Gen.V20 m (outs m) c b = Gen.V19 m (outs m) c b :=
  exit_rest (2 : Fin 3)
theorem hF5 (c : Dev nD) : ∀ w : Fin 7, (dat5 (Vin5 m) c).arrAt w cfg5.N = Gen.V21 m (outs m) c (Pipeline.arrRef spec5 w) :=
  exit_arr (hA5 m c) 6 (by decide) (outs_v34 m 21 c)
theorem hrest5 (c : Dev nD) : ∀ b, b ∉ Finset.univ.image (Pipeline.arrRef spec5) → Gen.V21 m (outs m) c b = Gen.V20 m (outs m) c b :=
  exit_rest (6 : Fin 7)

end Cert.Kernel.Hand

end
-- ==== Proof.KB.R0Conds.lean ====
import proofs.«421913_j33337536151789_3_alg».proof.Proof.Gen.Kernel.Points

noncomputable section

namespace Cert.Kernel.Hand

open Idealize.ShloMosaic Idealize.ShloMosaic.TcCoe
open Idealize.SL Idealize.SL.Sem
open Cert.Kernel Cert.Kernel.Gen

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 25 = 0 :=
  (by decide +kernel : ∀ t : Fin grid0.N, cond0_0 (grid0.coords t) ↔ t.val % 25 = 0)

abbrev cond0_1 (i : grid0.Coords) : Prop := k0_cond2 i = 1#1

theorem hcond0_1 : ∀ t : Fin cfg0.N, cond0_1 (grid0.coords t) ↔ t.val % 25 = 24 :=
  (by decide +kernel : ∀ t : Fin grid0.N, cond0_1 (grid0.coords t) ↔ t.val % 25 = 24)

theorem idle0_2_of (i : grid0.Coords) (h : ¬cond0_1 i) : cfg0.idle 2 i = true := by
  show (!(k0_cond2 i == 1#1)) = true
  rw [Bool.not_eq_true', beq_eq_false_iff_ne]; exact h

theorem live0_2_of (i : grid0.Coords) (h : cond0_1 i) : cfg0.idle 2 i = false := by
  show (!(k0_cond2 i == 1#1)) = false
  rw [Bool.not_eq_false', beq_iff_eq]; exact h

theorem noFlush0_2 (t : Fin cfg0.N) (h : ¬t.val % 25 = 24) : (cfg0.win 2).flush t = false :=
  Bool.eq_false_iff.mpr fun hf => h ((flush0_2 t).mp hf)

end Cert.Kernel.Hand

end
-- ==== Proof.KB.R0Run.lean ====
import proofs.«421913_j33337536151789_3_alg».proof.Proof.Gen.Kernel.Launch
import proofs.«421913_j33337536151789_3_alg».proof.Proof.Gen.Kernel.Skeleton
import proofs.«421913_j33337536151789_3_alg».proof.Proof.KB.R0Conds
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem r0_hz : (![0, 0] : Fin 2 → Nat) = fun _ => 0 := funext fun a => by fin_cases a <;> rfl

theorem r0_read_writes_cons_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

theorem r0_readAt_whole {Val : EltTy → Type} {sg : RefSig} {κ : Kind} {sp : Space} {S : Shape} {e : EltTy}
    {m : Memref sg κ sp S e} (hm : m.IsWhole) {off : Fin S.rank → Nat} (h : off = fun _ => 0)
    (inb : ∀ a, off a + S.size a ≤ S.size a) (X : S.Idx → Val e) :
    m.view.readAt Val (Rect.unit off S.size inb).toLoadRect (hm.unread X) = X := by
  rw [View.readAt_eq_ld, hm.read_unread]; exact View.ld_unit_zero h inb X

/-- The running sum a tile leaves: its product added to zero over the fresh column table where a row starts, to the sum found over the table found elsewhere. -/
def k0_sum (i : grid0.Coords) (x0 : Vec F S1024x1 .i32) (xs1 : Vec F S1024x2048 .i32) (xs0 : Vec F S1024x128 .f32) (x1 : Vec F S2048x128 .bf16) : Vec F S1024x128 .f32 :=
  k0_pay3 i x0 (if cond0_0 i then k0_pay2 else xs1) (if cond0_0 i then k0_pay1 else xs0) x1

set_option maxHeartbeats 1000000 in
/-- The body on whole buffers at known contents, at any coordinates where a row's first tile is not its last. -/
theorem kernel0 (c : Dev nD) (i : grid0.Coords) (arg2 : Memref sig .tc .vmem S1024x1 .i32) (harg2 : arg2.IsWhole) (arg3 : Memref sig .tc .vmem S2048x128 .bf16) (harg3 : arg3.IsWhole) (arg4 : Memref sig .tc .vmem S1024x128 .bf16) (harg4 : arg4.IsWhole) (arg5 : Memref sig .tc .vmem S1024x128 .f32) (harg5 : arg5.IsWhole) (arg6 : Memref sig .tc .vmem S1024x2048 .i32) (harg6 : arg6.IsWhole)
    (hx : cond0_0 i → ¬cond0_1 i)
    (x0 : Vec F S1024x1 .i32) (x1 : Vec F S2048x128 .bf16) (xi : Vec F S1024x128 .bf16) (xs0 : Vec F S1024x128 .f32) (xs1 : Vec F S1024x2048 .i32) (E : Set ℕ) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare xs0 ∗ owns (c : Thread nD τ) arg6 fullShare xs1
        ∗ (iprop(owns (c : Thread nD τ) arg2 fullShare x0 ∗ owns (c : Thread nD τ) arg3 fullShare x1
            ∗ owns (c : Thread nD τ) arg4 fullShare (if cond0_1 i then k0_pay4 (k0_sum i x0 xs1 xs0 x1) else xi)
            ∗ owns (c : Thread nD τ) arg5 fullShare (k0_sum i x0 xs1 xs0 x1) ∗ owns (c : Thread nD τ) arg6 fullShare (if cond0_0 i then k0_pay2 else xs1)) -∗ K ⟨⟩))
      ⊢ wp frame (wpE (defs₀ (F := F)) Variants.none c none) E (cc0__gather_kernel i arg2 harg2 arg3 harg3 arg4 harg4 arg5 harg5 arg6 harg6) K := by
  by_cases hc0 : cond0_0 i <;> by_cases hc1 : cond0_1 i
  · exact absurd hc1 (hx hc0)
  all_goals
    first | simp only [k0_sum, if_neg hc0] | simp only [k0_sum, if_pos hc0]
    first | simp only [if_neg hc1] | simp only [if_pos hc1]
    simp only [cc0__gather_kernel_eq_skeleton]; unfold cc0__gather_kernel_skel owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]; rotate_left; isplitl [H1]; rotate_left; isplitl [H2]; rotate_left; isplitl [H3]; rotate_left
    all_goals (iexists _; isplitr; swap; · first | iexact H0 | iexact H1 | iexact H2 | iexact H3 | iexact H4)
    all_goals
      ipureintro; sl_unfold_words
      simp only [r0_read_writes_cons_whole (Val := Elt F) (S := S1024x128) _ _ r0_hz, r0_read_writes_cons_whole (Val := Elt F) (S := S1024x2048) _ _ r0_hz,
        Memref.IsWhole.read_unread, r0_readAt_whole harg2 r0_hz, r0_readAt_whole harg3 r0_hz, r0_readAt_whole harg5 r0_hz,
        r0_readAt_whole harg6 r0_hz, View.readCov_unit_zero (S := S1024x128) _ r0_hz, View.readCov_unit_zero (S := S1024x2048) _ r0_hz]

end Cert.Kernel.Hand

end
-- ==== Proof.KB.R0Body.lean ====
import proofs.«421913_j33337536151789_3_alg».proof.Proof.KB.R0Defs
import proofs.«421913_j33337536151789_3_alg».proof.Proof.KB.R0Run
import proofs.«421913_j33337536151789_3_alg».proof.Proof.KB.R0Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ms0_0 (t : Fin cfg0.N) : Memref sig .tc .vmem S1024x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)

abbrev rest0 (c : Dev nD) : sProp 𝕄 := Pipeline.scopedRestBut (Ix := Unit) (Name := ℕ) (U := UR sig nD τ) (Lvl := ℕ) (Val := Elt F) spec0 c [cc0_scratch0, cc0_scratch1]

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem PhiA0_eq (c : Dev nD) :
    (Pipeline.ΦA spec0 c : sProp 𝕄)
      = iprop(iprop(iprop((∃ d, owns (c : Thread nD τ) sc0_0 fullShare d) ∗ (∃ d, owns (c : Thread nD τ) sc0_1 fullShare d))
          ∗ rest0 c) ∗ (∃ r, prngReg c r)) := by
  unfold Pipeline.ΦA; rw [scopedRest0_split]; simp only [sc0_0, sc0_1, owns_whole]; try rfl

theorem Phi0_zero (c : Dev nD) (n : ℕ) (h : n ≤ cfg0.N) (hz : n = 0) : Phi0 V c n h = Pipeline.ΦA spec0 c := by
  subst hz; rfl

theorem Phi0_pos (c : Dev nD) (n : ℕ) (h : n ≤ cfg0.N) (hz : n ≠ 0) :
    Phi0 V c n h = iprop(owns (c : Thread nD τ) sc0_0 fullShare (acc0 V c (n - 1) (by omega)) ∗ owns (c : Thread nD τ) sc0_1 fullShare (k0_pay2 : Vec F S1024x2048 .i32)
      ∗ rest0 c
      ∗ (∃ r, prngReg c r)) := by
  cases n with
  | zero => exact absurd rfl hz
  | succ n => rfl

/-- Before any point the scratch buffers are owned at some contents: off a row's start, the sum the point before left and the column table. -/
theorem Phi0_open (c : Dev nD) (t : Fin cfg0.N) :
    (dat0 V c).Φ t.castSucc ⊢ iprop(∃ d0 d1, ⌜¬cond0_0 (grid0.coords t) → d0 = acc0 V c (t.val - 1) (Nat.lt_of_le_of_lt (Nat.sub_le _ _) t.isLt) ∧ d1 = (k0_pay2 : Vec F S1024x2048 .i32)⌝
      ∗ owns (c : Thread nD τ) sc0_0 fullShare d0 ∗ owns (c : Thread nD τ) sc0_1 fullShare d1
      ∗ rest0 c ∗ (∃ r, prngReg c r)) := by
  rw [show (dat0 V c).Φ t.castSucc = Phi0 V c t.val (Nat.le_of_lt t.isLt) from rfl]
  by_cases hz : t.val = 0
  · rw [Phi0_zero V c _ _ hz, PhiA0_eq]
    iintro ⟨⟨⟨⟨%d0, HS0⟩, ⟨%d1, HS1⟩⟩, HR⟩, Hg⟩
    iexists d0, d1
    iframe HS0 HS1 HR Hg
    ipureintro; exact fun h => absurd ((hcond0_0 t).mpr (by rw [hz])) h
  · rw [Phi0_pos V c _ _ hz]
    iintro ⟨HS0, HS1, HR, Hg⟩
    iexists acc0 V c (t.val - 1) (Nat.lt_of_le_of_lt (Nat.sub_le _ _) t.isLt), k0_pay2
    iframe HS0 HS1 HR Hg
    ipureintro; exact fun _ => ⟨rfl, rfl⟩

/-- The kernel's new sum and table, from what the invariant handed it, are this point's. -/
theorem acc0_step (c : Dev nD) (t : Fin cfg0.N) (d0 : Vec F S1024x128 .f32) (d1 : Vec F S1024x2048 .i32)
    (hd : ¬cond0_0 (grid0.coords t) → d0 = acc0 V c (t.val - 1) (Nat.lt_of_le_of_lt (Nat.sub_le _ _) t.isLt) ∧ d1 = k0_pay2) :
    (if cond0_0 (grid0.coords t) then k0_pay2 else d1) = k0_pay2
      ∧ k0_sum (grid0.coords t) (iblk0 V c 0 t) d1 d0 (iblk0 V c 1 t) = acc0 V c t.val t.isLt := by
  unfold k0_sum
  by_cases hc : cond0_0 (grid0.coords t)
  · simp only [if_pos hc]; exact ⟨trivial, (acc0_first V c t ((hcond0_0 t).mp hc)).symm⟩
  · obtain ⟨rfl, rfl⟩ := hd hc
    simp only [if_neg hc]; exact ⟨trivial, (acc0_next V c t fun h => hc ((hcond0_0 t).mpr h)).symm⟩

/-- The output block's buffer as the kernel leaves it is what the window is owed, stored to or not. -/
theorem leaves0_2 (c : Dev nD) (t : Fin cfg0.N) (d) :
    owns (c : Thread nD τ) (ms0_2 t) fullShare (if cond0_1 (grid0.coords t) then k0_pay4 (acc0 V c t.val t.isLt) else (dat0 V c).before 2 t d)
      ⊢ (dat0 V c).leavesExact 2 t := by
  by_cases hc : cond0_1 (grid0.coords t)
  · rw [if_pos hc]; unfold Dat.leavesExact; rw [live0_2_of _ hc, after0_2]
  · rw [if_neg hc, Dat.leavesExact_idle (dat0 V c) 2 t (idle0_2_of _ hc) (noFlush0_2 t fun h => hc ((hcond0_1 t).mpr h))]
    iintro H; iexists _; iexact H

theorem body_obligation0 (c : Dev nD) : BodyObligation (dat0 (F := F) V c) (defs₀ (F := F)) Variants.none () Set.univ := fun t => by
  rw [bigSep_W0, bigSep_W0]
  simp only [before0_0 V, before0_1 V]
  rw [show (dat0 V c).owesAt () t.succ = (dat0 V c).owesAt () t.castSucc from rfl,
    show (dat0 V c).Φ t.succ = iprop(owns (c : Thread nD τ) sc0_0 fullShare (acc0 V c t.val t.isLt) ∗ owns (c : Thread nD τ) sc0_1 fullShare (k0_pay2 : Vec F S1024x2048 .i32)
      ∗ rest0 c ∗ (∃ r, prngReg c r)) from rfl,
    after0_0 V c t, after0_1 V c t]
  iintro ⟨HP, Ho, ⟨%e0, H0⟩, ⟨%e1, H1⟩, ⟨%e2, H2⟩⟩
  icases Phi0_open V c t $$ HP with ⟨%d0, %d1, %hd, HS0, HS1, HR, Hg⟩
  obtain ⟨hT, hN⟩ := acc0_step V c t d0 d1 hd
  iapply (kernel0 c (grid0.coords t) (ms0_0 t) (hs0_0 t) (ms0_1 t) (hs0_1 t) (ms0_2 t) (hs0_2 t) sc0_0 (Memref.isWhole_whole _) sc0_1 (Memref.isWhole_whole _)
    (fun h0 h1 => by have := (hcond0_0 t).mp h0; have := (hcond0_1 t).mp h1; omega) (iblk0 V c 0 t) (iblk0 V c 1 t) ((dat0 V c).before 2 t e2) d0 d1 Set.univ _)
  rw [hT, hN]
  iframe H0 H1 H2 HS0 HS1
  iintro ⟨H0, H1, H2, HS0, HS1⟩
  iframe H0 H1 HS0 HS1 HR Hg Ho
  iapply leaves0_2 V c t e2
  iexact H2

theorem hin0 (c : Dev nD) : Pipeline.ΦA spec0 c ⊢ (dat0 V c).Φ 0 := by
  rw [show (dat0 V c).Φ 0 = Pipeline.ΦA spec0 c from rfl]

theorem hout0 (c : Dev nD) : (dat0 V c).Φ (Fin.last cfg0.N) ⊢ Pipeline.ΦA spec0 c := by
  rw [show (dat0 V c).Φ (Fin.last cfg0.N) = Phi0 V c cfg0.N (Nat.le_refl _) from rfl, Phi0_pos V c _ _ (by have : cfg0.N = 14650 := N_0; omega), PhiA0_eq]
  iintro ⟨HS0, HS1, HR, Hg⟩
  iframe HR Hg
  isplitl [HS0]
  · iexists _; iexact HS0
  iexists _; iexact HS1

end Cert.Kernel.Hand

end
-- ==== Proof.KB.R1Run.lean ====
import proofs.«421913_j33337536151789_3_alg».proof.Proof.Gen.Kernel.Launch
import proofs.«421913_j33337536151789_3_alg».proof.Proof.Gen.Kernel.Skeleton
import proofs.«421913_j33337536151789_3_alg».proof.Proof.KB.R0Run
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

set_option maxHeartbeats 4000000 in
/-- The body on whole memrefs at known contents: a row's first tile resets the sum and writes the row-index table, every tile adds its product to the sum, a row's last tile copies the sum out. -/
theorem run1 (c : Dev nD) (i : grid1.Coords)
    (arg2 : Memref sig .tc .vmem S1x1024 .i32) (harg2 : arg2.IsWhole)
    (arg3 : Memref sig .tc .vmem S1024x128 .bf16) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S2048x1024 .i32) (harg6 : arg6.IsWhole)
    (hne : cond1_0 i → ¬cond1_1 i)
    (x0 : Vec F S1x1024 .i32) (x1 : Vec F S1024x128 .bf16) (xi xs0 : Vec F S2048x128 .f32)
    (xs1 : Vec F S2048x1024 .i32) (E : Set ℕ) (K : PUnit → sProp 𝕄) :
    iprop(owns (c : Thread nD τ) arg2 fullShare x0 ∗ owns (c : Thread nD τ) arg3 fullShare x1
        ∗ owns (c : Thread nD τ) arg4 fullShare xi
        ∗ owns (c : Thread nD τ) arg5 fullShare xs0 ∗ owns (c : Thread nD τ) arg6 fullShare xs1
        ∗ (iprop(owns (c : Thread nD τ) arg2 fullShare x0 ∗ owns (c : Thread nD τ) arg3 fullShare x1
            ∗ owns (c : Thread nD τ) arg4 fullShare (if cond1_1 i then k1_pay3 i x0 (if cond1_0 i then k1_pay2 else xs1) (if cond1_0 i then k1_pay1 else xs0) x1 else xi)
            ∗ owns (c : Thread nD τ) arg5 fullShare (k1_pay3 i x0 (if cond1_0 i then k1_pay2 else xs1) (if cond1_0 i then k1_pay1 else xs0) x1)
            ∗ owns (c : Thread nD τ) arg6 fullShare (if cond1_0 i then k1_pay2 else xs1)) -∗ K ⟨⟩))
      ⊢ wp frame (wpE (defs₀ (F := F)) Variants.none c none) E
          (cc1__scatter_kernel i arg2 harg2 arg3 harg3 arg4 harg4 arg5 harg5 arg6 harg6) K := by
  by_cases hc0 : cond1_0 i <;> by_cases hc1 : cond1_1 i
  · exact absurd hc1 (hne hc0)
  all_goals
    first | rw [if_pos hc0, if_pos hc0] | rw [if_neg hc0, if_neg hc0]
    first | rw [if_pos hc1] | rw [if_neg hc1]
    rw [cc1__scatter_kernel_eq_skeleton]; unfold cc1__scatter_kernel_skel
    unfold owns
    iintro ⟨⟨%f0, %hf0, H0⟩, ⟨%f1, %hf1, H1⟩, ⟨%f2, %hf2, H2⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf5; obtain rfl := harg6.eq_unread hf6
    sl_exec (disch := first | exact hc0 | exact hc1)
    sl_step
    iapply Hk
    isplitl [H0]; rotate_left; isplitl [H1]; rotate_left; isplitl [H2]; rotate_left; isplitl [H5]; rotate_left
    all_goals
      iexists _; isplitr; swap; · first | iexact H0 | iexact H1 | iexact H2 | iexact H5 | iexact H6
      ipureintro; sl_unfold_words
      simp only [r0_read_writes_cons_whole (Val := Elt F) (S := S2048x128) _ _ r0_hz, r0_read_writes_cons_whole (Val := Elt F) (S := S2048x1024) _ _ r0_hz,
        View.readAt_eq_ld, harg2.read_unread, harg3.read_unread, harg4.read_unread, harg5.read_unread, harg6.read_unread,
        View.ld_unit_zero (S := S1x1024) r0_hz, View.ld_unit_zero (S := S1024x128) r0_hz,
        View.ld_unit_zero (S := S2048x128) r0_hz, View.ld_unit_zero (S := S2048x1024) r0_hz,
        View.readCov_unit_zero (S := S2048x128) _ r0_hz, View.readCov_unit_zero (S := S2048x1024) _ r0_hz]

end Cert.Kernel.Hand

end
-- ==== Proof.KB.R1Body.lean ====
import proofs.«421913_j33337536151789_3_alg».proof.Proof.KB.R1Defs
import proofs.«421913_j33337536151789_3_alg».proof.Proof.KB.R1Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hcond1_0 : ∀ t : Fin cfg1.N, cond1_0 (grid1.coords t) ↔ t.val % 586 = 0 :=
  (by decide +kernel : ∀ t : Fin grid1.N, cond1_0 (grid1.coords t) ↔ t.val % 586 = 0)
theorem hcond1_1 : ∀ t : Fin cfg1.N, cond1_1 (grid1.coords t) ↔ t.val % 586 = 585 :=
  (by decide +kernel : ∀ t : Fin grid1.N, cond1_1 (grid1.coords t) ↔ t.val % 586 = 585)

theorem liveAt1_0 (t : Fin cfg1.N) : cfg1.idle 0 (grid1.coords t) = false := rfl
theorem liveAt1_1 (t : Fin cfg1.N) : cfg1.idle 1 (grid1.coords t) = false := rfl
theorem idleAt1_2 (t : Fin cfg1.N) (h : ¬cond1_1 (grid1.coords t)) : cfg1.idle 2 (grid1.coords t) = true := by
  show (!(k1_cond2 (grid1.coords t) == 1#1)) = true
  rw [Bool.not_eq_true', beq_eq_false_iff_ne]; exact h
theorem liveAt1_2 (t : Fin cfg1.N) (h : cond1_1 (grid1.coords t)) : cfg1.idle 2 (grid1.coords t) = false := by
  show (!(k1_cond2 (grid1.coords t) == 1#1)) = false
  rw [Bool.not_eq_false', beq_iff_eq]; exact h
theorem noFlush1_2 (t : Fin cfg1.N) (h : ¬t.val % 586 = 585) : (cfg1.win 2).flush t = false :=
  Bool.eq_false_iff.mpr fun hf => h ((flush1_2 t).mp hf)

abbrev ms1_0 (t : Fin cfg1.N) : Memref sig .tc .vmem S1x1024 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x128 .f32 := win1_2.stage (cfg1.slots t 2)
abbrev hs1_2 (t : Fin cfg1.N) : (ms1_2 t).IsWhole := hstage1_2 ((cfg1.slots t 2).cast nbuf1_2)

theorem PhiA1_eq (c : Dev nD) :
    (Pipeline.ΦA spec1 c : sProp 𝕄)
      = iprop(iprop(iprop((∃ d, owns (c : Thread nD τ) sc1_0 fullShare d) ∗ (∃ d, owns (c : Thread nD τ) sc1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [sc1_0, sc1_1, owns_whole]; try rfl

theorem Phi1_zero (c : Dev nD) (n : ℕ) (h : n ≤ cfg1.N) (hz : n = 0) : Phi1 V c n h = Pipeline.ΦA spec1 c := by
  subst hz; rfl

theorem Phi1_pos (c : Dev nD) (n : ℕ) (h : n ≤ cfg1.N) (hz : n ≠ 0) :
    Phi1 V c n h = iprop(owns (c : Thread nD τ) sc1_0 fullShare (acc1 V c (n - 1) (by omega)) ∗ owns (c : Thread nD τ) sc1_1 fullShare (k1_pay2 : Vec F S2048x1024 .i32)
      ∗ Pipeline.scopedRestBut (Ix := Unit) (Name := ℕ) (U := UR sig nD τ) (Lvl := ℕ) (Val := Elt F) spec1 c [cc1_scratch0, cc1_scratch1]
      ∗ (∃ r, prngReg c r)) := by
  cases n with
  | zero => exact absurd rfl hz
  | succ n => rfl

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- At every position the invariant entails the entry condition: what the scratch buffers hold is forgotten. -/
theorem Phi1_out (c : Dev nD) (t : Fin (cfg1.N + 1)) : (dat1 V c).Φ t ⊢ Pipeline.ΦA spec1 c := by
  rw [show (dat1 V c).Φ t = Phi1 V c t.val (Nat.le_of_lt_succ t.isLt) from rfl]
  by_cases ht : t.val = 0
  · rw [Phi1_zero V c _ _ ht]
  · rw [Phi1_pos V c _ _ ht, PhiA1_eq]
    iintro ⟨HS0, HS1, Hr, Hg⟩
    iframe Hr Hg
    isplitl [HS0] <;> (iexists _; iassumption)

/-- Before any point the scratch buffers are held at contents from which the body computes the point's running sum and the row-index table: any at all at a row's first tile, what the point before left elsewhere. -/
theorem Phi1_open (c : Dev nD) (t : Fin cfg1.N) :
    (dat1 V c).Φ t.castSucc ⊢ iprop(∃ xs0 xs1,
      ⌜k1_pay3 (grid1.coords t) (iblk1 V c 0 t) (if cond1_0 (grid1.coords t) then k1_pay2 else xs1)
          (if cond1_0 (grid1.coords t) then k1_pay1 else xs0) (iblk1 V c 1 t) = acc1 V c t.val t.isLt
        ∧ (if cond1_0 (grid1.coords t) then k1_pay2 else xs1) = k1_pay2⌝
      ∗ owns (c : Thread nD τ) sc1_0 fullShare xs0 ∗ owns (c : Thread nD τ) sc1_1 fullShare xs1
      ∗ Pipeline.scopedRestBut (Ix := Unit) (Name := ℕ) (U := UR sig nD τ) (Lvl := ℕ) (Val := Elt F) spec1 c [cc1_scratch0, cc1_scratch1]
      ∗ (∃ r, prngReg c r)) := by
  by_cases h0 : t.val % 586 = 0
  · have hc := (hcond1_0 t).mpr h0
    refine (Phi1_out V c t.castSucc).trans ?_; rw [PhiA1_eq]
    iintro ⟨⟨⟨⟨%xs0, HS0⟩, ⟨%xs1, HS1⟩⟩, Hr⟩, Hg⟩
    iexists xs0, xs1; iframe HS0 HS1 Hr Hg; ipureintro
    rw [if_pos hc, if_pos hc, acc1_first V c t h0]; exact ⟨rfl, rfl⟩
  · have hc : ¬cond1_0 (grid1.coords t) := fun h => h0 ((hcond1_0 t).mp h)
    rw [show (dat1 V c).Φ t.castSucc = Phi1 V c t.val (Nat.le_of_lt t.isLt) from rfl, Phi1_pos V c _ _ fun e => h0 (by rw [e])]
    iintro ⟨HS0, HS1, Hr, Hg⟩
    iexists acc1 V c (t.val - 1) (Nat.lt_of_le_of_lt (Nat.sub_le _ _) t.isLt), k1_pay2; iframe HS0 HS1 Hr Hg; ipureintro
    rw [if_neg hc, if_neg hc, acc1_next V c t h0]; exact ⟨rfl, rfl⟩

/-- The output block's buffer as the body leaves it: at the finished sum at a row's last tile, as found elsewhere. -/
theorem leaves1_2 (c : Dev nD) (t : Fin cfg1.N) (d) :
    owns (c : Thread nD τ) (ms1_2 t) fullShare (if cond1_1 (grid1.coords t) then acc1 V c t.val t.isLt else (dat1 V c).before 2 t d)
      ⊢ (dat1 V c).leavesExact 2 t := by
  by_cases h1 : cond1_1 (grid1.coords t)
  · rw [if_pos h1, show (dat1 V c).leavesExact 2 t = owns (c : Thread nD τ) (ms1_2 t) fullShare ((dat1 V c).after 2 t) from by
      unfold Dat.leavesExact; rw [liveAt1_2 t h1], after1_2]
  · rw [if_neg h1, Dat.leavesExact_idle (dat1 V c) 2 t (idleAt1_2 t h1) (noFlush1_2 t fun h => h1 ((hcond1_1 t).mpr h))]
    iintro H; iexists _; iexact H

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the invariant opened, the kernel's triple applied once, and its result read back as the point's running sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = iprop(owns (c : Thread nD τ) sc1_0 fullShare (acc1 V c t.val t.isLt) ∗ owns (c : Thread nD τ) sc1_1 fullShare (k1_pay2 : Vec F S2048x1024 .i32)
      ∗ Pipeline.scopedRestBut (Ix := Unit) (Name := ℕ) (U := UR sig nD τ) (Lvl := ℕ) (Val := Elt F) spec1 c [cc1_scratch0, cc1_scratch1]
      ∗ (∃ r, prngReg c r)) from rfl,
    show (dat1 V c).leavesExact 0 t = owns (c : Thread nD τ) (ms1_0 t) fullShare ((dat1 V c).after 0 t) from by
      unfold Dat.leavesExact; rw [liveAt1_0 t], after1_0,
    show (dat1 V c).leavesExact 1 t = owns (c : Thread nD τ) (ms1_1 t) fullShare ((dat1 V c).after 1 t) from by
      unfold Dat.leavesExact; rw [liveAt1_1 t], after1_1]
  refine (sep_mono_left (Phi1_open V c t)).trans ?_
  iintro ⟨⟨%xs0, %xs1, %hx, HS0, HS1, Hr, Hg⟩, Ho, ⟨%d0, H0⟩, ⟨%d1, H1⟩, ⟨%d2, H2⟩⟩
  iapply (run1 c (grid1.coords t) _ (hs1_0 t) _ (hs1_1 t) _ (hs1_2 t) _ (Memref.isWhole_whole _) _ (Memref.isWhole_whole _)
    (fun a b => by have := (hcond1_0 t).mp a; have := (hcond1_1 t).mp b; omega)
    (iblk1 V c 0 t) (iblk1 V c 1 t) ((dat1 V c).before 2 t d2) xs0 xs1 Set.univ _)
  iframe H0 H1 H2 HS0 HS1
  iintro ⟨H0, H1, H2, HS0, HS1⟩
  rw [hx.1, hx.2]
  iframe H0 H1 HS0 HS1 Hr Hg Ho
  iapply leaves1_2 V c t d2; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = Phi1 V c 0 (Nat.zero_le _) from rfl, Phi1_zero V c 0 _ rfl]

theorem hout1 (c : Dev nD) : (dat1 V c).Φ (Fin.last cfg1.N) ⊢ Pipeline.ΦA spec1 c := Phi1_out V c _

end Cert.Kernel.Hand

end
-- ==== Proof.KB.R2Body.lean ====
import proofs.«421913_j33337536151789_3_alg».proof.Proof.KB.R2Defs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

theorem before2_4 (c : Dev nD) (t : Fin cfg2.N) (d) : (dat2 V c).before 4 t d = iblk2 V c 4 t :=
  ((dat2 V c).before_in_eq_fetched 4 rfl (fun _ => rfl) (fun _ _ _ => rfl)
      (fun t => by rw [after2_4]; unfold Dat.blockOf iblk2; rw [A_eq2]; try rfl) t d).trans
    (by unfold Dat.fetched Dat.blockOf iblk2; rw [A_eq2]; try rfl)

theorem before2_5 (c : Dev nD) (t : Fin cfg2.N) (d) : (dat2 V c).before 5 t d = iblk2 V c 5 t :=
  ((dat2 V c).before_in_eq_fetched 5 rfl (fun _ => rfl) (fun _ _ _ => rfl)
      (fun t => by rw [after2_5]; unfold Dat.blockOf iblk2; rw [A_eq2]; try rfl) t d).trans
    (by unfold Dat.fetched Dat.blockOf iblk2; rw [A_eq2]; try rfl)

theorem hz2 : (![0, 0] : Fin 2 → Nat) = fun _ => 0 := funext fun a => by fin_cases a <;> rfl

set_option maxHeartbeats 1000000 in

theorem sound_kernel2 (c : Dev nD) (E : Set ℕ) (i : grid2.Coords)
    (arg1 : Memref sig .tc .vmem S2048x128 .f32) (harg1 : arg1.IsWhole)
    (arg2 : Memref sig .tc .vmem S2048x128 .bf16) (harg2 : arg2.IsWhole)
    (arg3 : Memref sig .tc .vmem S2048x1 .f32) (harg3 : arg3.IsWhole)
    (arg4 : Memref sig .tc .vmem S128x64 .bf16) (harg4 : arg4.IsWhole)
    (arg5 : Memref sig .tc .vmem S1x64 .f32) (harg5 : arg5.IsWhole)
    (arg6 : Memref sig .tc .vmem S128x64 .bf16) (harg6 : arg6.IsWhole)
    (arg7 : Memref sig .tc .vmem S2048x64 .bf16) (harg7 : arg7.IsWhole)
    (x1 : Vec F S2048x128 .f32) (x2 : Vec F S2048x128 .bf16) (x3 : Vec F S2048x1 .f32)
    (x4 : Vec F S128x64 .bf16) (x5 : Vec F S1x64 .f32) (x6 : Vec F S128x64 .bf16)
    (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ (∃ d, owns (c : Thread nD τ) arg7 fullShare d)
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare (k2_pay1 i x1 x3 x4 x5 x2 x6)) -∗ K ⟨⟩))
      ⊢ wp frame (wpE (defs₀ (F := F)) Variants.none c none) E
          (cc2__combine_kernel i arg1 harg1 arg2 harg2 arg3 harg3 arg4 harg4 arg5 harg5 arg6 harg6 arg7 harg7) K := by
  simp only [cc2__combine_kernel_eq_skeleton]; unfold cc2__combine_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (fun y => ⟨_, List.mem_singleton_self _, View.mem_set_unit_zero hz2 inb_S2048x64_S2048x64_0_0 y⟩),
    View.canon_unit_zero hz2]
  simp only [View.readAt_eq_ld, View.ld_unit_zero (S := S2048x128) hz2, View.ld_unit_zero (S := S2048x1) hz2,
    View.ld_unit_zero (S := S128x64) hz2, View.ld_unit_zero (S := S1x64) hz2]

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  unfold out2
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _
    (iblk2 V c 0 t) (iblk2 V c 1 t) (iblk2 V c 2 t) (iblk2 V c 3 t) (iblk2 V c 4 t) (iblk2 V c 5 t) _)
  iframe H0 H1 H2 H3 H4 H5
  isplitl [H6]; · iexists _; iexact H6
  iintro ⟨H0, H1, H2, H3, H4, H5, H6⟩
  iframe HΦ Ho H0 H1 H2 H3 H4 H5
  iexact H6

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := BI.Entails.refl _

theorem hout2 (c : Dev nD) : (dat2 V c).Φ (Fin.last cfg2.N) ⊢ Pipeline.ΦA spec2 c := BI.Entails.refl _

end Cert.Kernel.Hand

end
-- ==== Proof.KB.R3Conds.lean ====
import proofs.«421913_j33337536151789_3_alg».proof.Proof.Gen.Kernel.Points

noncomputable section

namespace Cert.Kernel.Hand

open Idealize.ShloMosaic Idealize.ShloMosaic.TcCoe
open Idealize.SL Idealize.SL.Sem
open Cert.Kernel Cert.Kernel.Gen

abbrev cond3_0 (i : grid3.Coords) : Prop := (Scalar.cmpi .ne (Scalar.extui (Scalar.cmpi .eq (BitVec.ofNat 32 (i 1).val) 0#32)) 0#32) = 1#1

theorem hcond3_0 : ∀ t : Fin cfg3.N, cond3_0 (grid3.coords t) ↔ t.val % 25 = 0 :=
  (by decide +kernel : ∀ t : Fin grid3.N, cond3_0 (grid3.coords t) ↔ t.val % 25 = 0)

abbrev cond3_1 (i : grid3.Coords) : Prop := k3_cond2 i = 1#1

theorem hcond3_1 : ∀ t : Fin cfg3.N, cond3_1 (grid3.coords t) ↔ t.val % 25 = 24 :=
  (by decide +kernel : ∀ t : Fin grid3.N, cond3_1 (grid3.coords t) ↔ t.val % 25 = 24)

theorem idle3_2_of (i : grid3.Coords) (h : ¬cond3_1 i) : cfg3.idle 2 i = true := by
  show (!(k3_cond2 i == 1#1)) = true
  rw [Bool.not_eq_true', beq_eq_false_iff_ne]; exact h

theorem live3_2_of (i : grid3.Coords) (h : cond3_1 i) : cfg3.idle 2 i = false := by
  show (!(k3_cond2 i == 1#1)) = false
  rw [Bool.not_eq_false', beq_iff_eq]; exact h

theorem noFlush3_2 (t : Fin cfg3.N) (h : ¬t.val % 25 = 24) : (cfg3.win 2).flush t = false :=
  Bool.eq_false_iff.mpr fun hf => h ((flush3_2 t).mp hf)

end Cert.Kernel.Hand

end
-- ==== Proof.KB.R3Run.lean ====
import proofs.«421913_j33337536151789_3_alg».proof.Proof.Gen.Kernel.Launch
import proofs.«421913_j33337536151789_3_alg».proof.Proof.Gen.Kernel.Skeleton
import proofs.«421913_j33337536151789_3_alg».proof.Proof.KB.R3Conds
import proofs.«421913_j33337536151789_3_alg».proof.Proof.KB.R0Run
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The running sum a tile leaves: its product added to zero over the fresh column table where a row starts, to the sum found over the table found elsewhere. -/
def k3_sum (i : grid3.Coords) (x0 : Vec F S1024x1 .i32) (xs1 : Vec F S1024x2048 .i32) (xs0 : Vec F S1024x64 .f32) (x1 : Vec F S2048x64 .bf16) : Vec F S1024x64 .f32 :=
  k3_pay3 i x0 (if cond3_0 i then k3_pay2 else xs1) (if cond3_0 i then k3_pay1 else xs0) x1

set_option maxHeartbeats 1000000 in
/-- The body on whole buffers at known contents, at any coordinates where a row's first tile is not its last. -/
theorem kernel3 (c : Dev nD) (i : grid3.Coords) (arg2 : Memref sig .tc .vmem S1024x1 .i32) (harg2 : arg2.IsWhole) (arg3 : Memref sig .tc .vmem S2048x64 .bf16) (harg3 : arg3.IsWhole) (arg4 : Memref sig .tc .vmem S1024x64 .bf16) (harg4 : arg4.IsWhole) (arg5 : Memref sig .tc .vmem S1024x64 .f32) (harg5 : arg5.IsWhole) (arg6 : Memref sig .tc .vmem S1024x2048 .i32) (harg6 : arg6.IsWhole)
    (hx : cond3_0 i → ¬cond3_1 i)
    (x0 : Vec F S1024x1 .i32) (x1 : Vec F S2048x64 .bf16) (xi : Vec F S1024x64 .bf16) (xs0 : Vec F S1024x64 .f32) (xs1 : Vec F S1024x2048 .i32) (E : Set ℕ) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare xs0 ∗ owns (c : Thread nD τ) arg6 fullShare xs1
        ∗ (iprop(owns (c : Thread nD τ) arg2 fullShare x0 ∗ owns (c : Thread nD τ) arg3 fullShare x1
            ∗ owns (c : Thread nD τ) arg4 fullShare (if cond3_1 i then k3_pay4 (k3_sum i x0 xs1 xs0 x1) else xi)
            ∗ owns (c : Thread nD τ) arg5 fullShare (k3_sum i x0 xs1 xs0 x1) ∗ owns (c : Thread nD τ) arg6 fullShare (if cond3_0 i then k3_pay2 else xs1)) -∗ K ⟨⟩))
      ⊢ wp frame (wpE (defs₀ (F := F)) Variants.none c none) E (cc3__gather_kernel i arg2 harg2 arg3 harg3 arg4 harg4 arg5 harg5 arg6 harg6) K := by
  by_cases hc0 : cond3_0 i <;> by_cases hc1 : cond3_1 i
  · exact absurd hc1 (hx hc0)
  all_goals
    first | simp only [k3_sum, if_neg hc0] | simp only [k3_sum, if_pos hc0]
    first | simp only [if_neg hc1] | simp only [if_pos hc1]
    simp only [cc3__gather_kernel_eq_skeleton]; unfold cc3__gather_kernel_skel owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]; rotate_left; isplitl [H1]; rotate_left; isplitl [H2]; rotate_left; isplitl [H3]; rotate_left
    all_goals (iexists _; isplitr; swap; · first | iexact H0 | iexact H1 | iexact H2 | iexact H3 | iexact H4)
    all_goals
      ipureintro; sl_unfold_words
      simp only [r0_read_writes_cons_whole (Val := Elt F) (S := S1024x64) _ _ r0_hz, r0_read_writes_cons_whole (Val := Elt F) (S := S1024x2048) _ _ r0_hz,
        Memref.IsWhole.read_unread, r0_readAt_whole harg2 r0_hz, r0_readAt_whole harg3 r0_hz, r0_readAt_whole harg5 r0_hz,
        r0_readAt_whole harg6 r0_hz, View.readCov_unit_zero (S := S1024x64) _ r0_hz, View.readCov_unit_zero (S := S1024x2048) _ r0_hz]

end Cert.Kernel.Hand

end
-- ==== Proof.KB.R3Body.lean ====
import proofs.«421913_j33337536151789_3_alg».proof.Proof.KB.R3Defs
import proofs.«421913_j33337536151789_3_alg».proof.Proof.KB.R3Run
import proofs.«421913_j33337536151789_3_alg».proof.Proof.KB.R3Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ms3_0 (t : Fin cfg3.N) : Memref sig .tc .vmem S1024x1 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x64 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x64 .bf16 := win3_2.stage (cfg3.slots t 2)
abbrev hs3_2 (t : Fin cfg3.N) : (ms3_2 t).IsWhole := hstage3_2 ((cfg3.slots t 2).cast nbuf3_2)

abbrev rest3 (c : Dev nD) : sProp 𝕄 := Pipeline.scopedRestBut (Ix := Unit) (Name := ℕ) (U := UR sig nD τ) (Lvl := ℕ) (Val := Elt F) spec3 c [cc3_scratch0, cc3_scratch1]

theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

theorem PhiA3_eq (c : Dev nD) :
    (Pipeline.ΦA spec3 c : sProp 𝕄)
      = iprop(iprop(iprop((∃ d, owns (c : Thread nD τ) sc3_0 fullShare d) ∗ (∃ d, owns (c : Thread nD τ) sc3_1 fullShare d))
          ∗ rest3 c) ∗ (∃ r, prngReg c r)) := by
  unfold Pipeline.ΦA; rw [scopedRest3_split]; simp only [sc3_0, sc3_1, owns_whole]; try rfl

theorem Phi3_zero (c : Dev nD) (n : ℕ) (h : n ≤ cfg3.N) (hz : n = 0) : Phi3 V c n h = Pipeline.ΦA spec3 c := by
  subst hz; rfl

theorem Phi3_pos (c : Dev nD) (n : ℕ) (h : n ≤ cfg3.N) (hz : n ≠ 0) :
    Phi3 V c n h = iprop(owns (c : Thread nD τ) sc3_0 fullShare (acc3 V c (n - 1) (by omega)) ∗ owns (c : Thread nD τ) sc3_1 fullShare (k3_pay2 : Vec F S1024x2048 .i32)
      ∗ rest3 c
      ∗ (∃ r, prngReg c r)) := by
  cases n with
  | zero => exact absurd rfl hz
  | succ n => rfl

/-- Before any point the scratch buffers are owned at some contents: off a row's start, the sum the point before left and the column table. -/
theorem Phi3_open (c : Dev nD) (t : Fin cfg3.N) :
    (dat3 V c).Φ t.castSucc ⊢ iprop(∃ d0 d1, ⌜¬cond3_0 (grid3.coords t) → d0 = acc3 V c (t.val - 1) (Nat.lt_of_le_of_lt (Nat.sub_le _ _) t.isLt) ∧ d1 = (k3_pay2 : Vec F S1024x2048 .i32)⌝
      ∗ owns (c : Thread nD τ) sc3_0 fullShare d0 ∗ owns (c : Thread nD τ) sc3_1 fullShare d1
      ∗ rest3 c ∗ (∃ r, prngReg c r)) := by
  rw [show (dat3 V c).Φ t.castSucc = Phi3 V c t.val (Nat.le_of_lt t.isLt) from rfl]
  by_cases hz : t.val = 0
  · rw [Phi3_zero V c _ _ hz, PhiA3_eq]
    iintro ⟨⟨⟨⟨%d0, HS0⟩, ⟨%d1, HS1⟩⟩, HR⟩, Hg⟩
    iexists d0, d1
    iframe HS0 HS1 HR Hg
    ipureintro; exact fun h => absurd ((hcond3_0 t).mpr (by rw [hz])) h
  · rw [Phi3_pos V c _ _ hz]
    iintro ⟨HS0, HS1, HR, Hg⟩
    iexists acc3 V c (t.val - 1) (Nat.lt_of_le_of_lt (Nat.sub_le _ _) t.isLt), k3_pay2
    iframe HS0 HS1 HR Hg
    ipureintro; exact fun _ => ⟨rfl, rfl⟩

/-- The kernel's new sum and table, from what the invariant handed it, are this point's. -/
theorem acc3_step (c : Dev nD) (t : Fin cfg3.N) (d0 : Vec F S1024x64 .f32) (d1 : Vec F S1024x2048 .i32)
    (hd : ¬cond3_0 (grid3.coords t) → d0 = acc3 V c (t.val - 1) (Nat.lt_of_le_of_lt (Nat.sub_le _ _) t.isLt) ∧ d1 = k3_pay2) :
    (if cond3_0 (grid3.coords t) then k3_pay2 else d1) = k3_pay2
      ∧ k3_sum (grid3.coords t) (iblk3 V c 0 t) d1 d0 (iblk3 V c 1 t) = acc3 V c t.val t.isLt := by
  unfold k3_sum
  by_cases hc : cond3_0 (grid3.coords t)
  · simp only [if_pos hc]; exact ⟨trivial, (acc3_first V c t ((hcond3_0 t).mp hc)).symm⟩
  · obtain ⟨rfl, rfl⟩ := hd hc
    simp only [if_neg hc]; exact ⟨trivial, (acc3_next V c t fun h => hc ((hcond3_0 t).mpr h)).symm⟩

/-- The output block's buffer as the kernel leaves it is what the window is owed, stored to or not. -/
theorem leaves3_2 (c : Dev nD) (t : Fin cfg3.N) (d) :
    owns (c : Thread nD τ) (ms3_2 t) fullShare (if cond3_1 (grid3.coords t) then k3_pay4 (acc3 V c t.val t.isLt) else (dat3 V c).before 2 t d)
      ⊢ (dat3 V c).leavesExact 2 t := by
  by_cases hc : cond3_1 (grid3.coords t)
  · rw [if_pos hc]; unfold Dat.leavesExact; rw [live3_2_of _ hc, after3_2]
  · rw [if_neg hc, Dat.leavesExact_idle (dat3 V c) 2 t (idle3_2_of _ hc) (noFlush3_2 t fun h => hc ((hcond3_1 t).mpr h))]
    iintro H; iexists _; iexact H

theorem body_obligation3 (c : Dev nD) : BodyObligation (dat3 (F := F) V c) (defs₀ (F := F)) Variants.none () Set.univ := fun t => by
  rw [bigSep_W3, bigSep_W3]
  simp only [before3_0 V, before3_1 V]
  rw [show (dat3 V c).owesAt () t.succ = (dat3 V c).owesAt () t.castSucc from rfl,
    show (dat3 V c).Φ t.succ = iprop(owns (c : Thread nD τ) sc3_0 fullShare (acc3 V c t.val t.isLt) ∗ owns (c : Thread nD τ) sc3_1 fullShare (k3_pay2 : Vec F S1024x2048 .i32)
      ∗ rest3 c ∗ (∃ r, prngReg c r)) from rfl,
    after3_0 V c t, after3_1 V c t]
  iintro ⟨HP, Ho, ⟨%e0, H0⟩, ⟨%e1, H1⟩, ⟨%e2, H2⟩⟩
  icases Phi3_open V c t $$ HP with ⟨%d0, %d1, %hd, HS0, HS1, HR, Hg⟩
  obtain ⟨hT, hN⟩ := acc3_step V c t d0 d1 hd
  iapply (kernel3 c (grid3.coords t) (ms3_0 t) (hs3_0 t) (ms3_1 t) (hs3_1 t) (ms3_2 t) (hs3_2 t) sc3_0 (Memref.isWhole_whole _) sc3_1 (Memref.isWhole_whole _)
    (fun h0 h1 => by have := (hcond3_0 t).mp h0; have := (hcond3_1 t).mp h1; omega) (iblk3 V c 0 t) (iblk3 V c 1 t) ((dat3 V c).before 2 t e2) d0 d1 Set.univ _)
  rw [hT, hN]
  iframe H0 H1 H2 HS0 HS1
  iintro ⟨H0, H1, H2, HS0, HS1⟩
  iframe H0 H1 HS0 HS1 HR Hg Ho
  iapply leaves3_2 V c t e2
  iexact H2

theorem hin3 (c : Dev nD) : Pipeline.ΦA spec3 c ⊢ (dat3 V c).Φ 0 := by
  rw [show (dat3 V c).Φ 0 = Pipeline.ΦA spec3 c from rfl]

theorem hout3 (c : Dev nD) : (dat3 V c).Φ (Fin.last cfg3.N) ⊢ Pipeline.ΦA spec3 c := by
  rw [show (dat3 V c).Φ (Fin.last cfg3.N) = Phi3 V c cfg3.N (Nat.le_refl _) from rfl, Phi3_pos V c _ _ (by have : cfg3.N = 14650 := N_3; omega), PhiA3_eq]
  iintro ⟨HS0, HS1, HR, Hg⟩
  iframe HR Hg
  isplitl [HS0]
  · iexists _; iexact HS0
  iexists _; iexact HS1

end Cert.Kernel.Hand

end
-- ==== Proof.KB.R4Run.lean ====
import proofs.«421913_j33337536151789_3_alg».proof.Proof.Gen.Kernel.Launch
import proofs.«421913_j33337536151789_3_alg».proof.Proof.Gen.Kernel.Skeleton
import proofs.«421913_j33337536151789_3_alg».proof.Proof.KB.R0Run
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
abbrev cond4_0 (i : grid4.Coords) : Prop := (Scalar.cmpi .ne (Scalar.extui (Scalar.cmpi .eq (BitVec.ofNat 32 (i 1).val) 0#32)) 0#32) = 1#1
abbrev cond4_1 (i : grid4.Coords) : Prop := k4_cond2 i = 1#1

set_option maxHeartbeats 4000000 in
/-- The body on whole memrefs at known contents: a row's first tile resets the sum and writes the row-index table, every tile adds its product to the sum, a row's last tile copies the sum out. -/
theorem run4 (c : Dev nD) (i : grid4.Coords)
    (arg2 : Memref sig .tc .vmem S1x1024 .i32) (harg2 : arg2.IsWhole)
    (arg3 : Memref sig .tc .vmem S1024x64 .bf16) (harg3 : arg3.IsWhole)
    (arg4 : Memref sig .tc .vmem S2048x64 .f32) (harg4 : arg4.IsWhole)
    (arg5 : Memref sig .tc .vmem S2048x64 .f32) (harg5 : arg5.IsWhole)
    (arg6 : Memref sig .tc .vmem S2048x1024 .i32) (harg6 : arg6.IsWhole)
    (hne : cond4_0 i → ¬cond4_1 i)
    (x0 : Vec F S1x1024 .i32) (x1 : Vec F S1024x64 .bf16) (xi xs0 : Vec F S2048x64 .f32)
    (xs1 : Vec F S2048x1024 .i32) (E : Set ℕ) (K : PUnit → sProp 𝕄) :
    iprop(owns (c : Thread nD τ) arg2 fullShare x0 ∗ owns (c : Thread nD τ) arg3 fullShare x1
        ∗ owns (c : Thread nD τ) arg4 fullShare xi
        ∗ owns (c : Thread nD τ) arg5 fullShare xs0 ∗ owns (c : Thread nD τ) arg6 fullShare xs1
        ∗ (iprop(owns (c : Thread nD τ) arg2 fullShare x0 ∗ owns (c : Thread nD τ) arg3 fullShare x1
            ∗ owns (c : Thread nD τ) arg4 fullShare (if cond4_1 i then k4_pay3 i x0 (if cond4_0 i then k4_pay2 else xs1) (if cond4_0 i then k4_pay1 else xs0) x1 else xi)
            ∗ owns (c : Thread nD τ) arg5 fullShare (k4_pay3 i x0 (if cond4_0 i then k4_pay2 else xs1) (if cond4_0 i then k4_pay1 else xs0) x1)
            ∗ owns (c : Thread nD τ) arg6 fullShare (if cond4_0 i then k4_pay2 else xs1)) -∗ K ⟨⟩))
      ⊢ wp frame (wpE (defs₀ (F := F)) Variants.none c none) E
          (cc4__scatter_kernel i arg2 harg2 arg3 harg3 arg4 harg4 arg5 harg5 arg6 harg6) K := by
  by_cases hc0 : cond4_0 i <;> by_cases hc1 : cond4_1 i
  · exact absurd hc1 (hne hc0)
  all_goals
    first | rw [if_pos hc0, if_pos hc0] | rw [if_neg hc0, if_neg hc0]
    first | rw [if_pos hc1] | rw [if_neg hc1]
    rw [cc4__scatter_kernel_eq_skeleton]; unfold cc4__scatter_kernel_skel
    unfold owns
    iintro ⟨⟨%f0, %hf0, H0⟩, ⟨%f1, %hf1, H1⟩, ⟨%f2, %hf2, H2⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf5; obtain rfl := harg6.eq_unread hf6
    sl_exec (disch := first | exact hc0 | exact hc1)
    sl_step
    iapply Hk
    isplitl [H0]; rotate_left; isplitl [H1]; rotate_left; isplitl [H2]; rotate_left; isplitl [H5]; rotate_left
    all_goals
      iexists _; isplitr; swap; · first | iexact H0 | iexact H1 | iexact H2 | iexact H5 | iexact H6
      ipureintro; sl_unfold_words
      simp only [r0_read_writes_cons_whole (Val := Elt F) (S := S2048x64) _ _ r0_hz, r0_read_writes_cons_whole (Val := Elt F) (S := S2048x1024) _ _ r0_hz,
        View.readAt_eq_ld, harg2.read_unread, harg3.read_unread, harg4.read_unread, harg5.read_unread, harg6.read_unread,
        View.ld_unit_zero (S := S1x1024) r0_hz, View.ld_unit_zero (S := S1024x64) r0_hz,
        View.ld_unit_zero (S := S2048x64) r0_hz, View.ld_unit_zero (S := S2048x1024) r0_hz,
        View.readCov_unit_zero (S := S2048x64) _ r0_hz, View.readCov_unit_zero (S := S2048x1024) _ r0_hz]

end Cert.Kernel.Hand

end
-- ==== Proof.KB.R4Body.lean ====
import proofs.«421913_j33337536151789_3_alg».proof.Proof.KB.R4Defs
import proofs.«421913_j33337536151789_3_alg».proof.Proof.KB.R4Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hcond4_0 : ∀ t : Fin cfg4.N, cond4_0 (grid4.coords t) ↔ t.val % 586 = 0 :=
  (by decide +kernel : ∀ t : Fin grid4.N, cond4_0 (grid4.coords t) ↔ t.val % 586 = 0)
theorem hcond4_1 : ∀ t : Fin cfg4.N, cond4_1 (grid4.coords t) ↔ t.val % 586 = 585 :=
  (by decide +kernel : ∀ t : Fin grid4.N, cond4_1 (grid4.coords t) ↔ t.val % 586 = 585)

theorem liveAt4_0 (t : Fin cfg4.N) : cfg4.idle 0 (grid4.coords t) = false := rfl
theorem liveAt4_1 (t : Fin cfg4.N) : cfg4.idle 1 (grid4.coords t) = false := rfl
theorem idleAt4_2 (t : Fin cfg4.N) (h : ¬cond4_1 (grid4.coords t)) : cfg4.idle 2 (grid4.coords t) = true := by
  show (!(k4_cond2 (grid4.coords t) == 1#1)) = true
  rw [Bool.not_eq_true', beq_eq_false_iff_ne]; exact h
theorem liveAt4_2 (t : Fin cfg4.N) (h : cond4_1 (grid4.coords t)) : cfg4.idle 2 (grid4.coords t) = false := by
  show (!(k4_cond2 (grid4.coords t) == 1#1)) = false
  rw [Bool.not_eq_false', beq_iff_eq]; exact h
theorem noFlush4_2 (t : Fin cfg4.N) (h : ¬t.val % 586 = 585) : (cfg4.win 2).flush t = false :=
  Bool.eq_false_iff.mpr fun hf => h ((flush4_2 t).mp hf)

abbrev ms4_0 (t : Fin cfg4.N) : Memref sig .tc .vmem S1x1024 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x64 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x64 .f32 := win4_2.stage (cfg4.slots t 2)
abbrev hs4_2 (t : Fin cfg4.N) : (ms4_2 t).IsWhole := hstage4_2 ((cfg4.slots t 2).cast nbuf4_2)

theorem PhiA4_eq (c : Dev nD) :
    (Pipeline.ΦA spec4 c : sProp 𝕄)
      = iprop(iprop(iprop((∃ d, owns (c : Thread nD τ) sc4_0 fullShare d) ∗ (∃ d, owns (c : Thread nD τ) sc4_1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [sc4_0, sc4_1, owns_whole]; try rfl

theorem Phi4_zero (c : Dev nD) (n : ℕ) (h : n ≤ cfg4.N) (hz : n = 0) : Phi4 V c n h = Pipeline.ΦA spec4 c := by
  subst hz; rfl

theorem Phi4_pos (c : Dev nD) (n : ℕ) (h : n ≤ cfg4.N) (hz : n ≠ 0) :
    Phi4 V c n h = iprop(owns (c : Thread nD τ) sc4_0 fullShare (acc4 V c (n - 1) (by omega)) ∗ owns (c : Thread nD τ) sc4_1 fullShare (k4_pay2 : Vec F S2048x1024 .i32)
      ∗ Pipeline.scopedRestBut (Ix := Unit) (Name := ℕ) (U := UR sig nD τ) (Lvl := ℕ) (Val := Elt F) spec4 c [cc4_scratch0, cc4_scratch1]
      ∗ (∃ r, prngReg c r)) := by
  cases n with
  | zero => exact absurd rfl hz
  | succ n => rfl

theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

/-- At every position the invariant entails the entry condition: what the scratch buffers hold is forgotten. -/
theorem Phi4_out (c : Dev nD) (t : Fin (cfg4.N + 1)) : (dat4 V c).Φ t ⊢ Pipeline.ΦA spec4 c := by
  rw [show (dat4 V c).Φ t = Phi4 V c t.val (Nat.le_of_lt_succ t.isLt) from rfl]
  by_cases ht : t.val = 0
  · rw [Phi4_zero V c _ _ ht]
  · rw [Phi4_pos V c _ _ ht, PhiA4_eq]
    iintro ⟨HS0, HS1, Hr, Hg⟩
    iframe Hr Hg
    isplitl [HS0] <;> (iexists _; iassumption)

/-- Before any point the scratch buffers are held at contents from which the body computes the point's running sum and the row-index table: any at all at a row's first tile, what the point before left elsewhere. -/
theorem Phi4_open (c : Dev nD) (t : Fin cfg4.N) :
    (dat4 V c).Φ t.castSucc ⊢ iprop(∃ xs0 xs1,
      ⌜k4_pay3 (grid4.coords t) (iblk4 V c 0 t) (if cond4_0 (grid4.coords t) then k4_pay2 else xs1)
          (if cond4_0 (grid4.coords t) then k4_pay1 else xs0) (iblk4 V c 1 t) = acc4 V c t.val t.isLt
        ∧ (if cond4_0 (grid4.coords t) then k4_pay2 else xs1) = k4_pay2⌝
      ∗ owns (c : Thread nD τ) sc4_0 fullShare xs0 ∗ owns (c : Thread nD τ) sc4_1 fullShare xs1
      ∗ Pipeline.scopedRestBut (Ix := Unit) (Name := ℕ) (U := UR sig nD τ) (Lvl := ℕ) (Val := Elt F) spec4 c [cc4_scratch0, cc4_scratch1]
      ∗ (∃ r, prngReg c r)) := by
  by_cases h0 : t.val % 586 = 0
  · have hc := (hcond4_0 t).mpr h0
    refine (Phi4_out V c t.castSucc).trans ?_; rw [PhiA4_eq]
    iintro ⟨⟨⟨⟨%xs0, HS0⟩, ⟨%xs1, HS1⟩⟩, Hr⟩, Hg⟩
    iexists xs0, xs1; iframe HS0 HS1 Hr Hg; ipureintro
    rw [if_pos hc, if_pos hc, acc4_first V c t h0]; exact ⟨rfl, rfl⟩
  · have hc : ¬cond4_0 (grid4.coords t) := fun h => h0 ((hcond4_0 t).mp h)
    rw [show (dat4 V c).Φ t.castSucc = Phi4 V c t.val (Nat.le_of_lt t.isLt) from rfl, Phi4_pos V c _ _ fun e => h0 (by rw [e])]
    iintro ⟨HS0, HS1, Hr, Hg⟩
    iexists acc4 V c (t.val - 1) (Nat.lt_of_le_of_lt (Nat.sub_le _ _) t.isLt), k4_pay2; iframe HS0 HS1 Hr Hg; ipureintro
    rw [if_neg hc, if_neg hc, acc4_next V c t h0]; exact ⟨rfl, rfl⟩

/-- The output block's buffer as the body leaves it: at the finished sum at a row's last tile, as found elsewhere. -/
theorem leaves4_2 (c : Dev nD) (t : Fin cfg4.N) (d) :
    owns (c : Thread nD τ) (ms4_2 t) fullShare (if cond4_1 (grid4.coords t) then acc4 V c t.val t.isLt else (dat4 V c).before 2 t d)
      ⊢ (dat4 V c).leavesExact 2 t := by
  by_cases h1 : cond4_1 (grid4.coords t)
  · rw [if_pos h1, show (dat4 V c).leavesExact 2 t = owns (c : Thread nD τ) (ms4_2 t) fullShare ((dat4 V c).after 2 t) from by
      unfold Dat.leavesExact; rw [liveAt4_2 t h1], after4_2]
  · rw [if_neg h1, Dat.leavesExact_idle (dat4 V c) 2 t (idleAt4_2 t h1) (noFlush4_2 t fun h => h1 ((hcond4_1 t).mpr h))]
    iintro H; iexists _; iexact H

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the invariant opened, the kernel's triple applied once, and its result read back as the point's running sum. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl,
    show (dat4 V c).Φ t.succ = iprop(owns (c : Thread nD τ) sc4_0 fullShare (acc4 V c t.val t.isLt) ∗ owns (c : Thread nD τ) sc4_1 fullShare (k4_pay2 : Vec F S2048x1024 .i32)
      ∗ Pipeline.scopedRestBut (Ix := Unit) (Name := ℕ) (U := UR sig nD τ) (Lvl := ℕ) (Val := Elt F) spec4 c [cc4_scratch0, cc4_scratch1]
      ∗ (∃ r, prngReg c r)) from rfl,
    show (dat4 V c).leavesExact 0 t = owns (c : Thread nD τ) (ms4_0 t) fullShare ((dat4 V c).after 0 t) from by
      unfold Dat.leavesExact; rw [liveAt4_0 t], after4_0,
    show (dat4 V c).leavesExact 1 t = owns (c : Thread nD τ) (ms4_1 t) fullShare ((dat4 V c).after 1 t) from by
      unfold Dat.leavesExact; rw [liveAt4_1 t], after4_1]
  refine (sep_mono_left (Phi4_open V c t)).trans ?_
  iintro ⟨⟨%xs0, %xs1, %hx, HS0, HS1, Hr, Hg⟩, Ho, ⟨%d0, H0⟩, ⟨%d1, H1⟩, ⟨%d2, H2⟩⟩
  iapply (run4 c (grid4.coords t) _ (hs4_0 t) _ (hs4_1 t) _ (hs4_2 t) _ (Memref.isWhole_whole _) _ (Memref.isWhole_whole _)
    (fun a b => by have := (hcond4_0 t).mp a; have := (hcond4_1 t).mp b; omega)
    (iblk4 V c 0 t) (iblk4 V c 1 t) ((dat4 V c).before 2 t d2) xs0 xs1 Set.univ _)
  iframe H0 H1 H2 HS0 HS1
  iintro ⟨H0, H1, H2, HS0, HS1⟩
  rw [hx.1, hx.2]
  iframe H0 H1 HS0 HS1 Hr Hg Ho
  iapply leaves4_2 V c t d2; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = Phi4 V c 0 (Nat.zero_le _) from rfl, Phi4_zero V c 0 _ rfl]

theorem hout4 (c : Dev nD) : (dat4 V c).Φ (Fin.last cfg4.N) ⊢ Pipeline.ΦA spec4 c := Phi4_out V c _

end Cert.Kernel.Hand

end
-- ==== Proof.KB.R5Body.lean ====
import proofs.«421913_j33337536151789_3_alg».proof.Proof.KB.R5Defs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before5_0 (c : Dev nD) (t : Fin cfg5.N) (d) : (dat5 V c).before 0 t d = iblk5 V c 0 t :=
  ((dat5 V c).before_in_eq_fetched 0 rfl (fun _ => rfl) (fun _ _ _ => rfl)
      (fun t => by rw [after5_0]; unfold Dat.blockOf iblk5; rw [A_eq5]; try rfl) t d).trans
    (by unfold Dat.fetched Dat.blockOf iblk5; rw [A_eq5]; try rfl)

theorem before5_1 (c : Dev nD) (t : Fin cfg5.N) (d) : (dat5 V c).before 1 t d = iblk5 V c 1 t :=
  ((dat5 V c).before_in_eq_fetched 1 rfl (fun _ => rfl) (fun _ _ _ => rfl)
      (fun t => by rw [after5_1]; unfold Dat.blockOf iblk5; rw [A_eq5]; try rfl) t d).trans
    (by unfold Dat.fetched Dat.blockOf iblk5; rw [A_eq5]; try rfl)

theorem before5_2 (c : Dev nD) (t : Fin cfg5.N) (d) : (dat5 V c).before 2 t d = iblk5 V c 2 t :=
  ((dat5 V c).before_in_eq_fetched 2 rfl (fun _ => rfl) (fun _ _ _ => rfl)
      (fun t => by rw [after5_2]; unfold Dat.blockOf iblk5; rw [A_eq5]; try rfl) t d).trans
    (by unfold Dat.fetched Dat.blockOf iblk5; rw [A_eq5]; try rfl)

theorem before5_3 (c : Dev nD) (t : Fin cfg5.N) (d) : (dat5 V c).before 3 t d = iblk5 V c 3 t :=
  ((dat5 V c).before_in_eq_fetched 3 rfl (fun _ => rfl) (fun _ _ _ => rfl)
      (fun t => by rw [after5_3]; unfold Dat.blockOf iblk5; rw [A_eq5]; try rfl) t d).trans
    (by unfold Dat.fetched Dat.blockOf iblk5; rw [A_eq5]; try rfl)

theorem before5_4 (c : Dev nD) (t : Fin cfg5.N) (d) : (dat5 V c).before 4 t d = iblk5 V c 4 t :=
  ((dat5 V c).before_in_eq_fetched 4 rfl (fun _ => rfl) (fun _ _ _ => rfl)
      (fun t => by rw [after5_4]; unfold Dat.blockOf iblk5; rw [A_eq5]; try rfl) t d).trans
    (by unfold Dat.fetched Dat.blockOf iblk5; rw [A_eq5]; try rfl)

theorem before5_5 (c : Dev nD) (t : Fin cfg5.N) (d) : (dat5 V c).before 5 t d = iblk5 V c 5 t :=
  ((dat5 V c).before_in_eq_fetched 5 rfl (fun _ => rfl) (fun _ _ _ => rfl)
      (fun t => by rw [after5_5]; unfold Dat.blockOf iblk5; rw [A_eq5]; try rfl) t d).trans
    (by unfold Dat.fetched Dat.blockOf iblk5; rw [A_eq5]; try rfl)

theorem hz5 : (![0, 0] : Fin 2 → Nat) = fun _ => 0 := funext fun a => by fin_cases a <;> rfl

set_option maxHeartbeats 1000000 in

theorem sound_kernel5 (c : Dev nD) (E : Set ℕ) (i : grid5.Coords)
    (arg1 : Memref sig .tc .vmem S2048x64 .f32) (harg1 : arg1.IsWhole)
    (arg2 : Memref sig .tc .vmem S2048x64 .bf16) (harg2 : arg2.IsWhole)
    (arg3 : Memref sig .tc .vmem S2048x1 .f32) (harg3 : arg3.IsWhole)
    (arg4 : Memref sig .tc .vmem S64x128 .bf16) (harg4 : arg4.IsWhole)
    (arg5 : Memref sig .tc .vmem S1x128 .f32) (harg5 : arg5.IsWhole)
    (arg6 : Memref sig .tc .vmem S64x128 .bf16) (harg6 : arg6.IsWhole)
    (arg7 : Memref sig .tc .vmem S2048x128 .f32) (harg7 : arg7.IsWhole)
    (x1 : Vec F S2048x64 .f32) (x2 : Vec F S2048x64 .bf16) (x3 : Vec F S2048x1 .f32)
    (x4 : Vec F S64x128 .bf16) (x5 : Vec F S1x128 .f32) (x6 : Vec F S64x128 .bf16)
    (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ (∃ d, owns (c : Thread nD τ) arg7 fullShare d)
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare (k5_pay1 i x1 x3 x4 x5 x2 x6)) -∗ K ⟨⟩))
      ⊢ wp frame (wpE (defs₀ (F := F)) Variants.none c none) E
          (cc5__combine_kernel i arg1 harg1 arg2 harg2 arg3 harg3 arg4 harg4 arg5 harg5 arg6 harg6 arg7 harg7) K := by
  simp only [cc5__combine_kernel_eq_skeleton]; unfold cc5__combine_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (fun y => ⟨_, List.mem_singleton_self _, View.mem_set_unit_zero hz5 inb_S2048x128_S2048x128_0_0 y⟩),
    View.canon_unit_zero hz5]
  simp only [View.readAt_eq_ld, View.ld_unit_zero (S := S2048x64) hz5, View.ld_unit_zero (S := S2048x1) hz5,
    View.ld_unit_zero (S := S64x128) hz5, View.ld_unit_zero (S := S1x128) hz5]

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  unfold out5
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _
    (iblk5 V c 0 t) (iblk5 V c 1 t) (iblk5 V c 2 t) (iblk5 V c 3 t) (iblk5 V c 4 t) (iblk5 V c 5 t) _)
  iframe H0 H1 H2 H3 H4 H5
  isplitl [H6]; · iexists _; iexact H6
  iintro ⟨H0, H1, H2, H3, H4, H5, H6⟩
  iframe HΦ Ho H0 H1 H2 H3 H4 H5
  iexact H6

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := BI.Entails.refl _

theorem hout5 (c : Dev nD) : (dat5 V c).Φ (Fin.last cfg5.N) ⊢ Pipeline.ΦA spec5 c := BI.Entails.refl _

end Cert.Kernel.Hand

end
-- ==== Proof.KB.Bodies.lean ====
import proofs.«421913_j33337536151789_3_alg».proof.Proof.KB.R0Body
import proofs.«421913_j33337536151789_3_alg».proof.Proof.KB.R1Body
import proofs.«421913_j33337536151789_3_alg».proof.Proof.KB.R2Body
import proofs.«421913_j33337536151789_3_alg».proof.Proof.KB.R3Body
import proofs.«421913_j33337536151789_3_alg».proof.Proof.KB.R4Body
import proofs.«421913_j33337536151789_3_alg».proof.Proof.KB.R5Body
-- ==== Proof.KB.RunSegs.lean ====
import proofs.«421913_j33337536151789_3_alg».proof.Proof.KB.RunOuts
import proofs.«421913_j33337536151789_3_alg».proof.Proof.KB.Bodies

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

local notation "𝕄" => MT nD τ sig Unit (Elt F) ℕ (UR sig nD τ) ℕ

def pdats : (p : Fin 6) → (c : Dev nD) → Dat τ (Elt F) Unit ℕ (UR sig nD τ) ℕ (cfgs p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c
  | ⟨5, _⟩ => fun c => dat5 (Vin5 m) c
  | ⟨_ + 6, h⟩ => absurd h (Nat.not_lt.2 (Nat.le_add_left _ _))

abbrev runL : GSem nD τ sig → Finset Unit := fun _ => ∅
abbrev runLv : GSem nD τ sig → Unit → ℕ := fun _ _ => 0
/-- What rides beside the buffers between two calls: the generator register at some state, nothing owed. -/
abbrev Rest (c : Dev nD) : sProp 𝕄 := iprop((∃ r, prngReg c r) ∗ ∃ W, owes (c : Thread nD τ) (0 : CellTallies nD τ sig Unit) W)

theorem ΦA_of_entry {gr W : Nat} (win : Fin W → Pipeline.WinSpec sig gr) (c : Dev nD) (T : sProp 𝕄) :
    iprop((∃ r, prngReg c r) ∗ T ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, -, Hr⟩
  isplitl [Hr]; · iexact Hr
  iexact Hp

theorem exit_of_ΦA {gr W : Nat} (win : Fin W → Pipeline.WinSpec sig gr) (c : Dev nD) :
    (Pipeline.ΦA win c : sProp 𝕄)
      ⊢ iprop((∃ r, prngReg c r) ∗ emp ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

/-- A valuation read at the core's own references. -/
abbrev tcv (W : (c : Dev nD) → Valuation τ sig (Elt F)) : (c : Dev nD) → (b : Ref sig .tc) → Buf (Elt F) ((c : Thread nD τ).loc b) :=
  fun c b => W c b

set_option backward.isDefEq.respectTransparency.types false in
/-- Call `p` as a segment of the run, for every `p` at once: entered at the contents `Wpre`, left at `Wpost`. -/
def seg (p : Fin 6) (launch : Pipeline.LaunchFacts (nD := nD) (τ := τ) cfgs p)
    (hbody : ∀ c, BodyObligation (pdats m p c) (defs₀ (F := F)) Variants.none () Set.univ)
    (howed : ∀ c t, (pdats m p c).owed t = 0) (hrec : ∀ c, (pdats m p c).recorded 0 = Set.univ) (hq : ∀ c w, (pdats m p c).q w = fullShare)
    (hin : ∀ c, Pipeline.ΦA (cfgs p).spec c ⊢ (pdats m p c).Φ 0)
    (hout : ∀ c, (pdats m p c).Φ (Fin.last (cfgs p).N) ⊢ (Pipeline.ΦA (cfgs p).spec c : sProp 𝕄))
    (Wpre Wpost : (c : Dev nD) → Valuation τ sig (Elt F))
    (hA : ∀ c w, (pdats m p c).A w = tcv Wpre c (Pipeline.arrRef (cfgs p).spec w))
    (hF : ∀ c w, (pdats m p c).arrAt w (cfgs p).N = tcv Wpost c (Pipeline.arrRef (cfgs p).spec w))
    (hrest : ∀ c b, b ∉ Finset.univ.image (Pipeline.arrRef (cfgs p).spec) → tcv Wpost c b = tcv Wpre c b) :
    Pipeline.RegionSeg (pcfgs (F := F)) Gen.adm (pdats m) () defs₀ Variants.none runL runLv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ runL runLv p howed
  pre c := iprop(StableHlo.held (c : Thread nD τ) (Pipeline.ucRefs τ sig) (Wpre c) ∗ Rest c)
  post c := iprop(StableHlo.held (c : Thread nD τ) (Pipeline.ucRefs τ sig) (Wpost c) ∗ Rest c)
  X c := iprop(∃ r, prngReg c r)
  Y c := iprop(∃ r, prngReg c r)
  Z c := Pipeline.unscopedRest (Ix := Unit) (Name := ℕ) (U := UR sig nD τ) (Lvl := ℕ) (cfgs p).spec c (tcv Wpre c)
  hentry c := by
    rw [Pipeline.ownSems0_none]
    have hsplit := Pipeline.arrays_of_unscopedBufs (p := p) (pcfgs (F := F)) Gen.adm (pdats m) launch.win launch.arr_whole c
      ((pdats m p c).share_full (hq c)) (tcv Wpre c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c]; exact Set.mem_univ _)
      iexact HO
    isplitl [Hp]; · iexact Hp
    iexact Hrest
  hin c := (ΦA_of_entry (cfgs p).spec c _).trans (hin c)
  hout c := by
    rw [Pipeline.ownSems0_none]
    exact (hout c).trans (exit_of_ΦA (cfgs p).spec c)
  hexit c := by
    have hjoin := Pipeline.unscopedBufs_of_arrays (p := p) (pcfgs (F := F)) Gen.adm (Ix := Unit) (Name := ℕ) (U := UR sig nD τ) (Lvl := ℕ)
      launch.win launch.arr_whole c (pdats m) ((pdats m p c).share_full (hq c))
      (tcv Wpre c) (tcv Wpost c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c _]
    icases HO with ⟨%W, -, HO⟩; iexists W; iexact HO

set_option backward.isDefEq.respectTransparency.types false in
def reg0 := seg m 0 launch0 (body_obligation0 (Vin0 m)) (fun _ _ => rfl) (fun _ => rfl) (fun _ _ => rfl) (hin0 (Vin0 m)) (hout0 (Vin0 m)) (Gen.V9 m) (Gen.V10 m (outs m)) (hA0 m) (hF0 m) (hrest0 m)
set_option backward.isDefEq.respectTransparency.types false in
def reg1 := seg m 1 launch1 (body_obligation1 (Vin1 m)) (fun _ _ => rfl) (fun _ => rfl) (fun _ _ => rfl) (hin1 (Vin1 m)) (hout1 (Vin1 m)) (Gen.V10 m (outs m)) (Gen.V11 m (outs m)) (hA1 m) (hF1 m) (hrest1 m)
set_option backward.isDefEq.respectTransparency.types false in
def reg2 := seg m 2 launch2 (body_obligation2 (Vin2 m)) (fun _ _ => rfl) (fun _ => rfl) (fun _ _ => rfl) (hin2 (Vin2 m)) (hout2 (Vin2 m)) (Gen.V11 m (outs m)) (Gen.V12 m (outs m)) (hA2 m) (hF2 m) (hrest2 m)
set_option backward.isDefEq.respectTransparency.types false in
def reg3 := seg m 3 launch3 (body_obligation3 (Vin3 m)) (fun _ _ => rfl) (fun _ => rfl) (fun _ _ => rfl) (hin3 (Vin3 m)) (hout3 (Vin3 m)) (Gen.V18 m (outs m)) (Gen.V19 m (outs m)) (hA3 m) (hF3 m) (hrest3 m)
set_option backward.isDefEq.respectTransparency.types false in
def reg4 := seg m 4 launch4 (body_obligation4 (Vin4 m)) (fun _ _ => rfl) (fun _ => rfl) (fun _ _ => rfl) (hin4 (Vin4 m)) (hout4 (Vin4 m)) (Gen.V19 m (outs m)) (Gen.V20 m (outs m)) (hA4 m) (hF4 m) (hrest4 m)
set_option backward.isDefEq.respectTransparency.types false in
def reg5 := seg m 5 launch5 (body_obligation5 (Vin5 m)) (fun _ _ => rfl) (fun _ => rfl) (fun _ _ => rfl) (hin5 (Vin5 m)) (hout5 (Vin5 m)) (Gen.V20 m (outs m)) (Gen.V21 m (outs m)) (hA5 m) (hF5 m) (hrest5 m)

end Cert.Kernel.Hand

end
-- ==== Proof.KB.Run.lean ====
import proofs.«421913_j33337536151789_3_alg».proof.Proof.KB.RunCond
import proofs.«421913_j33337536151789_3_alg».proof.Proof.KB.RunSegs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option backward.isDefEq.respectTransparency.types false in

theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v36) = Gen.V22 m (outs m) c main_v36
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Gen.run_cond m (Ix := Unit) (U := UR sig nD τ) (Lvl := ℕ) (EP := emb₁) (ι := ()) (𝒱₀ := Variants.none) (L := runL) (lv := runLv)
    (hL := fun _ _ => rfl) (ρ := ρ) (outs := outs m) (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rest c)
    (hE0 := by
      refine Pipeline.initEach runL runLv fun c => ?_
      iintro ⟨⟨-, HO, -, Hp, -⟩, -⟩
      imodintro
      isplitl [Hp]; · iexists _; iexact Hp
      iexists ∅; iexact HO)
    (hE6 := fun c => by iintro ⟨-, HO⟩; iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)

end Cert.Kernel.Hand

end
-- ==== Proof.Spec.lean ====
import Idealize.ShloMosaic.PureOps.Ideal

noncomputable section

namespace Cert.Sage

open Idealize.ShloMosaic

def rowOf (s : BitVec 32) : Fin 50000 := ⟨s.toNat % 50000, Nat.mod_lt _ (by decide)⟩

def endsAt (dst : Fin 600000 → BitVec 32) (e : Fin 600000) (i : Fin 50000) : Prop := dst e = BitVec.ofNat 32 i.val

instance (dst : Fin 600000 → BitVec 32) (e : Fin 600000) (i : Fin 50000) : Decidable (endsAt dst e i) := by
  unfold endsAt; infer_instance

def deg (dst : Fin 600000 → BitVec 32) (i : Fin 50000) : EReal :=
  ∑ e : Fin 600000, if endsAt dst e i then (1 : EReal) else 0

def aggr {D : ℕ} (x : Fin 50000 → Fin D → EReal) (src dst : Fin 600000 → BitVec 32) (i : Fin 50000) (k : Fin D) : EReal :=
  ∑ e : Fin 600000, if endsAt dst e i then x (rowOf (src e)) k else 0

def mean {D : ℕ} (x : Fin 50000 → Fin D → EReal) (src dst : Fin 600000 → BitVec 32) (i : Fin 50000) (k : Fin D) : EReal :=
  Ideal.div (aggr x src dst i k) (max (deg dst i) 1)

def layer {D O : ℕ} (x : Fin 50000 → Fin D → EReal) (src dst : Fin 600000 → BitVec 32)
    (Wl : Fin O → Fin D → EReal) (bl : Fin O → EReal) (Wr : Fin O → Fin D → EReal) (i : Fin 50000) (j : Fin O) : EReal :=
  (∑ k : Fin D, mean x src dst i k * Wl j k) + bl j + ∑ k : Fin D, x i k * Wr j k

def hidden (x : Fin 50000 → Fin 128 → EReal) (src dst : Fin 600000 → BitVec 32)
    (Wl1 : Fin 64 → Fin 128 → EReal) (bl1 : Fin 64 → EReal) (Wr1 : Fin 64 → Fin 128 → EReal) (i : Fin 50000) (k : Fin 64) : EReal :=
  Ideal.logistic (layer x src dst Wl1 bl1 Wr1 i k)

def net (x : Fin 50000 → Fin 128 → EReal) (src dst : Fin 600000 → BitVec 32)
    (Wl1 : Fin 64 → Fin 128 → EReal) (bl1 : Fin 64 → EReal) (Wr1 : Fin 64 → Fin 128 → EReal)
    (Wl2 : Fin 40 → Fin 64 → EReal) (bl2 : Fin 40 → EReal) (Wr2 : Fin 40 → Fin 64 → EReal) (i : Fin 50000) (j : Fin 40) : EReal :=
  layer (hidden x src dst Wl1 bl1 Wr1) src dst Wl2 bl2 Wr2 i j

end Cert.Sage

end
-- ==== Proof.KI.FinalMath.lean ====
import proofs.«421913_j33337536151789_3_alg».proof.Proof.Spec
import Mathlib.Algebra.BigOperators.Fin

noncomputable section

namespace Cert.Sage

open Idealize.ShloMosaic

theorem pad_sum (f : Fin 600064 → EReal) (h : ∀ e : Fin 600064, 600000 ≤ e.val → f e = 0) :
    ∑ e, f e = ∑ e : Fin 600000, f ⟨e.val, Nat.lt_trans e.isLt (by norm_num)⟩ := by
  have hsplit := Fin.sum_univ_add (a := 600000) (b := 64) f
  have htail : ∑ i : Fin 64, f (Fin.natAdd 600000 i) = 0 :=
    Finset.sum_eq_zero (fun i _ => h _ (Nat.le_add_right 600000 i.val))
  rw [hsplit, htail, add_zero]
  rfl

section Layer

variable {D : ℕ} (x : Fin 50000 → Fin D → EReal) (src dst : Fin 600000 → BitVec 32)
  (psrc pdst : Fin 600064 → BitVec 32) (px : Fin 51200 → Fin D → EReal) (g : Fin 600064 → Fin D → EReal)

/-- A real edge gathers the row of the node it starts from; a padding edge reads row 50000, a zero row. -/
theorem gather_eq (hsrc : ∀ e, (src e).toNat < 50000)
    (hpsrc : ∀ e : Fin 600064, psrc e = if h : e.val < 600000 then src ⟨e.val, h⟩ else 50000#32)
    (hpx : ∀ r k, px r k = if h : r.val < 50000 then x ⟨r.val, h⟩ k else 0)
    (hg : ∀ e d (hs : (psrc e).toNat < 51200), g e d = px ⟨(psrc e).toNat, hs⟩ d) (e : Fin 600064) (d : Fin D) :
    g e d = if h : e.val < 600000 then x (rowOf (src ⟨e.val, h⟩)) d else 0 := by
  have key : ∀ w, psrc e = w → ∀ hs : w.toNat < 51200, g e d = px ⟨w.toNat, hs⟩ d := by
    rintro w rfl hs; exact hg e d hs
  by_cases h : e.val < 600000
  · have hw := hsrc ⟨e.val, h⟩
    rw [dif_pos h, key (src ⟨e.val, h⟩) (by rw [hpsrc, dif_pos h]) (Nat.lt_trans hw (by norm_num))]
    exact (hpx _ d).trans ((dif_pos hw).trans (congrArg (x · d) (Fin.ext (Nat.mod_eq_of_lt hw).symm)))
  · rw [dif_neg h, key 50000#32 (by rw [hpsrc, dif_neg h]) (by decide)]
    exact (hpx _ d).trans (dif_neg (by decide))

/-- The scattered sum at a node is the sum over the edges that end there of the row of the node each starts from. -/
theorem scatter_eq_aggr (hsrc : ∀ e, (src e).toNat < 50000)
    (hpsrc : ∀ e : Fin 600064, psrc e = if h : e.val < 600000 then src ⟨e.val, h⟩ else 50000#32)
    (hpdst : ∀ e : Fin 600064, pdst e = if h : e.val < 600000 then dst ⟨e.val, h⟩ else 50000#32)
    (hpx : ∀ r k, px r k = if h : r.val < 50000 then x ⟨r.val, h⟩ k else 0)
    (hg : ∀ e d (hs : (psrc e).toNat < 51200), g e d = px ⟨(psrc e).toNat, hs⟩ d)
    (r : Fin 50000) (d : Fin D) :
    (∑ e : Fin 600064, if pdst e = BitVec.ofNat 32 r.val then g e d else 0) = aggr x src dst r d := by
  have hge := gather_eq x src psrc px g hsrc hpsrc hpx hg
  rw [pad_sum _ fun e he => by rw [hge, dif_neg (Nat.not_lt.mpr he)]; exact ite_self 0]
  unfold aggr
  refine Finset.sum_congr rfl fun e _ => ?_
  have he : (⟨e.val, Nat.lt_trans e.isLt (by norm_num)⟩ : Fin 600064).val < 600000 := e.isLt
  rw [hge, dif_pos he, hpdst, dif_pos he]
  by_cases hc : dst e = BitVec.ofNat 32 r.val
  · rw [if_pos (show endsAt dst e r from hc)]; exact if_pos hc
  · rw [if_neg (show ¬ endsAt dst e r from hc)]; exact if_neg hc

end Layer

section Net

variable (x : Fin 50000 → Fin 128 → EReal) (src dst : Fin 600000 → BitVec 32)
  (Wl1 : Fin 64 → Fin 128 → EReal) (bl1 : Fin 64 → EReal) (Wr1 : Fin 64 → Fin 128 → EReal)
  (Wl2 : Fin 40 → Fin 64 → EReal) (bl2 : Fin 40 → EReal) (Wr2 : Fin 40 → Fin 64 → EReal)

structure Padded (psrc pdst : Fin 600064 → BitVec 32) (px : Fin 51200 → Fin 128 → EReal) (pdeg : Fin 51200 → EReal)
    (w17 w19 : Fin 128 → Fin 64 → EReal) (b20 : Fin 64 → EReal)
    (w29 w31 : Fin 64 → Fin 128 → EReal) (b30 : Fin 128 → EReal)
    (g1 : Fin 600064 → Fin 128 → EReal) (s1 : Fin 51200 → Fin 128 → EReal) (h1 : Fin 51200 → Fin 64 → EReal)
    (g2 : Fin 600064 → Fin 64 → EReal) (s2 : Fin 51200 → Fin 64 → EReal) (o5 : Fin 51200 → Fin 128 → EReal) : Prop where
  psrc_eq : ∀ e : Fin 600064, psrc e = if h : e.val < 600000 then src ⟨e.val, h⟩ else 50000#32
  pdst_eq : ∀ e : Fin 600064, pdst e = if h : e.val < 600000 then dst ⟨e.val, h⟩ else 50000#32
  px_eq : ∀ r k, px r k = if h : r.val < 50000 then x ⟨r.val, h⟩ k else 0
  pdeg_eq : ∀ r, pdeg r = if h : r.val < 50000 then deg dst ⟨r.val, h⟩ else 0
  w17_eq : ∀ k j, w17 k j = Wl1 j k
  w19_eq : ∀ k j, w19 k j = Wr1 j k
  b20_eq : ∀ j, b20 j = bl1 j
  w29_eq : ∀ k j, w29 k j = if h : j.val < 40 then Wl2 ⟨j.val, h⟩ k else 0
  w31_eq : ∀ k j, w31 k j = if h : j.val < 40 then Wr2 ⟨j.val, h⟩ k else 0
  b30_eq : ∀ j, b30 j = if h : j.val < 40 then bl2 ⟨j.val, h⟩ else 0
  g1_eq : ∀ e d (hs : (psrc e).toNat < 51200), g1 e d = px ⟨(psrc e).toNat, hs⟩ d
  s1_eq : ∀ r d, s1 r d = ∑ e : Fin 600064, if pdst e = BitVec.ofNat 32 r.val then g1 e d else 0
  h1_eq : ∀ r j, h1 r j = if r.val < 50000 then
      Ideal.logistic ((∑ k : Fin 128, Ideal.div (s1 r k) (max (pdeg r) 1) * w17 k j) + b20 j + ∑ k : Fin 128, px r k * w19 k j)
    else 0
  g2_eq : ∀ e d (hs : (psrc e).toNat < 51200), g2 e d = h1 ⟨(psrc e).toNat, hs⟩ d
  s2_eq : ∀ r d, s2 r d = ∑ e : Fin 600064, if pdst e = BitVec.ofNat 32 r.val then g2 e d else 0
  o5_eq : ∀ r j, o5 r j = if r.val < 50000 then
      (∑ k : Fin 64, Ideal.div (s2 r k) (max (pdeg r) 1) * w29 k j) + b30 j + ∑ k : Fin 64, h1 r k * w31 k j
    else 0

variable {x src dst Wl1 bl1 Wr1 Wl2 bl2 Wr2}
variable {psrc pdst : Fin 600064 → BitVec 32} {px : Fin 51200 → Fin 128 → EReal} {pdeg : Fin 51200 → EReal}
  {w17 w19 : Fin 128 → Fin 64 → EReal} {b20 : Fin 64 → EReal}
  {w29 w31 : Fin 64 → Fin 128 → EReal} {b30 : Fin 128 → EReal}
  {g1 : Fin 600064 → Fin 128 → EReal} {s1 : Fin 51200 → Fin 128 → EReal} {h1 : Fin 51200 → Fin 64 → EReal}
  {g2 : Fin 600064 → Fin 64 → EReal} {s2 : Fin 51200 → Fin 64 → EReal} {o5 : Fin 51200 → Fin 128 → EReal}

theorem Padded.h1_is_hidden
    (P : Padded x src dst Wl1 bl1 Wr1 Wl2 bl2 Wr2 psrc pdst px pdeg w17 w19 b20 w29 w31 b30 g1 s1 h1 g2 s2 o5)
    (hsrc : ∀ e, (src e).toNat < 50000) (r : Fin 51200) (j : Fin 64) :
    h1 r j = if h : r.val < 50000 then hidden x src dst Wl1 bl1 Wr1 ⟨r.val, h⟩ j else 0 := by
  rw [P.h1_eq r j]
  by_cases h : r.val < 50000
  · rw [if_pos h, dif_pos h]
    unfold Cert.Sage.hidden Cert.Sage.layer
    have e1 : ∑ k : Fin 128, Ideal.div (s1 r k) (max (pdeg r) 1) * w17 k j
        = ∑ k : Fin 128, mean x src dst ⟨r.val, h⟩ k * Wl1 j k := by
      refine Finset.sum_congr rfl (fun k _ => ?_)
      unfold Cert.Sage.mean
      have hsc := scatter_eq_aggr x src dst psrc pdst px g1 hsrc P.psrc_eq P.pdst_eq P.px_eq P.g1_eq ⟨r.val, h⟩ k
      rw [P.s1_eq r k, P.pdeg_eq r, dif_pos h, P.w17_eq]
      exact congrArg (fun t => Ideal.div t (max (deg dst ⟨r.val, h⟩) 1) * Wl1 j k) hsc
    have e2 : ∑ k : Fin 128, px r k * w19 k j = ∑ k : Fin 128, x ⟨r.val, h⟩ k * Wr1 j k := by
      refine Finset.sum_congr rfl (fun k _ => ?_)
      rw [P.px_eq r k, dif_pos h, P.w19_eq]
    rw [e1, e2, P.b20_eq]
  · rw [if_neg h, dif_neg h]

theorem Padded.o5_is_net
    (P : Padded x src dst Wl1 bl1 Wr1 Wl2 bl2 Wr2 psrc pdst px pdeg w17 w19 b20 w29 w31 b30 g1 s1 h1 g2 s2 o5)
    (hsrc : ∀ e, (src e).toNat < 50000) (r : Fin 50000) (j : Fin 40) :
    o5 ⟨r.val, Nat.lt_trans r.isLt (by norm_num)⟩ ⟨j.val, Nat.lt_trans j.isLt (by norm_num)⟩
      = net x src dst Wl1 bl1 Wr1 Wl2 bl2 Wr2 r j := by
  have hr : (⟨r.val, Nat.lt_trans r.isLt (by norm_num)⟩ : Fin 51200).val < 50000 := r.isLt
  have hj : (⟨j.val, Nat.lt_trans j.isLt (by norm_num)⟩ : Fin 128).val < 40 := j.isLt
  rw [P.o5_eq, if_pos hr]
  unfold Cert.Sage.net Cert.Sage.layer
  have e1 : ∀ k : Fin 64, Ideal.div (s2 ⟨r.val, Nat.lt_trans r.isLt (by norm_num)⟩ k)
        (max (pdeg ⟨r.val, Nat.lt_trans r.isLt (by norm_num)⟩) 1) * w29 k ⟨j.val, Nat.lt_trans j.isLt (by norm_num)⟩
      = mean (hidden x src dst Wl1 bl1 Wr1) src dst r k * Wl2 j k := by
    intro k
    unfold Cert.Sage.mean
    have hsc := scatter_eq_aggr (hidden x src dst Wl1 bl1 Wr1) src dst psrc pdst h1 g2 hsrc P.psrc_eq P.pdst_eq
      (P.h1_is_hidden hsrc) P.g2_eq r k
    rw [P.s2_eq, P.pdeg_eq, dif_pos hr, P.w29_eq, dif_pos hj]
    exact congrArg (fun t => Ideal.div t (max (deg dst r) 1) * Wl2 j k) hsc
  have e2 : ∀ k : Fin 64, h1 ⟨r.val, Nat.lt_trans r.isLt (by norm_num)⟩ k * w31 k ⟨j.val, Nat.lt_trans j.isLt (by norm_num)⟩
      = hidden x src dst Wl1 bl1 Wr1 r k * Wr2 j k := by
    intro k
    rw [P.h1_is_hidden hsrc, dif_pos hr, P.w31_eq, dif_pos hj]
  rw [Finset.sum_congr rfl (fun k _ => e1 k), Finset.sum_congr rfl (fun k _ => e2 k), P.b30_eq, dif_pos hj]

end Net

end Cert.Sage

end
-- ==== Proof.ScatterRead.lean ====
import Idealize.ShloMosaic.Lib.ValueIdxRank1
import Idealize.ShloMosaic.Lib.StableHlo.Predicate

noncomputable section

open scoped BigOperators

namespace Cert.ScatterRead

open Idealize.ShloMosaic Idealize.ShloMosaic.ValueIdx

/-- Below 2 ^ 31 a word read signed is i exactly when it is the word of i. -/
theorem toInt_eq_natCast_iff (x : BitVec 32) (i : ℕ) (hi : i < 2 ^ 31) : x.toInt = (i : ℤ) ↔ x = BitVec.ofNat 32 i :=
  ⟨fun h => BitVec.eq_of_toInt_eq (h.trans (StableHlo.Predicate.toInt_ofNat_small i hi).symm),
    fun h => h ▸ StableHlo.Predicate.toInt_ofNat_small i hi⟩

/-- An update lands at an entry exactly when start plus window coordinate is that entry's coordinate on every axis. -/
theorem resultIdx?_eq_some_iff {s si u : Shape} (d : ScatterDims s si u) {w : ℕ} (j : u.Idx) (idx : IVec si w) (i : s.Idx) :
    d.resultIdx? j idx = some i ↔ ∀ a, d.start j idx a + d.window j a = ((i a).val : ℤ) := by
  unfold ScatterDims.resultIdx?
  split
  · rename_i h
    rw [Option.some.injEq, funext_iff]
    refine forall_congr' fun a => ?_
    have := h a
    rw [Fin.ext_iff]
    show (d.start j idx a + (d.window j a : ℤ)).toNat = (i a).val ↔ _
    omega
  · rename_i h
    refine ⟨nofun, fun hh => (h fun a => ?_).elim⟩
    have := hh a
    have := (i a).isLt
    omega

section Count
variable {N E : ℕ} (d : ScatterDims ⟨1, ![N]⟩ ⟨2, ![E, 1]⟩ ⟨1, ![E]⟩)

/-- The scatter read at entry i: the operand's entry plus the updates whose scatter index is the word of i. -/
theorem count_apply (hN : N ≤ 2 ^ 31) (h1 : d.updateWindowDims = []) (h2 : d.insertedWindowDims = [0])
    (h3 : d.scatterDimsToOperandDims = [0]) (h4 : d.indexVectorDim = 1) (x : (⟨1, ![N]⟩ : Shape).Idx → EReal)
    (idx : IVec ⟨2, ![E, 1]⟩ 32) (upd : (⟨1, ![E]⟩ : Shape).Idx → EReal) (i : Fin N) :
    Ideal.hostScatterAdd d x idx upd (ix1 i)
      = x (ix1 i) + ∑ e : Fin E, if idx (ix2 e 0) = BitVec.ofNat 32 i.val then upd (ix1 e) else 0 := by
  unfold Ideal.hostScatterAdd
  rw [Finset.sum_filter, ← Equiv.sum_comp idxEquiv1.symm]
  refine congrArg (x (ix1 i) + ·) (Finset.sum_congr rfl fun e _ => if_congr ?_ rfl rfl)
  rw [← toInt_eq_natCast_iff _ _ (lt_of_lt_of_le i.isLt hN), resultIdx?_eq_some_iff, Fin.forall_fin_one]
  obtain ⟨uw, iw, sd, iv, wf⟩ := d
  simp only at h1 h2 h3 h4
  subst h1 h2 h3 h4
  unfold ScatterDims.start ScatterDims.window
  rw [dif_pos (List.mem_singleton.mpr rfl), dif_neg (by exact List.not_mem_nil)]
  show (idx _).toInt + (0 : ℤ) = (i.val : ℤ) ↔ _
  rw [add_zero]
  refine Eq.congr_left (congrArg (fun p => (idx p).toInt) (funext fun b => Fin.ext ?_))
  match b with
  | ⟨0, _⟩ => rfl
  | ⟨1, _⟩ => rfl

end Count

end Cert.ScatterRead

end
-- ==== Proof.KI.HostVal.lean ====
import proofs.«421913_j33337536151789_3_alg».proof.Proof.Gen.KernelIdeal.Regions
import proofs.«421913_j33337536151789_3_alg».proof.Proof.Spec
import Idealize.ShloMosaic.Lib.ValueLayout
import Idealize.ShloMosaic.Lib.KernelVsHost
import Idealize.ShloMosaic.Lib.IdealHost
import proofs.«421913_j33337536151789_3_alg».proof.Proof.ScatterRead

set_option maxRecDepth 16384

noncomputable section

namespace Cert.KernelIdeal.Hand

open Idealize.ShloMosaic Idealize.ShloMosaic.TcCoe
open Cert.KernelIdeal Cert.KernelIdeal.Gen Idealize.ShloMosaic.ValueIdx

section PadRead
variable {α : Type}

theorem pad1_hi_apply {n p t : ℕ} (x : (⟨1, ![n]⟩ : Shape).Idx → α) {u : Shape} (v : u.Idx → α)
    (h : (⟨1, ![n]⟩ : Shape).Pads ![0] ![p] ![0] ⟨1, ![t]⟩) (hu : 0 < u.numel) (e : Fin t) :
    pad ⟨1, ![t]⟩ ![0] ![p] ![0] x v h hu (ix1 e)
      = if he : e.val < n then x (ix1 ⟨e.val, he⟩) else v (Shape.Idx.first hu) := by
  by_cases he : e.val < n
  · rw [dif_pos he]
    refine pad_apply_of_inside _ _ _ x v h hu (ix1 e) (ix1 ⟨e.val, he⟩) fun a => ?_
    match a with
    | ⟨0, _⟩ => show e.val = 0 + e.val * (0 + 1); omega
  · rw [dif_neg he]
    refine pad_apply_of_not_inside _ _ _ x v h hu (ix1 e) 0 ?_
    rintro ⟨-, -, h3⟩
    apply he
    change (e.val - 0) / (0 + 1) < n at h3
    simpa using h3

theorem pad2_hi_apply {n0 n1 p0 p1 t0 t1 : ℕ} (x : (⟨2, ![n0, n1]⟩ : Shape).Idx → α) {u : Shape} (v : u.Idx → α)
    (h : (⟨2, ![n0, n1]⟩ : Shape).Pads ![0, 0] ![p0, p1] ![0, 0] ⟨2, ![t0, t1]⟩) (hu : 0 < u.numel) (r : Fin t0) (k : Fin t1) :
    pad ⟨2, ![t0, t1]⟩ ![0, 0] ![p0, p1] ![0, 0] x v h hu (ix2 r k)
      = if hr : r.val < n0 ∧ k.val < n1 then x (ix2 ⟨r.val, hr.1⟩ ⟨k.val, hr.2⟩) else v (Shape.Idx.first hu) := by
  by_cases hr : r.val < n0 ∧ k.val < n1
  · rw [dif_pos hr]
    refine pad_apply_of_inside _ _ _ x v h hu (ix2 r k) (ix2 ⟨r.val, hr.1⟩ ⟨k.val, hr.2⟩) fun a => ?_
    match a with
    | ⟨0, _⟩ => show r.val = 0 + r.val * (0 + 1); omega
    | ⟨1, _⟩ => show k.val = 0 + k.val * (0 + 1); omega
  · rw [dif_neg hr]
    by_cases h0 : r.val < n0
    · have h1 : ¬ k.val < n1 := fun h1 => hr ⟨h0, h1⟩
      refine pad_apply_of_not_inside _ _ _ x v h hu (ix2 r k) 1 ?_
      rintro ⟨-, -, h3⟩
      apply h1
      change (k.val - 0) / (0 + 1) < n1 at h3
      simpa using h3
    · refine pad_apply_of_not_inside _ _ _ x v h hu (ix2 r k) 0 ?_
      rintro ⟨-, -, h3⟩
      apply h0
      change (r.val - 0) / (0 + 1) < n0 at h3
      simpa using h3

end PadRead

section CastRead
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastInDim_a_a1_apply {a : ℕ} (ha : a ≠ 1) (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply _ h x _ _ fun b => by
    match b with
    | ⟨0, _⟩ =>
      show i.val = if a = 1 then 0 else i.val
      rw [if_neg ha]

end CastRead

section Host
variable (m : (ℓ : Loc nD τ sig) → Buf (Elt Ideal) ℓ) (outs : Gen.Outs (F := Ideal))

theorem v1_read (c : Dev nD) (e : Fin 600000) :
    (Gen.V1 m c main_v1 (ix1 e) : BitVec 32) = m ((c : Thread nD τ).loc main_arg1) (ix2 0 e) := by
  have e1 : (Gen.V1 m c main_v1 : S600000.Idx → BitVec 32)
      = shapeCast S600000 (extractStridedSlice S1x600000 ![0, 0]
          (m ((c : Thread nD τ).loc main_arg1) : S2x600000.Idx → BitVec 32) slices_S2x600000_S1x600000_0_0)
          shapeCasts_S1x600000_S600000 := by
    show StableHlo.after hostOps0 _ (Proc.devRef .tc main_v1) = _
    after_results
    try rfl
  refine (congrFun e1 (ix1 e)).trans ?_
  rw [shapeCast_1a_a_apply]
  exact slice2_axis0_apply 0 _ _ _ _ (0 : Fin 2) rfl

theorem v3_read (c : Dev nD) (e : Fin 600000) :
    (Gen.V1 m c main_v3 (ix1 e) : BitVec 32) = m ((c : Thread nD τ).loc main_arg1) (ix2 1 e) := by
  have e1 : (Gen.V1 m c main_v3 : S600000.Idx → BitVec 32)
      = shapeCast S600000 (extractStridedSlice S1x600000 ![1, 0]
          (m ((c : Thread nD τ).loc main_arg1) : S2x600000.Idx → BitVec 32) slices_S2x600000_S1x600000_1_0)
          shapeCasts_S1x600000_S600000 := by
    show StableHlo.after hostOps0 _ (Proc.devRef .tc main_v3) = _
    after_results
    try rfl
  refine (congrFun e1 (ix1 e)).trans ?_
  rw [shapeCast_1a_a_apply]
  exact slice2_axis0_apply 1 _ _ _ _ (1 : Fin 2) rfl

theorem v12_val (c : Dev nD) (e : Fin 600064) :
    (Gen.V9 m c main_v12 (ix2 e 0) : BitVec 32)
      = if h : e.val < 600000 then m ((c : Thread nD τ).loc main_arg1) (ix2 0 ⟨e.val, h⟩) else 50000#32 := by
  rw [Gen.V9_of m c main_v12 (by decide), Gen.V8_of m c main_v12 (by decide)]
  have e7 : (Gen.V7 m c main_v12 : S600064x1.Idx → BitVec 32)
      = shapeCast S600064x1 (Gen.V6 m c main_v10 : S600064.Idx → BitVec 32) shapeCasts_S600064_S600064x1 := by
    show StableHlo.after hostOps0_6 _ (Proc.devRef .tc main_v12) = _
    after_results
    try rfl
  refine (congrFun e7 (ix2 e 0)).trans ?_
  rw [shapeCast_a_a1_apply, Gen.V6_of m c main_v10 (by decide), Gen.V5_of m c main_v10 (by decide)]
  have e4 : (Gen.V4 m c main_v10 : S600064.Idx → BitVec 32)
      = pad S600064 ![0] ![64] ![0] (Gen.V3 m c main_v1 : S600000.Idx → BitVec 32)
          (Gen.V3 m c main_c_1 : S_.Idx → BitVec 32) pads_S600000_S600064_0640 h_S_ := by
    show StableHlo.after hostOps0_3 _ (Proc.devRef .tc main_v10) = _
    after_results
    try rfl
  refine (congrFun e4 (ix1 e)).trans ?_
  rw [pad1_hi_apply]
  have ec : (Gen.V3 m c main_c_1 : S_.Idx → BitVec 32) = constantI S_ 32 50000#32 := by
    show StableHlo.after hostOps0_2 _ (Proc.devRef .tc main_c_1) = _
    after_results
    try rfl
  by_cases h : e.val < 600000
  · rw [dif_pos h, dif_pos h, Gen.V3_of m c main_v1 (by decide), Gen.V2_of m c main_v1 (by decide)]
    exact v1_read m c ⟨e.val, h⟩
  · rw [dif_neg h, dif_neg h, ec]
    rfl

theorem v13_val (c : Dev nD) (e : Fin 600064) :
    (Gen.V9 m c main_v13 (ix2 0 e) : BitVec 32)
      = if h : e.val < 600000 then m ((c : Thread nD τ).loc main_arg1) (ix2 1 ⟨e.val, h⟩) else 50000#32 := by
  rw [Gen.V9_of m c main_v13 (by decide), Gen.V8_of m c main_v13 (by decide)]
  have e7 : (Gen.V7 m c main_v13 : S1x600064.Idx → BitVec 32)
      = shapeCast S1x600064 (Gen.V6 m c main_v11 : S600064.Idx → BitVec 32) shapeCasts_S600064_S1x600064 := by
    show StableHlo.after hostOps0_6 _ (Proc.devRef .tc main_v13) = _
    after_results
    try rfl
  refine (congrFun e7 (ix2 0 e)).trans ?_
  rw [shapeCast_a_1a_apply]
  have e6 : (Gen.V6 m c main_v11 : S600064.Idx → BitVec 32)
      = pad S600064 ![0] ![64] ![0] (Gen.V5 m c main_v3 : S600000.Idx → BitVec 32)
          (Gen.V5 m c main_c_2 : S_.Idx → BitVec 32) pads_S600000_S600064_0640 h_S_ := by
    show StableHlo.after hostOps0_5 _ (Proc.devRef .tc main_v11) = _
    after_results
    try rfl
  refine (congrFun e6 (ix1 e)).trans ?_
  rw [pad1_hi_apply]
  have ec : (Gen.V5 m c main_c_2 : S_.Idx → BitVec 32) = constantI S_ 32 50000#32 := by
    show StableHlo.after hostOps0_4 _ (Proc.devRef .tc main_c_2) = _
    after_results
    try rfl
  by_cases h : e.val < 600000
  · rw [dif_pos h, dif_pos h, Gen.V5_of m c main_v3 (by decide), Gen.V4_of m c main_v3 (by decide),
      Gen.V3_of m c main_v3 (by decide), Gen.V2_of m c main_v3 (by decide)]
    exact v3_read m c ⟨e.val, h⟩
  · rw [dif_neg h, dif_neg h, ec]
    rfl

theorem v7_read (c : Dev nD) (r : Fin 50000) :
    (Gen.V1 m c main_v7 (ix1 r) : EReal) = Cert.Sage.deg (fun e => m ((c : Thread nD τ).loc main_arg1) (ix2 1 e)) r := by
  have e7 : (Gen.V1 m c main_v7 : S50000.Idx → EReal)
      = Ideal.hostScatterAdd scatter_S50000_S600000x1_S600000_n_0_0_1
          (broadcastInDim S50000 ![] bcast_S_S50000 (constant (F := Ideal) S_ .f32 0x00000000#32))
          (broadcastInDim S600000x1 ![0] bcast_S600000_S600000x1_0
            (shapeCast S600000 (extractStridedSlice S1x600000 ![1, 0]
              (m ((c : Thread nD τ).loc main_arg1) : S2x600000.Idx → BitVec 32) slices_S2x600000_S1x600000_1_0)
              shapeCasts_S1x600000_S600000))
          (broadcastInDim S600000 ![] bcast_S_S600000 (constant (F := Ideal) S_ .f32 0x3F800000#32)) := by
    show StableHlo.after hostOps0 _ (Proc.devRef .tc main_v7) = _
    after_results
    try rfl
  refine (congrFun e7 (ix1 r)).trans ?_
  rw [Cert.ScatterRead.count_apply _ (by norm_num) rfl rfl rfl rfl]
  rw [broadcastInDim_scalar_apply, constant_apply, Ideal.ofBits_zero_f32, zero_add]
  unfold Cert.Sage.deg
  show @Eq EReal _ _
  refine Finset.sum_congr rfl fun e _ => ?_
  rw [broadcastInDim_scalar_apply, constant_apply, Ideal.ofBits_one_f32,
    broadcastInDim_a_a1_apply (by norm_num), shapeCast_1a_a_apply,
    slice2_axis0_apply 1 _ _ _ _ (1 : Fin 2) rfl]
  by_cases hc : m ((c : Thread nD τ).loc main_arg1) (ix2 1 e) = BitVec.ofNat 32 r.val
  · rw [if_pos hc, if_pos (show Cert.Sage.endsAt (fun e => m ((c : Thread nD τ).loc main_arg1) (ix2 1 e)) e r from hc)]
  · rw [if_neg hc, if_neg (show ¬ Cert.Sage.endsAt (fun e => m ((c : Thread nD τ).loc main_arg1) (ix2 1 e)) e r from hc)]

theorem v9_val (c : Dev nD) (r : Fin 51200) :
    (Gen.V9 m c main_v9 (ix2 r 0) : EReal)
      = if h : r.val < 50000 then Cert.Sage.deg (fun e => m ((c : Thread nD τ).loc main_arg1) (ix2 1 e)) ⟨r.val, h⟩
        else 0 := by
  rw [Gen.V9_of m c main_v9 (by decide), Gen.V8_of m c main_v9 (by decide), Gen.V7_of m c main_v9 (by decide),
    Gen.V6_of m c main_v9 (by decide), Gen.V5_of m c main_v9 (by decide), Gen.V4_of m c main_v9 (by decide)]
  have e3 : (Gen.V3 m c main_v9 : S51200x1.Idx → EReal)
      = shapeCast S51200x1 (Gen.V2 m c main_v8 : S51200.Idx → EReal) shapeCasts_S51200_S51200x1 := by
    show StableHlo.after hostOps0_2 _ (Proc.devRef .tc main_v9) = _
    after_results
    try rfl
  refine (congrFun e3 (ix2 r 0)).trans ?_
  rw [shapeCast_a_a1_apply]
  have e2 : (Gen.V2 m c main_v8 : S51200.Idx → EReal)
      = pad S51200 ![0] ![1200] ![0] (Gen.V1 m c main_v7 : S50000.Idx → EReal)
          (sitofp (F := Ideal) .f32 (Gen.V1 m c main_c : S_.Idx → BitVec 32)) pads_S50000_S51200_012000 h_S_ := by
    show StableHlo.after hostOps0_1 _ (Proc.devRef .tc main_v8) = _
    after_results
    try rfl
  refine (congrFun e2 (ix1 r)).trans ?_
  rw [pad1_hi_apply]
  have ec : (Gen.V1 m c main_c : S_.Idx → BitVec 32) = constantI S_ 32 0#32 := by
    show StableHlo.after hostOps0 _ (Proc.devRef .tc main_c) = _
    after_results
    try rfl
  by_cases h : r.val < 50000
  · rw [dif_pos h, dif_pos h]
    exact v7_read m c ⟨r.val, h⟩
  · rw [dif_neg h, dif_neg h, ec]
    exact sitofp_zero (φ := .f32)

/-- A reference the first eight host stretches do not write holds the launch contents before the ninth. -/
theorem arg8 (c : Dev nD) (r : Ref sig .tc) (h1 : r ∉ hostOps0_W := by decide) (h2 : r ∉ hostOps0_1_W := by decide) (h3 : r ∉ hostOps0_2_W := by decide) (h4 : r ∉ hostOps0_3_W := by decide)
    (h5 : r ∉ hostOps0_4_W := by decide) (h6 : r ∉ hostOps0_5_W := by decide) (h7 : r ∉ hostOps0_6_W := by decide) (h8 : r ∉ hostOps0_7_W := by decide) :
    Gen.V8 m c r = m ((c : Thread nD τ).loc r) :=
  (Gen.V8_of m c r h8).trans <| (Gen.V7_of m c r h7).trans <| (Gen.V6_of m c r h6).trans <| (Gen.V5_of m c r h5).trans <|
  (Gen.V4_of m c r h4).trans <| (Gen.V3_of m c r h3).trans <| (Gen.V2_of m c r h2).trans <| (Gen.V1_of m c r h1).trans rfl

theorem v15_val (c : Dev nD) (r : Fin 51200) (k : Fin 128) :
    (Gen.V9 m c main_v15 (ix2 r k) : EReal)
      = if h : r.val < 50000 then m ((c : Thread nD τ).loc main_arg0) (ix2 ⟨r.val, h⟩ k) else (0 : EReal) := by
  have e9 : (Gen.V9 m c main_v15 : S51200x128.Idx → EReal)
      = truncf (F := Ideal) .bf16 (Gen.V8 m c main_v14 : S51200x128.Idx → EReal) bitsLt_bf16_f32 := by
    show StableHlo.after hostOps0_8 _ (Proc.devRef .tc main_v15) = _
    after_results
    try rfl
  refine (congrFun e9 (ix2 r k)).trans ?_
  rw [truncf_apply]
  have e8 : (Gen.V8 m c main_v14 : S51200x128.Idx → EReal)
      = pad S51200x128 ![0, 0] ![1200, 0] ![0, 0] (Gen.V7 m c main_arg0 : S50000x128.Idx → EReal)
          (sitofp (F := Ideal) .f32 (Gen.V7 m c main_c_3 : S_.Idx → BitVec 32)) pads_S50000x128_S51200x128_012000_000 h_S_ := by
    show StableHlo.after hostOps0_7 _ (Proc.devRef .tc main_v14) = _
    after_results
    try rfl
  refine (congrFun e8 (ix2 r k)).trans ?_
  rw [pad2_hi_apply]
  have ec : (Gen.V7 m c main_c_3 : S_.Idx → BitVec 32) = constantI S_ 32 0#32 := by
    show StableHlo.after hostOps0_6 _ (Proc.devRef .tc main_c_3) = _
    after_results
    try rfl
  by_cases h : r.val < 50000
  · rw [dif_pos h, dif_pos ⟨h, k.isLt⟩]
    exact congrFun ((Gen.V8_of m c main_arg0 (by decide)).symm.trans (arg8 m c main_arg0)) _
  · rw [dif_neg h, dif_neg (fun hh => h hh.1), ec]
    exact sitofp_zero (φ := .f32)

theorem v17_val (c : Dev nD) (k : Fin 128) (j : Fin 64) :
    (Gen.V9 m c main_v17 (ix2 k j) : EReal) = m ((c : Thread nD τ).loc main_arg2) (ix2 j k) := by
  have e9 : (Gen.V9 m c main_v17 : S128x64.Idx → EReal)
      = truncf (F := Ideal) .bf16 (transpose S128x64 [1, 0] (Gen.V8 m c main_arg2 : S64x128.Idx → EReal)
          transposes_S64x128_S128x64_1_0) bitsLt_bf16_f32 := by
    show StableHlo.after hostOps0_8 _ (Proc.devRef .tc main_v17) = _
    after_results
    try rfl
  refine (congrFun e9 (ix2 k j)).trans ?_
  rw [truncf_apply, transpose_ix2_apply]
  exact congrFun (arg8 m c main_arg2) _

theorem v19_val (c : Dev nD) (k : Fin 128) (j : Fin 64) :
    (Gen.V9 m c main_v19 (ix2 k j) : EReal) = m ((c : Thread nD τ).loc main_arg4) (ix2 j k) := by
  have e9 : (Gen.V9 m c main_v19 : S128x64.Idx → EReal)
      = truncf (F := Ideal) .bf16 (transpose S128x64 [1, 0] (Gen.V8 m c main_arg4 : S64x128.Idx → EReal)
          transposes_S64x128_S128x64_1_0) bitsLt_bf16_f32 := by
    show StableHlo.after hostOps0_8 _ (Proc.devRef .tc main_v19) = _
    after_results
    try rfl
  refine (congrFun e9 (ix2 k j)).trans ?_
  rw [truncf_apply, transpose_ix2_apply]
  exact congrFun (arg8 m c main_arg4) _

theorem v20_val (c : Dev nD) (j : Fin 64) :
    (Gen.V9 m c main_v20 (ix2 0 j) : EReal) = m ((c : Thread nD τ).loc main_arg3) (ix1 j) := by
  have e9 : (Gen.V9 m c main_v20 : S1x64.Idx → EReal)
      = shapeCast S1x64 (Gen.V8 m c main_arg3 : S64.Idx → EReal) shapeCasts_S64_S1x64 := by
    show StableHlo.after hostOps0_8 _ (Proc.devRef .tc main_v20) = _
    after_results
    try rfl
  refine (congrFun e9 (ix2 0 j)).trans ?_
  rw [shapeCast_a_1a_apply]
  exact congrFun (arg8 m c main_arg3) _

/-- A reference no call writes holds after the third call what it held before the first. -/
theorem p11 (c : Dev nD) (b : Ref sig .tc) (h1 : b ∉ ([main_v21] : List (Ref sig .tc)) := by decide) (h2 : b ∉ ([main_v22] : List (Ref sig .tc)) := by decide) :
    Gen.V11 m outs c b = Gen.V9 m c b := (Gen.V11_of m outs c b h2).trans (Gen.V10_of m outs c b h1)
theorem p12 (c : Dev nD) (b : Ref sig .tc) (h1 : b ∉ ([main_v21] : List (Ref sig .tc)) := by decide) (h2 : b ∉ ([main_v22] : List (Ref sig .tc)) := by decide)
    (h3 : b ∉ ([main_v23] : List (Ref sig .tc)) := by decide) : Gen.V12 m outs c b = Gen.V9 m c b :=
  (Gen.V12_of m outs c b h3).trans (p11 m outs c b h1 h2)
theorem arg12 (c : Dev nD) (r : Ref sig .tc) (h : Gen.V8 m c r = m ((c : Thread nD τ).loc r)) (h9 : r ∉ hostOps0_8_W := by decide)
    (h1 : r ∉ ([main_v21] : List (Ref sig .tc)) := by decide) (h2 : r ∉ ([main_v22] : List (Ref sig .tc)) := by decide) (h3 : r ∉ ([main_v23] : List (Ref sig .tc)) := by decide) :
    Gen.V12 m outs c r = m ((c : Thread nD τ).loc r) := (p12 m outs c r h1 h2 h3).trans ((Gen.V9_of m c r h9).trans h)

theorem v29_val (c : Dev nD) (k : Fin 64) (j : Fin 128) :
    (Gen.V18 m outs c main_v29 (ix2 k j) : EReal)
      = if h : j.val < 40 then m ((c : Thread nD τ).loc main_arg5) (ix2 ⟨j.val, h⟩ k) else (0 : EReal) := by
  rw [Gen.V18_of m outs c main_v29 (by decide), Gen.V17_of m outs c main_v29 (by decide),
    Gen.V16_of m outs c main_v29 (by decide), Gen.V15_of m outs c main_v29 (by decide)]
  have e14 : (Gen.V14 m outs c main_v29 : S64x128.Idx → EReal)
      = pad S64x128 ![0, 0] ![0, 88] ![0, 0] (Gen.V13 m outs c main_v25 : S64x40.Idx → EReal)
          (sitofp (F := Ideal) .bf16 (Gen.V13 m outs c main_c_4 : S_.Idx → BitVec 32)) pads_S64x40_S64x128_000_0880 h_S_ := by
    show StableHlo.after hostOps3_1 _ (Proc.devRef .tc main_v29) = _
    after_results
    try rfl
  refine (congrFun e14 (ix2 k j)).trans ?_
  rw [pad2_hi_apply]
  have ec : (Gen.V13 m outs c main_c_4 : S_.Idx → BitVec 32) = constantI S_ 32 0#32 := by
    show StableHlo.after hostOps3 _ (Proc.devRef .tc main_c_4) = _
    after_results
    try rfl
  have e13 : (Gen.V13 m outs c main_v25 : S64x40.Idx → EReal)
      = truncf (F := Ideal) .bf16 (transpose S64x40 [1, 0] (Gen.V12 m outs c main_arg5 : S40x64.Idx → EReal)
          transposes_S40x64_S64x40_1_0) bitsLt_bf16_f32 := by
    show StableHlo.after hostOps3 _ (Proc.devRef .tc main_v25) = _
    after_results
    try rfl
  by_cases h : j.val < 40
  · rw [dif_pos h, dif_pos ⟨k.isLt, h⟩]
    refine (congrFun e13 _).trans ?_
    rw [truncf_apply, transpose_ix2_apply]
    exact congrFun (arg12 m outs c main_arg5 (arg8 m c main_arg5)) _
  · rw [dif_neg h, dif_neg (fun hh => h hh.2), ec]
    exact sitofp_zero (φ := .bf16)

theorem v31_val (c : Dev nD) (k : Fin 64) (j : Fin 128) :
    (Gen.V18 m outs c main_v31 (ix2 k j) : EReal)
      = if h : j.val < 40 then m ((c : Thread nD τ).loc main_arg7) (ix2 ⟨j.val, h⟩ k) else (0 : EReal) := by
  have e18 : (Gen.V18 m outs c main_v31 : S64x128.Idx → EReal)
      = pad S64x128 ![0, 0] ![0, 88] ![0, 0] (Gen.V17 m outs c main_v27 : S64x40.Idx → EReal)
          (sitofp (F := Ideal) .bf16 (Gen.V17 m outs c main_c_6 : S_.Idx → BitVec 32)) pads_S64x40_S64x128_000_0880 h_S_ := by
    show StableHlo.after hostOps3_5 _ (Proc.devRef .tc main_v31) = _
    after_results
    try rfl
  refine (congrFun e18 (ix2 k j)).trans ?_
  rw [pad2_hi_apply]
  have ec : (Gen.V17 m outs c main_c_6 : S_.Idx → BitVec 32) = constantI S_ 32 0#32 := by
    show StableHlo.after hostOps3_4 _ (Proc.devRef .tc main_c_6) = _
    after_results
    try rfl
  have e13 : (Gen.V13 m outs c main_v27 : S64x40.Idx → EReal)
      = truncf (F := Ideal) .bf16 (transpose S64x40 [1, 0] (Gen.V12 m outs c main_arg7 : S40x64.Idx → EReal)
          transposes_S40x64_S64x40_1_0) bitsLt_bf16_f32 := by
    show StableHlo.after hostOps3 _ (Proc.devRef .tc main_v27) = _
    after_results
    try rfl
  by_cases h : j.val < 40
  · rw [dif_pos h, dif_pos ⟨k.isLt, h⟩, Gen.V17_of m outs c main_v27 (by decide), Gen.V16_of m outs c main_v27 (by decide),
      Gen.V15_of m outs c main_v27 (by decide), Gen.V14_of m outs c main_v27 (by decide)]
    refine (congrFun e13 _).trans ?_
    rw [truncf_apply, transpose_ix2_apply]
    exact congrFun (arg12 m outs c main_arg7 (arg8 m c main_arg7)) _
  · rw [dif_neg h, dif_neg (fun hh => h hh.2), ec]
    exact sitofp_zero (φ := .bf16)

theorem v30_val (c : Dev nD) (j : Fin 128) :
    (Gen.V18 m outs c main_v30 (ix2 0 j) : EReal)
      = if h : j.val < 40 then m ((c : Thread nD τ).loc main_arg6) (ix1 ⟨j.val, h⟩) else (0 : EReal) := by
  rw [Gen.V18_of m outs c main_v30 (by decide), Gen.V17_of m outs c main_v30 (by decide)]
  have e16 : (Gen.V16 m outs c main_v30 : S1x128.Idx → EReal)
      = pad S1x128 ![0, 0] ![0, 88] ![0, 0] (Gen.V15 m outs c main_v28 : S1x40.Idx → EReal)
          (sitofp (F := Ideal) .f32 (Gen.V15 m outs c main_c_5 : S_.Idx → BitVec 32)) pads_S1x40_S1x128_000_0880 h_S_ := by
    show StableHlo.after hostOps3_3 _ (Proc.devRef .tc main_v30) = _
    after_results
    try rfl
  refine (congrFun e16 (ix2 0 j)).trans ?_
  rw [pad2_hi_apply]
  have ec : (Gen.V15 m outs c main_c_5 : S_.Idx → BitVec 32) = constantI S_ 32 0#32 := by
    show StableHlo.after hostOps3_2 _ (Proc.devRef .tc main_c_5) = _
    after_results
    try rfl
  have e13 : (Gen.V13 m outs c main_v28 : S1x40.Idx → EReal)
      = shapeCast S1x40 (Gen.V12 m outs c main_arg6 : S40.Idx → EReal) shapeCasts_S40_S1x40 := by
    show StableHlo.after hostOps3 _ (Proc.devRef .tc main_v28) = _
    after_results
    try rfl
  by_cases h : j.val < 40
  · rw [dif_pos h, dif_pos ⟨Nat.one_pos, h⟩, Gen.V15_of m outs c main_v28 (by decide), Gen.V14_of m outs c main_v28 (by decide)]
    refine (congrFun e13 _).trans ?_
    refine (shapeCast_a_1a_apply _ _ _ _).trans ?_
    exact congrFun (arg12 m outs c main_arg6 (arg8 m c main_arg6)) _
  · rw [dif_neg h, dif_neg (fun hh => h hh.2), ec]
    exact sitofp_zero (φ := .f32)

theorem v36_val (c : Dev nD) (r : Fin 50000) (j : Fin 40) :
    (Gen.V22 m outs c main_v36 (ix2 r j) : EReal) = outs 21 main_v34 c (ix2 ⟨r.val, by omega⟩ ⟨j.val, by omega⟩) := by
  have e22 : (Gen.V22 m outs c main_v36 : S50000x40.Idx → EReal)
      = extractStridedSlice S50000x40 ![0, 0] (extractStridedSlice S51200x40 ![0, 0]
          (Gen.V21 m outs c main_v34 : S51200x128.Idx → EReal) slices_S51200x128_S51200x40_0_0)
          slices_S51200x40_S50000x40_0_0 := by
    show StableHlo.after hostOps6 _ (Proc.devRef .tc main_v36) = _
    after_results
    try rfl
  refine (congrFun e22 (ix2 r j)).trans ?_
  rw [slice2_axis0_apply 0 _ _ r j ⟨r.val, by omega⟩ (by simp),
    slice2_axis1_apply 0 _ _ _ j ⟨j.val, by omega⟩ (by simp)]
  have e21 : Gen.V21 m outs c main_v34 = outs 21 main_v34 c := Function.update_self ..
  exact congrFun e21 _

end Host

end Cert.KernelIdeal.Hand

end
-- ==== Proof.KI.R0ValIdx.lean ====
import proofs.«421913_j33337536151789_3_alg».proof.Proof.KI.R0Defs
import Idealize.ShloMosaic.Lib.ValueIdx
import Idealize.ShloMosaic.Lib.Pipeline.Value

set_option maxRecDepth 16384
set_option Elab.async false

noncomputable section

namespace Cert.KernelIdeal.Hand

open Idealize.ShloMosaic Idealize.ShloMosaic.TcCoe Idealize.SL.Sem
open Idealize.ShloMosaic.Pipeline (Dat Cfg Window)
open Cert.KernelIdeal Cert.KernelIdeal.Gen Idealize.ShloMosaic.ValueIdx

theorem idx0_0 : ∀ t : Fin cfg0.N, win0_0.index t (0 : Fin 2) = t.val / 25 ∧ win0_0.index t (1 : Fin 2) = 0 :=
  (by decide +kernel : ∀ t : Fin grid0.N, _)

theorem idx0_1 : ∀ t : Fin cfg0.N, win0_1.index t (0 : Fin 2) = t.val % 25 ∧ win0_1.index t (1 : Fin 2) = 0 :=
  (by decide +kernel : ∀ t : Fin grid0.N, _)

theorem idx0_2 : ∀ t : Fin cfg0.N, win0_2.index t (0 : Fin 2) = t.val / 25 ∧ win0_2.index t (1 : Fin 2) = 0 :=
  (by decide +kernel : ∀ t : Fin grid0.N, _)

theorem coords0_1 (t : Fin cfg0.N) : (grid0.coords t 1).val = t.val % 25 := by
  show t.val / grid0.stride 1 % 25 = t.val % 25
  rw [show grid0.stride 1 = 1 from by decide, Nat.div_one]

section Blocks
variable {F : FTy → Type} [FloatOps F]
variable (V : (c : Dev nD) → (b : Ref sig .tc) → Buf (Elt F) ((c : Thread nD τ).loc b))

theorem iblk0_0_apply (c : Dev nD) (t : Fin cfg0.N) (r : Fin 1024) (e : Fin 600064) (he : e.val = 1024 * (t.val / 25) + r.val) :
    (iblk0 V c 0 t : Vec F S1024x1 .i32) (ix2 r 0) = V c main_v12 (ix2 e 0) := by
  show V c main_v12 (((cfg0.win 0).blk t).view.emb (ix2 r 0)) = V c main_v12 (ix2 e 0)
  refine congrArg (V c main_v12) (funext fun a => Fin.ext ?_)
  match a with
  | ⟨0, _⟩ => show win0_0.index t (0 : Fin 2) * 1024 + 1 * r.val = e.val; rw [(idx0_0 t).1]; omega
  | ⟨1, _⟩ => show win0_0.index t (1 : Fin 2) * 1 + 1 * 0 = 0; rw [(idx0_0 t).2]

theorem iblk0_1_apply (c : Dev nD) (t : Fin cfg0.N) (n : Fin 2048) (d : Fin 128) (s : Fin 51200) (hs : s.val = 2048 * (t.val % 25) + n.val) :
    (iblk0 V c 1 t : Vec F S2048x128 .bf16) (ix2 n d) = V c main_v15 (ix2 s d) := by
  show V c main_v15 (((cfg0.win 1).blk t).view.emb (ix2 n d)) = V c main_v15 (ix2 s d)
  refine congrArg (V c main_v15) (funext fun a => Fin.ext ?_)
  match a with
  | ⟨0, _⟩ => show win0_1.index t (0 : Fin 2) * 2048 + 1 * n.val = s.val; rw [(idx0_1 t).1]; omega
  | ⟨1, _⟩ => show win0_1.index t (1 : Fin 2) * 128 + 1 * d.val = d.val; rw [(idx0_1 t).2]; omega

end Blocks

end Cert.KernelIdeal.Hand

end
-- ==== Proof.ValLib.lean ====
import Idealize.ShloMosaic.Lib.StackMember
import Idealize.ShloMosaic.Lib.ValueLayout
import Idealize.ShloMosaic.Lib.IdealHost
import Idealize.ShloMosaic.Lib.Affine
import Mathlib.Data.BitVec
import Mathlib.Algebra.BigOperators.Fin
import Mathlib.Logic.Equiv.Fin.Basic

noncomputable section

namespace Cert.ValLib

open Idealize.ShloMosaic Idealize.ShloMosaic.TcCoe Idealize.ShloMosaic.ValueIdx

-- An m×k by k×n product into the zero block, read at (r, d), is the sum over the contracted axis.
theorem matmul_plain_apply {m k n : ℕ} (φ₁ φ₂ : FTy) (L : FVec Ideal ⟨2, ![m, k]⟩ φ₁) (R : FVec Ideal ⟨2, ![k, n]⟩ φ₂)
    (r : Fin m) (d : Fin n) :
    matmul (DotDims.plain m k n) none L R (constant (F := Ideal) ⟨2, ![m, n]⟩ .f32 0x00000000#32) (ix2 r d)
      = ∑ c : Fin k, L (ix2 r c) * R (ix2 c d) :=
  (congrFun (matmul_zero_eq_dotGeneral _ none L R) _).trans (StackMember.dotGeneral_plain_apply none L R r d)

-- A column laid along every row reads, at (p, c), the column's entry at p.
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

-- The 0/1 word of an equality test, widened and converted, is 1 on equal words and 0 otherwise.
theorem sel_eq (x y : BitVec 32) :
    (FloatOps.sitofp (F := Ideal) .f32 ((IntOp.cmpi .eq x y).setWidth 32) : EReal) = if x = y then 1 else 0 := by
  show (((((IntOp.cmpi .eq x y).setWidth 32).toInt : ℤ) : ℝ) : EReal) = _
  rw [toInt_setWidth_bit]
  by_cases h : x = y
  · rw [if_pos h, IntOp.cmpi_eq.mpr h]; norm_num
  · rw [if_neg h, eq_zero_of_ne_one (fun hc => h (IntOp.cmpi_eq.mp hc))]; norm_num

-- For a word of value below 51200: the word n is that word minus 2048·k exactly when the value is 2048·k + n.
theorem word_eq_iff (w : BitVec 32) (hw : w.toNat < 51200) (k n : ℕ) (hk : k < 25) (hn : n < 2048) :
    BitVec.ofNat 32 n = w - BitVec.ofNat 32 k * 2048#32 ↔ w.toNat = 2048 * k + n := by
  bv_omega
theorem tile_sum (w : BitVec 32) (hw : w.toNat < 51200) (k : ℕ) (hk : k < 25) (f : Fin 51200 → EReal) :
    (∑ n : Fin 2048, if BitVec.ofNat 32 n.val = w - BitVec.ofNat 32 k * 2048#32
        then f ⟨2048 * k + n.val, by have := n.isLt; omega⟩ else 0)
      = if w.toNat / 2048 = k then f ⟨w.toNat, hw⟩ else 0 := by
  by_cases hq : w.toNat / 2048 = k
  · rw [if_pos hq, Finset.sum_eq_single (⟨w.toNat % 2048, Nat.mod_lt _ (by norm_num)⟩ : Fin 2048)]
    · rw [if_pos ((word_eq_iff w hw k _ hk (Nat.mod_lt _ (by norm_num))).mpr (by omega))]
      exact congrArg f (Fin.ext (by show 2048 * k + w.toNat % 2048 = w.toNat; omega))
    · intro n _ hne
      rw [if_neg]
      intro he
      have h1 := (word_eq_iff w hw k n.val hk n.isLt).mp he
      exact hne (Fin.ext (by show n.val = w.toNat % 2048; omega))
    · intro h; exact absurd (Finset.mem_univ _) h
  · rw [if_neg hq]
    refine Finset.sum_eq_zero fun n _ => ?_
    rw [if_neg]
    intro he
    have h1 := (word_eq_iff w hw k n.val hk n.isLt).mp he
    have h2 := n.isLt
    exact hq (by omega)

theorem word_iff (x : BitVec 32) (I r : ℕ) :
    BitVec.ofNat 32 r = x - BitVec.ofNat 32 I * 2048#32 ↔ x = BitVec.ofNat 32 (2048 * I + r) := by
  have e : BitVec.ofNat 32 (2048 * I + r) = BitVec.ofNat 32 I * 2048#32 + BitVec.ofNat 32 r := by
    rw [BitVec.ofNat_add, BitVec.ofNat_mul, BitVec.mul_comm]
  rw [eq_sub_iff_add_eq, e, add_comm]
  exact eq_comm
theorem sum_edges {M : Type*} [AddCommMonoid M] (f : Fin 600064 → M) :
    ∑ s : Fin 586, ∑ j : Fin 1024, f ⟨1024 * s.val + j.val, by omega⟩ = ∑ e : Fin 600064, f e := by
  rw [← Fintype.sum_prod_type' (f := fun (s : Fin 586) (j : Fin 1024) => f ⟨1024 * s.val + j.val, by omega⟩)]
  refine (Finset.sum_congr rfl fun p _ => ?_).trans (Equiv.sum_comp (finProdFinEquiv (m := 586) (n := 1024)) f)
  exact congrArg f (Fin.ext (by simp [finProdFinEquiv]; omega))

theorem mask_word (t r : Nat) (ht : t < 25) (hr : r < 2048) :
    IntOp.cmpi .slt (IntOp.addi (BitVec.ofNat 32 r) (Scalar.muli (BitVec.ofNat 32 t) 2048#32)) 50000#32
      = if 2048 * t + r < 50000 then 1#1 else 0#1 := by
  have e : IntOp.addi (BitVec.ofNat 32 r) (Scalar.muli (BitVec.ofNat 32 t) 2048#32) = BitVec.ofNat 32 (r + t * 2048) := by
    show BitVec.ofNat 32 r + BitVec.ofNat 32 t * BitVec.ofNat 32 2048 = _
    rw [← BitVec.ofNat_mul, ← BitVec.ofNat_add]
  rw [e]
  show BitVec.ofBool ((BitVec.ofNat 32 (r + t * 2048)).slt 50000#32) = _
  have hn : (BitVec.ofNat 32 (r + t * 2048)).toInt = ((r + t * 2048 : Nat) : Int) := by
    rw [BitVec.toInt_eq_toNat_of_lt (by rw [BitVec.toNat_ofNat]; omega), BitVec.toNat_ofNat]
    congr 1
    omega
  have h5 : (50000#32 : BitVec 32).toInt = 50000 := by decide
  rw [BitVec.slt_eq_decide, hn, h5]
  by_cases h : 2048 * t + r < 50000
  · rw [if_pos h, decide_eq_true (by omega)]; rfl
  · rw [if_neg h, decide_eq_false (by omega)]; rfl

end Cert.ValLib

end
-- ==== Proof.KI.R0ValPay.lean ====
import proofs.«421913_j33337536151789_3_alg».proof.Proof.Gen.KernelIdeal.Skeleton
import Idealize.ShloMosaic.Lib.ValueIdx
import Idealize.ShloMosaic.Lib.Pipeline.Value
import Idealize.ShloMosaic.Lib.KernelVsHost
import Idealize.ShloMosaic.PureOps.Ideal.Laws
import proofs.«421913_j33337536151789_3_alg».proof.Proof.ValLib

noncomputable section

namespace Cert.KernelIdeal.Hand

open Idealize.ShloMosaic Idealize.SL.Sem
open Cert.KernelIdeal Cert.KernelIdeal.Gen Idealize.ShloMosaic.ValueIdx Cert.ValLib

theorem k0_pay2_apply (r : Fin 1024) (n : Fin 2048) : k0_pay2 (ix2 r n) = BitVec.ofNat 32 n.val := by
  unfold k0_pay2
  simp only [shapeCast_self]
  exact iota_single_apply .tc S1024x2048 32 1 iota_S1024x2048_d1_w32 (ix2 r n)

theorem k0_pay3_apply (i : grid0.Coords) (x0 : Vec Ideal S1024x1 .i32) (acc : Vec Ideal S1024x128 .f32)
    (xb : Vec Ideal S2048x128 .bf16) (r : Fin 1024) (d : Fin 128) :
    k0_pay3 (F := Ideal) i x0 k0_pay2 acc xb (ix2 r d)
      = acc (ix2 r d) + ∑ n : Fin 2048,
          (if BitVec.ofNat 32 n.val = x0 (ix2 r 0) - BitVec.ofNat 32 (i 1).val * 2048#32 then xb (ix2 n d) else 0) := by
  unfold k0_pay3
  simp only [shapeCast_self]
  refine (addf_apply _ _ _).trans (congrArg (acc (ix2 r d) + ·) ?_)
  refine (matmul_plain_apply .bf16 .bf16 _ _ r d).trans (Finset.sum_congr rfl fun n _ => ?_)
  refine (congrArg (· * xb (ix2 n d)) ((sel_eq _ _).trans (by rw [k0_pay2_apply, broadcastTo_a1_ab_apply]))).trans ?_
  exact boole_mul _ _

theorem k0_pay1_apply (r : Fin 1024) (d : Fin 128) : k0_pay1 (F := Ideal) (ix2 r d) = 0 := by
  unfold k0_pay1
  simp only [shapeCast_self]
  show Ideal.ofBits .f32 0x00000000#32 = 0
  exact Ideal.ofBits_zero_f32

end Cert.KernelIdeal.Hand

end
-- ==== Proof.KI.R0ValAcc.lean ====
import proofs.«421913_j33337536151789_3_alg».proof.Proof.KI.R0ValIdx
import proofs.«421913_j33337536151789_3_alg».proof.Proof.KI.R0ValPay
import proofs.«421913_j33337536151789_3_alg».proof.Proof.ValLib

set_option maxRecDepth 16384

noncomputable section

namespace Cert.KernelIdeal.Hand

open Idealize.ShloMosaic Idealize.ShloMosaic.TcCoe Idealize.SL.Sem
open Idealize.ShloMosaic.Pipeline (Dat Cfg Window)
open Cert.KernelIdeal Cert.KernelIdeal.Gen Idealize.ShloMosaic.ValueIdx Cert.ValLib

section Row
variable (V : (c : Dev nD) → (b : Ref sig .tc) → Buf (Elt Ideal) ((c : Thread nD τ).loc b))

abbrev src0 (c : Dev nD) (e : Fin 600064) : BitVec 32 := V c main_v12 (ix2 e 0)

abbrev feat0 (c : Dev nD) (s : Fin 51200) (d : Fin 128) : EReal := V c main_v15 (ix2 s d)

theorem add0_eq (c : Dev nD) (t : Fin cfg0.N) (e : Fin 600064) (r : Fin 1024) (he : e.val = 1024 * (t.val / 25) + r.val)
    (d : Fin 128) (hw : (src0 V c e).toNat < 51200) (acc : Vec Ideal S1024x128 .f32) :
    k0_pay3 (F := Ideal) (grid0.coords t) (iblk0 V c 0 t) k0_pay2 acc (iblk0 V c 1 t) (ix2 r d)
      = acc (ix2 r d) + if (src0 V c e).toNat / 2048 = t.val % 25 then feat0 V c ⟨(src0 V c e).toNat, hw⟩ d else 0 := by
  refine (k0_pay3_apply (grid0.coords t) (iblk0 V c 0 t) acc (iblk0 V c 1 t) r d).trans ?_
  refine congrArg (acc (ix2 r d) + ·) ?_
  have hk : t.val % 25 < 25 := Nat.mod_lt _ (by norm_num)
  rw [iblk0_0_apply V c t r e he, coords0_1 t]
  refine Eq.trans (Finset.sum_congr rfl fun n _ => ?_)
    (tile_sum (src0 V c e) hw (t.val % 25) hk (fun s => feat0 V c s d))
  rw [iblk0_1_apply V c t n d ⟨2048 * (t.val % 25) + n.val, by have := n.isLt; omega⟩ rfl]

theorem acc0_row (c : Dev nD) (e : Fin 600064) (d : Fin 128) (hw : (src0 V c e).toNat < 51200) :
    ∀ (k : ℕ) (t : Fin cfg0.N), t.val = 25 * (e.val / 1024) + k → k < 25 →
      acc0 (F := Ideal) V c t.val t.isLt (ix2 ⟨e.val % 1024, Nat.mod_lt _ (by norm_num)⟩ d)
        = if (src0 V c e).toNat / 2048 ≤ k then feat0 V c ⟨(src0 V c e).toNat, hw⟩ d else 0
  | 0, t, ht, _ => by
    have h0 : t.val % 25 = 0 := by omega
    rw [acc0_first V c t h0]
    refine (add0_eq V c t e ⟨e.val % 1024, Nat.mod_lt _ (by norm_num)⟩
      (by show e.val = 1024 * (t.val / 25) + e.val % 1024; omega) d hw (k0_pay1 (F := Ideal))).trans ?_
    rw [k0_pay1_apply, zero_add, h0]
    exact if_congr (by omega) rfl rfl
  | k + 1, t, ht, hk => by
    have h0 : ¬ t.val % 25 = 0 := by omega
    have hm : t.val % 25 = k + 1 := by omega
    rw [acc0_next V c t h0]
    refine (add0_eq V c t e ⟨e.val % 1024, Nat.mod_lt _ (by norm_num)⟩
      (by show e.val = 1024 * (t.val / 25) + e.val % 1024; omega) d hw
      (acc0 (F := Ideal) V c (t.val - 1) (Nat.lt_of_le_of_lt (Nat.sub_le _ _) t.isLt))).trans ?_
    have ih : acc0 (F := Ideal) V c (t.val - 1) (Nat.lt_of_le_of_lt (Nat.sub_le _ _) t.isLt)
          (ix2 ⟨e.val % 1024, Nat.mod_lt _ (by norm_num)⟩ d)
        = if (src0 V c e).toNat / 2048 ≤ k then feat0 V c ⟨(src0 V c e).toNat, hw⟩ d else 0 :=
      acc0_row c e d hw k ⟨t.val - 1, Nat.lt_of_le_of_lt (Nat.sub_le _ _) t.isLt⟩ (by show t.val - 1 = _; omega) (by omega)
    rw [ih, hm]
    by_cases h1 : (src0 V c e).toNat / 2048 ≤ k
    · rw [if_pos h1, if_neg (by omega), if_pos (by omega), add_zero]
    · by_cases h2 : (src0 V c e).toNat / 2048 = k + 1
      · rw [if_neg h1, if_pos h2, if_pos (by omega), zero_add]
      · rw [if_neg h1, if_neg h2, if_neg (by omega), add_zero]

end Row

end Cert.KernelIdeal.Hand

end
-- ==== Proof.KI.R0Val.lean ====
import proofs.«421913_j33337536151789_3_alg».proof.Proof.KI.R0ValAcc

set_option maxRecDepth 16384

noncomputable section

namespace Cert.KernelIdeal.Hand

open Idealize.ShloMosaic Idealize.ShloMosaic.TcCoe Idealize.SL.Sem
open Idealize.ShloMosaic.Pipeline (Dat Cfg Window)
open Cert.KernelIdeal Cert.KernelIdeal.Gen Idealize.ShloMosaic.ValueIdx

variable (V : (c : Dev nD) → (b : Ref sig .tc) → Buf (Elt Ideal) ((c : Thread nD τ).loc b))

theorem acc0_congr (c : Dev nD) {n n' : ℕ} (hn : n < cfg0.N) (hn' : n' < cfg0.N) (h : n = n')
    {r r' : Fin 1024} (hr : r.val = r'.val) {d d' : Fin 128} (hd : d.val = d'.val) :
    acc0 (F := Ideal) V c n hn (ix2 r d) = acc0 (F := Ideal) V c n' hn' (ix2 r' d') := by
  subst h; obtain rfl := Fin.ext hr; obtain rfl := Fin.ext hd; rfl

theorem last0_lt (j : S600064x128.Idx) : 25 * ((j 0).val / 1024) + 24 < cfg0.N := by
  have h0 := idx2_lt0 j
  show _ < grid0.N
  rw [N_0]; omega

def G0 (c : Dev nD) : S600064x128.Idx → EReal := fun j =>
  acc0 (F := Ideal) V c (25 * ((j 0).val / 1024) + 24) (last0_lt j)
    (ix2 ⟨(j 0).val % 1024, Nat.mod_lt _ (by norm_num)⟩ ⟨(j 1).val, idx2_lt1 j⟩)

theorem flushed0_eq (c : Dev nD) (t : Fin cfg0.N) (hf : (cfg0.win 2).flush t = true) :
    (dat0 (F := Ideal) V c).flushed 2 t = ((cfg0.win 2).blk t).view.read (Elt Ideal) (G0 V c) := by
  have h24 : t.val % 25 = 24 := (flush0_2 t).mp hf
  show (cfg0.win 2).cut (grid0.coords t) ((dat0 (F := Ideal) V c).after 2 t) = _
  rw [after0_2]
  funext y
  obtain ⟨r, d, rfl⟩ : ∃ (r : Fin 1024) (d : Fin 128), y = ix2 r d := ⟨y 0, y 1, eq_ix2 y⟩
  show acc0 (F := Ideal) V c t.val t.isLt (ix2 r d) = G0 V c (((cfg0.win 2).blk t).view.emb (ix2 r d))
  have e0 : ((((cfg0.win 2).blk t).view.emb (ix2 r d)) 0).val = win0_2.index t (0 : Fin 2) * 1024 + 1 * r.val := rfl
  have e1 : ((((cfg0.win 2).blk t).view.emb (ix2 r d)) 1).val = win0_2.index t (1 : Fin 2) * 128 + 1 * d.val := rfl
  rw [(idx0_2 t).1] at e0
  rw [(idx0_2 t).2] at e1
  unfold G0
  exact acc0_congr V c _ _ (by rw [e0]; omega) (by show r.val = _ % 1024; rw [e0]; have := r.isLt; omega) (by show d.val = _; rw [e1]; omega)

theorem cover0 (i : S600064x128.Idx) : ∃ t : Fin cfg0.N, (cfg0.win 2).flush t = true ∧ i ∈ ((cfg0.win 2).blk t).view.set := by
  have h0 := idx2_lt0 i
  have h1 := idx2_lt1 i
  refine ⟨⟨25 * ((i 0).val / 1024) + 24, last0_lt i⟩, (flush0_2 _).mpr (by show (25 * ((i 0).val / 1024) + 24) % 25 = 24; omega), ?_⟩
  show i ∈ ((View.whole main_v21).slice (win0_2.rect ⟨25 * ((i 0).val / 1024) + 24, last0_lt i⟩)).set
  rw [View.set_slice_whole, Rect.mem_set_unit]
  obtain ⟨q0, q1⟩ := idx0_2 ⟨25 * ((i 0).val / 1024) + 24, last0_lt i⟩
  intro a
  match a with
  | ⟨0, _⟩ =>
    show win0_2.index _ (0 : Fin 2) * 1024 ≤ (i 0).val ∧ (i 0).val < win0_2.index _ (0 : Fin 2) * 1024 + 1024
    rw [q0]; show (25 * ((i 0).val / 1024) + 24) / 25 * 1024 ≤ (i 0).val ∧ (i 0).val < (25 * ((i 0).val / 1024) + 24) / 25 * 1024 + 1024; omega
  | ⟨1, _⟩ =>
    show win0_2.index _ (1 : Fin 2) * 128 ≤ (i 1).val ∧ (i 1).val < win0_2.index _ (1 : Fin 2) * 128 + 128
    rw [q1]; omega

theorem final0 (c : Dev nD) : (dat0 (F := Ideal) V c).arrAt 2 cfg0.N = G0 V c :=
  (dat0 (F := Ideal) V c).arrAt_eq_of_cover 2 (G0 V c) (flushed0_eq V c) cover0

theorem gather0_val (c : Dev nD) (e : Fin 600064) (d : Fin 128) (hs : ((V c main_v12) (ix2 e 0)).toNat < 51200) :
    (dat0 (F := Ideal) V c).arrAt 2 cfg0.N (ix2 e d) = V c main_v15 (ix2 ⟨((V c main_v12) (ix2 e 0)).toNat, hs⟩ d) := by
  rw [final0]
  show acc0 (F := Ideal) V c (25 * (e.val / 1024) + 24) _ (ix2 ⟨e.val % 1024, _⟩ ⟨d.val, _⟩) = feat0 V c ⟨(src0 V c e).toNat, hs⟩ d
  have hs' : (src0 V c e).toNat < 51200 := hs
  refine (acc0_row V c e d hs' 24 ⟨25 * (e.val / 1024) + 24, last0_lt (ix2 e d)⟩ rfl (by norm_num)).trans ?_
  exact if_pos (by omega)

end Cert.KernelIdeal.Hand

end
-- ==== Proof.KI.R1ValPay.lean ====
import proofs.«421913_j33337536151789_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«421913_j33337536151789_3_alg».proof.Proof.ValLib

noncomputable section

namespace Cert.KernelIdeal.Hand

open Idealize.ShloMosaic Idealize.ShloMosaic.ValueIdx
open Cert.KernelIdeal Cert.KernelIdeal.Gen Cert.ValLib

theorem k1_pay1_apply (r : Fin 2048) (d : Fin 128) : (k1_pay1 (F := Ideal)) (ix2 r d) = 0 := by
  unfold k1_pay1
  exact (congrFun (shapeCast_self _ _) (ix2 r d)).trans Ideal.ofBits_zero_f32

theorem k1_pay2_apply (r : Fin 2048) (j : Fin 1024) : k1_pay2 (ix2 r j) = BitVec.ofNat 32 r.val :=
  (congrFun (shapeCast_self _ _) (ix2 r j)).trans (iota_single_apply .tc S2048x1024 32 0 iota_S2048x1024_d0_w32 (ix2 r j))

theorem k1_sub_apply (v4 : IVec S1x1024 32) (w : BitVec 32) (r : Fin 2048) (j : Fin 1024) :
    broadcastTo S2048x1024 (shapeCast S1x1024 (subi (shapeCast S1x1024 v4 shapeCasts_S1x1024_S1x1024) (broadcast S1x1024 w)) shapeCasts_S1x1024_S1x1024)
      broadcasts_S1x1024_S2048x1024 (ix2 r j) = v4 (ix2 0 j) - w := by
  refine (broadcastTo_1b_ab_apply _ _ r j).trans ?_
  rw [shapeCast_self, shapeCast_self]
  rfl

theorem k1_pay3_apply (i : grid1.Coords) (v4 : Vec Ideal S1x1024 .i32) (v8 : Vec Ideal S2048x1024 .i32)
    (v15 : Vec Ideal S2048x128 .f32) (v16 : Vec Ideal S1024x128 .bf16) (r : Fin 2048) (d : Fin 128) :
    k1_pay3 i v4 v8 v15 v16 (ix2 r d) = v15 (ix2 r d) + ∑ j : Fin 1024,
      (if v8 (ix2 r j) = v4 (ix2 0 j) - BitVec.ofNat 32 (i 0).val * 2048#32 then v16 (ix2 j d) else 0) := by
  unfold k1_pay3
  refine (congrFun (shapeCast_self _ _) (ix2 r d)).trans ?_
  refine congrArg (v15 (ix2 r d) + ·) ?_
  refine (matmul_plain_apply .bf16 .bf16 _ _ r d).trans (Finset.sum_congr rfl fun j _ => ?_)
  refine (congrArg₂ (· * ·) (sel_eq _ _) (congrFun (shapeCast_self v16 _) (ix2 j d))).trans ?_
  refine (congrArg (fun w => (if v8 (ix2 r j) = w then (1 : EReal) else 0) * v16 (ix2 j d)) (k1_sub_apply v4 _ r j)).trans ?_
  exact boole_mul _ _

end Cert.KernelIdeal.Hand

end
-- ==== Proof.KI.R1ValIdx.lean ====
import proofs.«421913_j33337536151789_3_alg».proof.Proof.KI.R1Defs
import Idealize.ShloMosaic.Lib.ValueIdx

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

theorem k1_idx_facts : ∀ t : Fin cfg1.N,
    win1_0.index t (0 : Fin 2) = 0 ∧ win1_0.index t (1 : Fin 2) = t.val % 586
    ∧ win1_1.index t (0 : Fin 2) = t.val % 586 ∧ win1_1.index t (1 : Fin 2) = 0
    ∧ win1_2.index t (0 : Fin 2) = t.val / 586 ∧ win1_2.index t (1 : Fin 2) = 0
    ∧ (grid1.coords t 0).val = t.val / 586 :=
  (by decide +kernel : ∀ t : Fin grid1.N, _)

variable {F : FTy → Type} [FloatOps F]
variable (V : (c : Dev nD) → (b : Ref sig .tc) → Buf (Elt F) ((c : Thread nD τ).loc b))

theorem iblk1_0_apply (c : Dev nD) (t : Fin cfg1.N) (j : Fin 1024) (e : Fin 600064)
    (he : e.val = 1024 * (t.val % 586) + j.val) :
    iblk1 V c 0 t (ix2 0 j) = V c main_v13 (ix2 0 e) := by
  obtain ⟨e0, e1, -, -, -, -, -⟩ := k1_idx_facts t
  show V c main_v13 (((cfg1.win 0).blk t).view.emb (ix2 0 j)) = V c main_v13 (ix2 0 e)
  refine congrArg (V c main_v13) (funext fun a => Fin.ext ?_)
  match a with
  | ⟨0, _⟩ => show win1_0.index t (0 : Fin 2) * 1 + 1 * 0 = 0; omega
  | ⟨1, _⟩ => show win1_0.index t (1 : Fin 2) * 1024 + 1 * j.val = e.val; omega

theorem iblk1_1_apply (c : Dev nD) (t : Fin cfg1.N) (j : Fin 1024) (d : Fin 128) (e : Fin 600064)
    (he : e.val = 1024 * (t.val % 586) + j.val) :
    iblk1 V c 1 t (ix2 j d) = V c main_v21 (ix2 e d) := by
  obtain ⟨-, -, e2, e3, -, -, -⟩ := k1_idx_facts t
  show V c main_v21 (((cfg1.win 1).blk t).view.emb (ix2 j d)) = V c main_v21 (ix2 e d)
  refine congrArg (V c main_v21) (funext fun a => Fin.ext ?_)
  match a with
  | ⟨0, _⟩ => show win1_1.index t (0 : Fin 2) * 1024 + 1 * j.val = e.val; omega
  | ⟨1, _⟩ => show win1_1.index t (1 : Fin 2) * 128 + 1 * d.val = d.val; omega

end Cert.KernelIdeal.Hand

end
-- ==== Proof.KI.R1ValAcc.lean ====
import proofs.«421913_j33337536151789_3_alg».proof.Proof.KI.R1ValPay
import proofs.«421913_j33337536151789_3_alg».proof.Proof.KI.R1ValIdx
import proofs.«421913_j33337536151789_3_alg».proof.Proof.ValLib

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen Cert.ValLib

variable (V : (c : Dev nD) → (b : Ref sig .tc) → Buf (Elt Ideal) ((c : Thread nD τ).loc b))

abbrev k1_edge (s : ℕ) (hs : s < 586) (j : Fin 1024) : Fin 600064 := ⟨1024 * s + j.val, by omega⟩

def k1_tile (c : Dev nD) (R : ℕ) (d : Fin 128) (s : ℕ) : EReal :=
  if hs : s < 586 then
    ∑ j : Fin 1024, (if V c main_v13 (ix2 0 (k1_edge s hs j)) = BitVec.ofNat 32 R then V c main_v21 (ix2 (k1_edge s hs j) d) else 0)
  else 0

theorem k1_step_apply (c : Dev nD) (t : Fin cfg1.N) (old : Vec Ideal S2048x128 .f32) (r : Fin 2048) (d : Fin 128) :
    k1_pay3 (grid1.coords t) (iblk1 V c 0 t) k1_pay2 old (iblk1 V c 1 t) (ix2 r d)
      = old (ix2 r d) + k1_tile V c (2048 * (t.val / 586) + r.val) d (t.val % 586) := by
  have hs : t.val % 586 < 586 := Nat.mod_lt _ (by decide)
  obtain ⟨-, -, -, -, -, -, e6⟩ := k1_idx_facts t
  refine (k1_pay3_apply (grid1.coords t) (iblk1 V c 0 t) k1_pay2 old (iblk1 V c 1 t) r d).trans ?_
  refine congrArg (old (ix2 r d) + ·) ?_
  unfold k1_tile
  rw [dif_pos hs]
  refine Finset.sum_congr rfl fun j _ => ?_
  have h0 : (iblk1 V c 0 t : Vec Ideal S1x1024 .i32) (ix2 (0 : Fin 1) j) = V c main_v13 (ix2 0 (k1_edge _ hs j)) :=
    iblk1_0_apply V c t j (k1_edge _ hs j) rfl
  have h1 : (iblk1 V c 1 t : Vec Ideal S1024x128 .bf16) (ix2 j d) = V c main_v21 (ix2 (k1_edge _ hs j) d) :=
    iblk1_1_apply V c t j d (k1_edge _ hs j) rfl
  rw [k1_pay2_apply r j, h0, h1, e6]
  exact if_congr (word_iff _ _ _) rfl rfl

theorem acc1_congr (c : Dev nD) (n n' : ℕ) (h : n < cfg1.N) (h' : n' < cfg1.N) (e : n = n') :
    acc1 V c n h = acc1 V c n' h' := by subst e; rfl

theorem acc1_apply (c : Dev nD) (I : ℕ) (r : Fin 2048) (d : Fin 128) :
    ∀ (k : ℕ) (hk : k < 586) (h : 586 * I + k < cfg1.N),
      acc1 V c (586 * I + k) h (ix2 r d) = ∑ s ∈ Finset.range (k + 1), k1_tile V c (2048 * I + r.val) d s
  | 0, hk, h => by
    have hm : (⟨586 * I + 0, h⟩ : Fin cfg1.N).val % 586 = 0 := by show (586 * I + 0) % 586 = 0; omega
    refine (congrFun (acc1_first V c ⟨586 * I + 0, h⟩ hm) (ix2 r d)).trans ?_
    refine (k1_step_apply V c ⟨586 * I + 0, h⟩ (k1_pay1 (F := Ideal)) r d).trans ?_
    rw [k1_pay1_apply, zero_add, Finset.sum_range_one]
    show k1_tile V c (2048 * ((586 * I + 0) / 586) + r.val) d ((586 * I + 0) % 586) = _
    rw [show (586 * I + 0) / 586 = I by omega, show (586 * I + 0) % 586 = 0 by omega]
  | k + 1, hk, h => by
    have hm : ¬ (⟨586 * I + (k + 1), h⟩ : Fin cfg1.N).val % 586 = 0 := by show ¬ (586 * I + (k + 1)) % 586 = 0; omega
    have hlt : 586 * I + k < cfg1.N := by omega
    refine (congrFun (acc1_next V c ⟨586 * I + (k + 1), h⟩ hm) (ix2 r d)).trans ?_
    refine (k1_step_apply V c ⟨586 * I + (k + 1), h⟩ _ r d).trans ?_
    have eo := congrFun (acc1_congr V c ((⟨586 * I + (k + 1), h⟩ : Fin cfg1.N).val - 1) (586 * I + k)
      (Nat.lt_of_le_of_lt (Nat.sub_le _ _) h) hlt (by show 586 * I + (k + 1) - 1 = 586 * I + k; omega)) (ix2 r d)
    rw [eo, acc1_apply c I r d k (by omega) hlt, Finset.sum_range_succ _ (k + 1)]
    show _ + k1_tile V c (2048 * ((586 * I + (k + 1)) / 586) + r.val) d ((586 * I + (k + 1)) % 586) = _
    rw [show (586 * I + (k + 1)) / 586 = I by omega, show (586 * I + (k + 1)) % 586 = k + 1 by omega]

theorem k1_row_sum (c : Dev nD) (R : ℕ) (d : Fin 128) :
    ∑ s ∈ Finset.range 586, k1_tile V c R d s
      = ∑ e : Fin 600064, (if V c main_v13 (ix2 0 e) = BitVec.ofNat 32 R then V c main_v21 (ix2 e d) else 0 : EReal) := by
  rw [← Fin.sum_univ_eq_sum_range (fun s => k1_tile V c R d s) 586,
    ← sum_edges (fun e => (if V c main_v13 (ix2 0 e) = BitVec.ofNat 32 R then V c main_v21 (ix2 e d) else 0 : EReal))]
  refine Finset.sum_congr rfl fun s _ => ?_
  unfold k1_tile
  rw [dif_pos s.isLt]

theorem acc1_last_apply (c : Dev nD) (t : Fin cfg1.N) (h585 : t.val % 586 = 585) (r : Fin 2048) (d : Fin 128) :
    acc1 V c t.val t.isLt (ix2 r d)
      = ∑ e : Fin 600064, (if V c main_v13 (ix2 0 e) = BitVec.ofNat 32 (2048 * (t.val / 586) + r.val) then V c main_v21 (ix2 e d) else 0 : EReal) := by
  have ht : t.val = 586 * (t.val / 586) + 585 := by omega
  have hlt : 586 * (t.val / 586) + 585 < cfg1.N := ht ▸ t.isLt
  rw [← k1_row_sum V c (2048 * (t.val / 586) + r.val) d]
  refine (congrFun (acc1_congr V c t.val (586 * (t.val / 586) + 585) t.isLt hlt ht) (ix2 r d)).trans ?_
  exact acc1_apply V c (t.val / 586) r d 585 (by decide) hlt

end Cert.KernelIdeal.Hand

end
-- ==== Proof.KI.R1Val.lean ====
import proofs.«421913_j33337536151789_3_alg».proof.Proof.KI.R1ValAcc
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

def G1 (c : Dev nD) : S51200x128.Idx → EReal := fun i =>
  ∑ e : Fin 600064, if V c main_v13 (ix2 0 e) = BitVec.ofNat 32 (i 0).val then V c main_v21 (ix2 e (i 1)) else 0

theorem G1_apply (c : Dev nD) (R : Fin 51200) (d : Fin 128) :
    G1 V c (ix2 R d) = (∑ e : Fin 600064, if V c main_v13 (ix2 0 e) = BitVec.ofNat 32 R.val then V c main_v21 (ix2 e d) else 0 : EReal) := rfl

attribute [local irreducible] G1

theorem k1_flushed_eq (c : Dev nD) (t : Fin cfg1.N) (hf : (cfg1.win 2).flush t = true) :
    (dat1 (F := Ideal) V c).flushed 2 t = ((cfg1.win 2).blk t).view.read (Elt Ideal) (G1 V c) := by
  have h585 : t.val % 586 = 585 := (flush1_2 t).mp hf
  obtain ⟨-, -, -, -, e4, e5, -⟩ := k1_idx_facts t
  have hN : cfg1.N = 14650 := N_1
  have htl : t.val < 14650 := hN ▸ t.isLt
  show (cfg1.win 2).cut (grid1.coords t) ((dat1 V c).after 2 t) = _
  rw [after1_2]
  funext y
  have hy0 : (y 0).val < 2048 := (y 0).isLt
  have hy1 : (y 1).val < 128 := (y 1).isLt
  have ey : (cfg1.win 2).xinj (grid1.coords t) y = ix2 (⟨(y 0).val, hy0⟩ : Fin 2048) (⟨(y 1).val, hy1⟩ : Fin 128) :=
    funext fun a => Fin.ext (match a with | ⟨0, _⟩ => rfl | ⟨1, _⟩ => rfl)
  refine (congrArg (acc1 V c t.val t.isLt) ey).trans ?_
  refine (acc1_last_apply V c t h585 ⟨(y 0).val, hy0⟩ ⟨(y 1).val, hy1⟩).trans ?_
  have hR : 2048 * (t.val / 586) + (y 0).val < 51200 := by omega
  refine (G1_apply V c ⟨2048 * (t.val / 586) + (y 0).val, hR⟩ ⟨(y 1).val, hy1⟩).symm.trans ?_
  show G1 V c (ix2 (⟨2048 * (t.val / 586) + (y 0).val, hR⟩ : Fin 51200) (⟨(y 1).val, hy1⟩ : Fin 128))
    = G1 V c (((cfg1.win 2).blk t).view.emb y)
  refine congrArg (G1 V c) (funext fun a => Fin.ext ?_)
  match a with
  | ⟨0, _⟩ => show 2048 * (t.val / 586) + (y 0).val = win1_2.index t (0 : Fin 2) * 2048 + 1 * (y 0).val; omega
  | ⟨1, _⟩ => show (y 1).val = win1_2.index t (1 : Fin 2) * 128 + 1 * (y 1).val; omega

theorem k1_cover (i : S51200x128.Idx) :
    ∃ t : Fin cfg1.N, (cfg1.win 2).flush t = true ∧ i ∈ ((cfg1.win 2).blk t).view.set := by
  have hi0 : (i 0).val < 51200 := (i 0).isLt
  have hi1 : (i 1).val < 128 := (i 1).isLt
  have hN : cfg1.N = 14650 := N_1
  have hlt : 586 * ((i 0).val / 2048) + 585 < cfg1.N := by omega
  obtain ⟨-, -, -, -, e4, e5, -⟩ := k1_idx_facts ⟨586 * ((i 0).val / 2048) + 585, hlt⟩
  have e4' : win1_2.index ⟨586 * ((i 0).val / 2048) + 585, hlt⟩ (0 : Fin 2) = (586 * ((i 0).val / 2048) + 585) / 586 := e4
  refine ⟨⟨586 * ((i 0).val / 2048) + 585, hlt⟩, (flush1_2 _).mpr (by show (586 * ((i 0).val / 2048) + 585) % 586 = 585; omega), ?_⟩
  show i ∈ ((View.whole main_v22).slice (win1_2.rect ⟨586 * ((i 0).val / 2048) + 585, hlt⟩)).set
  rw [View.set_slice_whole, Rect.mem_set_unit]
  intro a
  match a with
  | ⟨0, _⟩ =>
    show win1_2.index ⟨586 * ((i 0).val / 2048) + 585, hlt⟩ (0 : Fin 2) * 2048 ≤ (i 0).val
      ∧ (i 0).val < win1_2.index ⟨586 * ((i 0).val / 2048) + 585, hlt⟩ (0 : Fin 2) * 2048 + 2048
    rw [e4']; omega
  | ⟨1, _⟩ =>
    show win1_2.index ⟨586 * ((i 0).val / 2048) + 585, hlt⟩ (1 : Fin 2) * 128 ≤ (i 1).val
      ∧ (i 1).val < win1_2.index ⟨586 * ((i 0).val / 2048) + 585, hlt⟩ (1 : Fin 2) * 128 + 128
    rw [e5]; omega

theorem scatter1_val (c : Dev nD) (r : Fin 51200) (d : Fin 128) :
    (dat1 (F := Ideal) V c).arrAt 2 cfg1.N (ix2 r d) = (∑ e : Fin 600064, if (V c main_v13) (ix2 0 e) = BitVec.ofNat 32 r.val then V c main_v21 (ix2 e d) else 0 : EReal) := by
  have hfin : (dat1 (F := Ideal) V c).arrAt 2 cfg1.N = G1 V c :=
    (dat1 (F := Ideal) V c).arrAt_eq_of_cover 2 (G1 V c) (k1_flushed_eq V c) k1_cover
  exact (congrFun hfin (ix2 r d)).trans (G1_apply V c r d)

end Cert.KernelIdeal.Hand

end
-- ==== Proof.KI.R2ValPay.lean ====
import proofs.«421913_j33337536151789_3_alg».proof.Proof.Gen.KernelIdeal.Skeleton
import Idealize.ShloMosaic.Lib.Pipeline.Value
import Idealize.ShloMosaic.Lib.ValueIdx
import Idealize.ShloMosaic.PureOps.Ideal.Laws
import Idealize.ShloMosaic.Lib.IdealHost
import proofs.«421913_j33337536151789_3_alg».proof.Proof.ValLib

set_option maxRecDepth 16384

noncomputable section

namespace Cert.KernelIdeal.Hand

open Idealize.ShloMosaic Idealize.ShloMosaic.TcCoe
open Cert.KernelIdeal Cert.KernelIdeal.Gen Idealize.ShloMosaic.ValueIdx Cert.ValLib

theorem mm2_apply {φ₁ φ₂ : FTy} (a : FVec Ideal S2048x128 φ₁) (b : FVec Ideal S128x64 φ₂) (r : Fin 2048) (j : Fin 64) :
    FloatOps.matmul dot_S2048x128_S128x64_S2048x64_1_0_0_1_n_n none a b (constant (F := Ideal) S2048x64 .f32 0x00000000#32) (ix2 r j)
      = ∑ k : Fin 128, a (ix2 r k) * b (ix2 k j) :=
  matmul_plain_apply φ₁ φ₂ a b r j

theorem pay2_apply (i : grid2.Coords) (v0 : Vec Ideal S2048x128 .f32) (v2 : Vec Ideal S2048x1 .f32) (v9 : Vec Ideal S128x64 .bf16)
    (v12 : Vec Ideal S1x64 .f32) (v16 : Vec Ideal S2048x128 .bf16) (v18 : Vec Ideal S128x64 .bf16) (r : Fin 2048) (j : Fin 64) :
    k2_pay1 i v0 v2 v9 v12 v16 v18 (ix2 r j)
      = if 2048 * (i 0).val + r.val < 50000 then
          Ideal.logistic ((∑ k : Fin 128, Ideal.div (v0 (ix2 r k)) (max (v2 (ix2 r 0)) 1) * v9 (ix2 k j)) + v12 (ix2 0 j)
            + ∑ k : Fin 128, v16 (ix2 r k) * v18 (ix2 k j))
        else 0 := by
  unfold k2_pay1
  simp only [shapeCast_self]
  show Scalar.select
      (IntOp.cmpi .slt (IntOp.addi (iota .tc S2048x64 32 [0] iota_S2048x64_d0_w32 (ix2 r j)) (Scalar.muli (BitVec.ofNat 32 (i 0).val) 2048#32)) 50000#32)
      (Ideal.logistic ((FloatOps.matmul dot_S2048x128_S128x64_S2048x64_1_0_0_1_n_n none
            (truncf .bf16 (divf v0 (broadcastTo S2048x128 (maximumf v2 (broadcast S2048x1 (FloatOps.ofBits .f32 0x3F800000#32))) broadcasts_S2048x1_S2048x128)) bitsLt_bf16_f32)
            v9 (constant (F := Ideal) S2048x64 .f32 0x00000000#32) (ix2 r j)
          + broadcastTo S2048x64 v12 broadcasts_S1x64_S2048x64 (ix2 r j))
        + FloatOps.matmul dot_S2048x128_S128x64_S2048x64_1_0_0_1_n_n none v16 v18 (constant (F := Ideal) S2048x64 .f32 0x00000000#32) (ix2 r j)))
      (Ideal.ofBits .f32 0x00000000#32) = _
  have hio : iota .tc S2048x64 32 [0] iota_S2048x64_d0_w32 (ix2 r j) = BitVec.ofNat 32 r.val :=
    iota_single_apply .tc S2048x64 32 0 iota_S2048x64_d0_w32 (ix2 r j)
  rw [mm2_apply, mm2_apply, broadcastTo_1b_ab_apply, hio, mask_word (i 0).val r.val (i 0).isLt r.isLt]
  have hdiv : ∀ k : Fin 128,
      truncf (F := Ideal) .bf16 (divf (F := Ideal) v0 (broadcastTo S2048x128 (maximumf (F := Ideal) v2 (broadcast S2048x1 (FloatOps.ofBits .f32 0x3F800000#32))) broadcasts_S2048x1_S2048x128)) bitsLt_bf16_f32 (ix2 r k)
        = Ideal.div (v0 (ix2 r k)) (max (v2 (ix2 r 0)) 1) := fun k => by
    show Ideal.div (v0 (ix2 r k)) (broadcastTo S2048x128 (maximumf (F := Ideal) v2 (broadcast S2048x1 (FloatOps.ofBits .f32 0x3F800000#32))) broadcasts_S2048x1_S2048x128 (ix2 r k)) = _
    rw [broadcastTo_a1_ab_apply]
    show Ideal.div (v0 (ix2 r k)) (max (v2 (ix2 r 0)) (Ideal.ofBits .f32 0x3F800000#32)) = _
    rw [Ideal.ofBits_one_f32]
  simp only [hdiv]
  by_cases h : 2048 * (i 0).val + r.val < 50000
  · rw [if_pos h, if_pos h, select_one]
  · rw [if_neg h, if_neg h, select_zero, Ideal.ofBits_zero_f32]

end Cert.KernelIdeal.Hand

end
-- ==== Proof.KI.R2Val.lean ====
import proofs.«421913_j33337536151789_3_alg».proof.Proof.KI.R2Defs
import proofs.«421913_j33337536151789_3_alg».proof.Proof.KI.R2ValPay
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Idealize.ShloMosaic.ValueIdx

variable (V : (c : Dev nD) → (b : Ref sig .tc) → Buf (Elt Ideal) ((c : Thread nD τ).loc b))

def val2 (c : Dev nD) (r : Fin 51200) (j : Fin 64) : EReal :=
  if r.val < 50000 then
    Ideal.logistic ((∑ k : Fin 128, Ideal.div (V c main_v22 (ix2 r k)) (max (V c main_v9 (ix2 r 0)) 1) * V c main_v17 (ix2 k j))
      + V c main_v20 (ix2 0 j) + ∑ k : Fin 128, HMul.hMul (α := EReal) (β := EReal) (γ := EReal) (V c main_v15 (ix2 r k)) (V c main_v19 (ix2 k j)))
  else 0

def G2 (c : Dev nD) : S51200x64.Idx → EReal :=
  fun i => val2 V c ⟨(i 0).val, idx2_lt0 i⟩ ⟨(i 1).val, idx2_lt1 i⟩

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ ((grid2.coords t) 0).val = t.val :=
  (by decide +kernel : ∀ t : Fin grid2.N, _)

theorem blk2_0 (c : Dev nD) (t : Fin cfg2.N) (p : Fin 2048) (R : Fin 51200) (hR : R.val = 2048 * t.val + p.val) (k : Fin 128) :
    iblk2 V c 0 t (ix2 p k) = V c main_v22 (ix2 R k) := by
  show V c main_v22 (((cfg2.win 0).blk t).view.emb (ix2 p k)) = V c main_v22 (ix2 R k)
  have h := idx_facts2 t
  refine congrArg _ (funext fun a => Fin.ext ?_)
  match a with
  | ⟨0, _⟩ => show win2_0.index t (0 : Fin 2) * 2048 + 1 * p.val = R.val; omega
  | ⟨1, _⟩ => show win2_0.index t (1 : Fin 2) * 128 + 1 * k.val = k.val; omega

theorem blk2_1 (c : Dev nD) (t : Fin cfg2.N) (p : Fin 2048) (R : Fin 51200) (hR : R.val = 2048 * t.val + p.val) (k : Fin 128) :
    iblk2 V c 1 t (ix2 p k) = V c main_v15 (ix2 R k) := by
  show V c main_v15 (((cfg2.win 1).blk t).view.emb (ix2 p k)) = V c main_v15 (ix2 R k)
  have h := idx_facts2 t
  refine congrArg _ (funext fun a => Fin.ext ?_)
  match a with
  | ⟨0, _⟩ => show win2_1.index t (0 : Fin 2) * 2048 + 1 * p.val = R.val; omega
  | ⟨1, _⟩ => show win2_1.index t (1 : Fin 2) * 128 + 1 * k.val = k.val; omega

theorem blk2_2 (c : Dev nD) (t : Fin cfg2.N) (p : Fin 2048) (R : Fin 51200) (hR : R.val = 2048 * t.val + p.val) (k : Fin 1) :
    iblk2 V c 2 t (ix2 p k) = V c main_v9 (ix2 R k) := by
  show V c main_v9 (((cfg2.win 2).blk t).view.emb (ix2 p k)) = V c main_v9 (ix2 R k)
  have h := idx_facts2 t
  refine congrArg _ (funext fun a => Fin.ext ?_)
  match a with
  | ⟨0, _⟩ => show win2_2.index t (0 : Fin 2) * 2048 + 1 * p.val = R.val; omega
  | ⟨1, _⟩ => show win2_2.index t (1 : Fin 2) * 1 + 1 * k.val = k.val; omega

theorem blk2_3 (c : Dev nD) (t : Fin cfg2.N) (k : Fin 128) (j : Fin 64) :
    iblk2 V c 3 t (ix2 k j) = V c main_v17 (ix2 k j) := by
  show V c main_v17 (((cfg2.win 3).blk t).view.emb (ix2 k j)) = V c main_v17 (ix2 k j)
  have h := idx_facts2 t
  refine congrArg _ (funext fun a => Fin.ext ?_)
  match a with
  | ⟨0, _⟩ => show win2_3.index t (0 : Fin 2) * 128 + 1 * k.val = k.val; omega
  | ⟨1, _⟩ => show win2_3.index t (1 : Fin 2) * 64 + 1 * j.val = j.val; omega

theorem blk2_4 (c : Dev nD) (t : Fin cfg2.N) (k : Fin 1) (j : Fin 64) :
    iblk2 V c 4 t (ix2 k j) = V c main_v20 (ix2 k j) := by
  show V c main_v20 (((cfg2.win 4).blk t).view.emb (ix2 k j)) = V c main_v20 (ix2 k j)
  have h := idx_facts2 t
  refine congrArg _ (funext fun a => Fin.ext ?_)
  match a with
  | ⟨0, _⟩ => show win2_4.index t (0 : Fin 2) * 1 + 1 * k.val = k.val; omega
  | ⟨1, _⟩ => show win2_4.index t (1 : Fin 2) * 64 + 1 * j.val = j.val; omega

theorem blk2_5 (c : Dev nD) (t : Fin cfg2.N) (k : Fin 128) (j : Fin 64) :
    iblk2 V c 5 t (ix2 k j) = V c main_v19 (ix2 k j) := by
  show V c main_v19 (((cfg2.win 5).blk t).view.emb (ix2 k j)) = V c main_v19 (ix2 k j)
  have h := idx_facts2 t
  refine congrArg _ (funext fun a => Fin.ext ?_)
  match a with
  | ⟨0, _⟩ => show win2_5.index t (0 : Fin 2) * 128 + 1 * k.val = k.val; omega
  | ⟨1, _⟩ => show win2_5.index t (1 : Fin 2) * 64 + 1 * j.val = j.val; omega

theorem emb2_6 (t : Fin cfg2.N) (p : Fin 2048) (q : Fin 64) (R : Fin 51200) (hR : R.val = 2048 * t.val + p.val) :
    ((cfg2.win 6).blk t).view.emb (ix2 p q) = ix2 R q := by
  have h := idx_facts2 t
  refine funext fun a => Fin.ext ?_
  match a with
  | ⟨0, _⟩ => show win2_6.index t (0 : Fin 2) * 2048 + 1 * p.val = R.val; omega
  | ⟨1, _⟩ => show win2_6.index t (1 : Fin 2) * 64 + 1 * q.val = q.val; omega

theorem flushed2_eq (c : Dev nD) (t : Fin cfg2.N) :
    (dat2 (F := Ideal) V c).flushed 6 t = ((cfg2.win 6).blk t).view.read (Elt Ideal) (G2 V c) := by
  show (cfg2.win 6).cut (grid2.coords t) ((dat2 (F := Ideal) V c).after 6 t) = _
  rw [after2_6]
  funext y
  obtain ⟨p, q, rfl⟩ : ∃ (p : Fin 2048) (q : Fin 64), y = ix2 p q := ⟨y 0, y 1, eq_ix2 y⟩
  have hR : 2048 * t.val + p.val < 51200 := by have ht : t.val < 25 := lt_of_lt_of_eq t.isLt N_2; have := p.isLt; omega
  obtain ⟨e00, e01, e10, e11, e20, e21, e30, e31, e40, e41, e50, e51, e60, e61, eg⟩ := idx_facts2 t
  rw [View.read_apply, emb2_6 t p q ⟨2048 * t.val + p.val, hR⟩ rfl]
  show k2_pay1 (grid2.coords t) (iblk2 V c 0 t) (iblk2 V c 2 t) (iblk2 V c 3 t) (iblk2 V c 4 t) (iblk2 V c 1 t) (iblk2 V c 5 t) (ix2 p q)
    = val2 V c ⟨2048 * t.val + p.val, hR⟩ q
  refine (pay2_apply (grid2.coords t) (iblk2 V c 0 t) (iblk2 V c 2 t) (iblk2 V c 3 t) (iblk2 V c 4 t) (iblk2 V c 1 t) (iblk2 V c 5 t) p q).trans ?_
  unfold val2
  rw [eg]
  simp only [blk2_0 V c t p ⟨2048 * t.val + p.val, hR⟩ rfl, blk2_1 V c t p ⟨2048 * t.val + p.val, hR⟩ rfl,
    blk2_2 V c t p ⟨2048 * t.val + p.val, hR⟩ rfl, blk2_3 V c t, blk2_4 V c t, blk2_5 V c t]

theorem cover2 (i : S51200x64.Idx) : ∃ t : Fin cfg2.N, (cfg2.win 6).flush t = true ∧ i ∈ ((cfg2.win 6).blk t).view.set := by
  have hi0 : (i 0).val < 51200 := (i 0).isLt
  have hi1 : (i 1).val < 64 := (i 1).isLt
  have ht : (i 0).val / 2048 < cfg2.N := lt_of_lt_of_eq (show (i 0).val / 2048 < 25 by omega) N_2.symm
  obtain ⟨e00, e01, e10, e11, e20, e21, e30, e31, e40, e41, e50, e51, e60, e61, eg⟩ := idx_facts2 ⟨(i 0).val / 2048, ht⟩
  refine ⟨⟨(i 0).val / 2048, ht⟩, flush2_6 _, ?_⟩
  show i ∈ ((View.whole main_v23).slice (win2_6.rect ⟨(i 0).val / 2048, ht⟩)).set
  rw [View.set_slice_whole, Rect.mem_set_unit]
  intro a
  match a with
  | ⟨0, _⟩ =>
    show win2_6.index ⟨(i 0).val / 2048, ht⟩ (0 : Fin 2) * 2048 ≤ (i 0).val ∧ (i 0).val < win2_6.index ⟨(i 0).val / 2048, ht⟩ (0 : Fin 2) * 2048 + 2048
    rw [e60]; show (i 0).val / 2048 * 2048 ≤ (i 0).val ∧ (i 0).val < (i 0).val / 2048 * 2048 + 2048; omega
  | ⟨1, _⟩ =>
    show win2_6.index ⟨(i 0).val / 2048, ht⟩ (1 : Fin 2) * 64 ≤ (i 1).val ∧ (i 1).val < win2_6.index ⟨(i 0).val / 2048, ht⟩ (1 : Fin 2) * 64 + 64
    rw [e61]; omega

theorem final2 (c : Dev nD) : (dat2 (F := Ideal) V c).arrAt 6 cfg2.N = G2 V c :=
  (dat2 (F := Ideal) V c).arrAt_eq_of_cover 6 (G2 V c) (fun t _ => flushed2_eq V c t) cover2

theorem combine2_val (c : Dev nD) (r : Fin 51200) (j : Fin 64) :
    (dat2 (F := Ideal) V c).arrAt 6 cfg2.N (ix2 r j) = if r.val < 50000 then Ideal.logistic ((∑ k : Fin 128, Ideal.div (V c main_v22 (ix2 r k)) (max (V c main_v9 (ix2 r 0)) 1) * V c main_v17 (ix2 k j)) + V c main_v20 (ix2 0 j) + ∑ k : Fin 128, HMul.hMul (α := EReal) (β := EReal) (γ := EReal) (V c main_v15 (ix2 r k)) (V c main_v19 (ix2 k j))) else 0 := by
  rw [final2]
  rfl

end Cert.KernelIdeal.Hand

end
-- ==== Proof.KI.R3ValIdx.lean ====
import proofs.«421913_j33337536151789_3_alg».proof.Proof.KI.R3Defs
import Idealize.ShloMosaic.Lib.ValueIdx
import Idealize.ShloMosaic.Lib.Pipeline.Value

set_option maxRecDepth 16384
set_option Elab.async false

noncomputable section

namespace Cert.KernelIdeal.Hand

open Idealize.ShloMosaic Idealize.ShloMosaic.TcCoe Idealize.SL.Sem
open Idealize.ShloMosaic.Pipeline (Dat Cfg Window)
open Cert.KernelIdeal Cert.KernelIdeal.Gen Idealize.ShloMosaic.ValueIdx

theorem idx3_0 : ∀ t : Fin cfg3.N, win3_0.index t (0 : Fin 2) = t.val / 25 ∧ win3_0.index t (1 : Fin 2) = 0 :=
  (by decide +kernel : ∀ t : Fin grid3.N, _)

theorem idx3_1 : ∀ t : Fin cfg3.N, win3_1.index t (0 : Fin 2) = t.val % 25 ∧ win3_1.index t (1 : Fin 2) = 0 :=
  (by decide +kernel : ∀ t : Fin grid3.N, _)

theorem idx3_2 : ∀ t : Fin cfg3.N, win3_2.index t (0 : Fin 2) = t.val / 25 ∧ win3_2.index t (1 : Fin 2) = 0 :=
  (by decide +kernel : ∀ t : Fin grid3.N, _)

theorem coords3_1 (t : Fin cfg3.N) : (grid3.coords t 1).val = t.val % 25 := by
  show t.val / grid3.stride 1 % 25 = t.val % 25
  rw [show grid3.stride 1 = 1 from by decide, Nat.div_one]

section Blocks
variable {F : FTy → Type} [FloatOps F]
variable (V : (c : Dev nD) → (b : Ref sig .tc) → Buf (Elt F) ((c : Thread nD τ).loc b))

theorem iblk3_0_apply (c : Dev nD) (t : Fin cfg3.N) (r : Fin 1024) (e : Fin 600064) (he : e.val = 1024 * (t.val / 25) + r.val) :
    (iblk3 V c 0 t : Vec F S1024x1 .i32) (ix2 r 0) = V c main_v12 (ix2 e 0) := by
  show V c main_v12 (((cfg3.win 0).blk t).view.emb (ix2 r 0)) = V c main_v12 (ix2 e 0)
  refine congrArg (V c main_v12) (funext fun a => Fin.ext ?_)
  match a with
  | ⟨0, _⟩ => show win3_0.index t (0 : Fin 2) * 1024 + 1 * r.val = e.val; rw [(idx3_0 t).1]; omega
  | ⟨1, _⟩ => show win3_0.index t (1 : Fin 2) * 1 + 1 * 0 = 0; rw [(idx3_0 t).2]

theorem iblk3_1_apply (c : Dev nD) (t : Fin cfg3.N) (n : Fin 2048) (d : Fin 64) (s : Fin 51200) (hs : s.val = 2048 * (t.val % 25) + n.val) :
    (iblk3 V c 1 t : Vec F S2048x64 .bf16) (ix2 n d) = V c main_v23 (ix2 s d) := by
  show V c main_v23 (((cfg3.win 1).blk t).view.emb (ix2 n d)) = V c main_v23 (ix2 s d)
  refine congrArg (V c main_v23) (funext fun a => Fin.ext ?_)
  match a with
  | ⟨0, _⟩ => show win3_1.index t (0 : Fin 2) * 2048 + 1 * n.val = s.val; rw [(idx3_1 t).1]; omega
  | ⟨1, _⟩ => show win3_1.index t (1 : Fin 2) * 64 + 1 * d.val = d.val; rw [(idx3_1 t).2]; omega

end Blocks

end Cert.KernelIdeal.Hand

end
-- ==== Proof.KI.R3ValPay.lean ====
import proofs.«421913_j33337536151789_3_alg».proof.Proof.Gen.KernelIdeal.Skeleton
import Idealize.ShloMosaic.Lib.ValueIdx
import Idealize.ShloMosaic.Lib.Pipeline.Value
import Idealize.ShloMosaic.Lib.KernelVsHost
import Idealize.ShloMosaic.PureOps.Ideal.Laws
import proofs.«421913_j33337536151789_3_alg».proof.Proof.ValLib

noncomputable section

namespace Cert.KernelIdeal.Hand

open Idealize.ShloMosaic Idealize.SL.Sem
open Cert.KernelIdeal Cert.KernelIdeal.Gen Idealize.ShloMosaic.ValueIdx Cert.ValLib

theorem k3_pay2_apply (r : Fin 1024) (n : Fin 2048) : k3_pay2 (ix2 r n) = BitVec.ofNat 32 n.val := by
  unfold k3_pay2
  simp only [shapeCast_self]
  exact iota_single_apply .tc S1024x2048 32 1 iota_S1024x2048_d1_w32 (ix2 r n)

theorem k3_pay3_apply (i : grid3.Coords) (x0 : Vec Ideal S1024x1 .i32) (acc : Vec Ideal S1024x64 .f32)
    (xb : Vec Ideal S2048x64 .bf16) (r : Fin 1024) (d : Fin 64) :
    k3_pay3 (F := Ideal) i x0 k3_pay2 acc xb (ix2 r d)
      = acc (ix2 r d) + ∑ n : Fin 2048,
          (if BitVec.ofNat 32 n.val = x0 (ix2 r 0) - BitVec.ofNat 32 (i 1).val * 2048#32 then xb (ix2 n d) else 0) := by
  unfold k3_pay3
  simp only [shapeCast_self]
  refine (addf_apply _ _ _).trans (congrArg (acc (ix2 r d) + ·) ?_)
  refine (matmul_plain_apply .bf16 .bf16 _ _ r d).trans (Finset.sum_congr rfl fun n _ => ?_)
  refine (congrArg (· * xb (ix2 n d)) ((sel_eq _ _).trans (by rw [k3_pay2_apply, broadcastTo_a1_ab_apply]))).trans ?_
  exact boole_mul _ _

theorem k3_pay1_apply (r : Fin 1024) (d : Fin 64) : k3_pay1 (F := Ideal) (ix2 r d) = 0 := by
  unfold k3_pay1
  simp only [shapeCast_self]
  show Ideal.ofBits .f32 0x00000000#32 = 0
  exact Ideal.ofBits_zero_f32

end Cert.KernelIdeal.Hand

end
-- ==== Proof.KI.R3ValAcc.lean ====
import proofs.«421913_j33337536151789_3_alg».proof.Proof.KI.R3ValIdx
import proofs.«421913_j33337536151789_3_alg».proof.Proof.KI.R3ValPay
import proofs.«421913_j33337536151789_3_alg».proof.Proof.ValLib

set_option maxRecDepth 16384

noncomputable section

namespace Cert.KernelIdeal.Hand

open Idealize.ShloMosaic Idealize.ShloMosaic.TcCoe Idealize.SL.Sem
open Idealize.ShloMosaic.Pipeline (Dat Cfg Window)
open Cert.KernelIdeal Cert.KernelIdeal.Gen Idealize.ShloMosaic.ValueIdx Cert.ValLib

section Row
variable (V : (c : Dev nD) → (b : Ref sig .tc) → Buf (Elt Ideal) ((c : Thread nD τ).loc b))

abbrev src3 (c : Dev nD) (e : Fin 600064) : BitVec 32 := V c main_v12 (ix2 e 0)

abbrev feat3 (c : Dev nD) (s : Fin 51200) (d : Fin 64) : EReal := V c main_v23 (ix2 s d)

theorem add3_eq (c : Dev nD) (t : Fin cfg3.N) (e : Fin 600064) (r : Fin 1024) (he : e.val = 1024 * (t.val / 25) + r.val)
    (d : Fin 64) (hw : (src3 V c e).toNat < 51200) (acc : Vec Ideal S1024x64 .f32) :
    k3_pay3 (F := Ideal) (grid3.coords t) (iblk3 V c 0 t) k3_pay2 acc (iblk3 V c 1 t) (ix2 r d)
      = acc (ix2 r d) + if (src3 V c e).toNat / 2048 = t.val % 25 then feat3 V c ⟨(src3 V c e).toNat, hw⟩ d else 0 := by
  refine (k3_pay3_apply (grid3.coords t) (iblk3 V c 0 t) acc (iblk3 V c 1 t) r d).trans ?_
  refine congrArg (acc (ix2 r d) + ·) ?_
  have hk : t.val % 25 < 25 := Nat.mod_lt _ (by norm_num)
  rw [iblk3_0_apply V c t r e he, coords3_1 t]
  refine Eq.trans (Finset.sum_congr rfl fun n _ => ?_)
    (tile_sum (src3 V c e) hw (t.val % 25) hk (fun s => feat3 V c s d))
  rw [iblk3_1_apply V c t n d ⟨2048 * (t.val % 25) + n.val, by have := n.isLt; omega⟩ rfl]

theorem acc3_row (c : Dev nD) (e : Fin 600064) (d : Fin 64) (hw : (src3 V c e).toNat < 51200) :
    ∀ (k : ℕ) (t : Fin cfg3.N), t.val = 25 * (e.val / 1024) + k → k < 25 →
      acc3 (F := Ideal) V c t.val t.isLt (ix2 ⟨e.val % 1024, Nat.mod_lt _ (by norm_num)⟩ d)
        = if (src3 V c e).toNat / 2048 ≤ k then feat3 V c ⟨(src3 V c e).toNat, hw⟩ d else 0
  | 0, t, ht, _ => by
    have h0 : t.val % 25 = 0 := by omega
    rw [acc3_first V c t h0]
    refine (add3_eq V c t e ⟨e.val % 1024, Nat.mod_lt _ (by norm_num)⟩
      (by show e.val = 1024 * (t.val / 25) + e.val % 1024; omega) d hw (k3_pay1 (F := Ideal))).trans ?_
    rw [k3_pay1_apply, zero_add, h0]
    exact if_congr (by omega) rfl rfl
  | k + 1, t, ht, hk => by
    have h0 : ¬ t.val % 25 = 0 := by omega
    have hm : t.val % 25 = k + 1 := by omega
    rw [acc3_next V c t h0]
    refine (add3_eq V c t e ⟨e.val % 1024, Nat.mod_lt _ (by norm_num)⟩
      (by show e.val = 1024 * (t.val / 25) + e.val % 1024; omega) d hw
      (acc3 (F := Ideal) V c (t.val - 1) (Nat.lt_of_le_of_lt (Nat.sub_le _ _) t.isLt))).trans ?_
    have ih : acc3 (F := Ideal) V c (t.val - 1) (Nat.lt_of_le_of_lt (Nat.sub_le _ _) t.isLt)
          (ix2 ⟨e.val % 1024, Nat.mod_lt _ (by norm_num)⟩ d)
        = if (src3 V c e).toNat / 2048 ≤ k then feat3 V c ⟨(src3 V c e).toNat, hw⟩ d else 0 :=
      acc3_row c e d hw k ⟨t.val - 1, Nat.lt_of_le_of_lt (Nat.sub_le _ _) t.isLt⟩ (by show t.val - 1 = _; omega) (by omega)
    rw [ih, hm]
    by_cases h1 : (src3 V c e).toNat / 2048 ≤ k
    · rw [if_pos h1, if_neg (by omega), if_pos (by omega), add_zero]
    · by_cases h2 : (src3 V c e).toNat / 2048 = k + 1
      · rw [if_neg h1, if_pos h2, if_pos (by omega), zero_add]
      · rw [if_neg h1, if_neg h2, if_neg (by omega), add_zero]

end Row

end Cert.KernelIdeal.Hand

end
-- ==== Proof.KI.R3Val.lean ====
import proofs.«421913_j33337536151789_3_alg».proof.Proof.KI.R3ValAcc

set_option maxRecDepth 16384

noncomputable section

namespace Cert.KernelIdeal.Hand

open Idealize.ShloMosaic Idealize.ShloMosaic.TcCoe Idealize.SL.Sem
open Idealize.ShloMosaic.Pipeline (Dat Cfg Window)
open Cert.KernelIdeal Cert.KernelIdeal.Gen Idealize.ShloMosaic.ValueIdx

variable (V : (c : Dev nD) → (b : Ref sig .tc) → Buf (Elt Ideal) ((c : Thread nD τ).loc b))

theorem acc3_congr (c : Dev nD) {n n' : ℕ} (hn : n < cfg3.N) (hn' : n' < cfg3.N) (h : n = n')
    {r r' : Fin 1024} (hr : r.val = r'.val) {d d' : Fin 64} (hd : d.val = d'.val) :
    acc3 (F := Ideal) V c n hn (ix2 r d) = acc3 (F := Ideal) V c n' hn' (ix2 r' d') := by
  subst h; obtain rfl := Fin.ext hr; obtain rfl := Fin.ext hd; rfl

theorem last3_lt (j : S600064x64.Idx) : 25 * ((j 0).val / 1024) + 24 < cfg3.N := by
  have h0 := idx2_lt0 j
  show _ < grid3.N
  rw [N_3]; omega

def G3 (c : Dev nD) : S600064x64.Idx → EReal := fun j =>
  acc3 (F := Ideal) V c (25 * ((j 0).val / 1024) + 24) (last3_lt j)
    (ix2 ⟨(j 0).val % 1024, Nat.mod_lt _ (by norm_num)⟩ ⟨(j 1).val, idx2_lt1 j⟩)

theorem flushed3_eq (c : Dev nD) (t : Fin cfg3.N) (hf : (cfg3.win 2).flush t = true) :
    (dat3 (F := Ideal) V c).flushed 2 t = ((cfg3.win 2).blk t).view.read (Elt Ideal) (G3 V c) := by
  have h24 : t.val % 25 = 24 := (flush3_2 t).mp hf
  show (cfg3.win 2).cut (grid3.coords t) ((dat3 (F := Ideal) V c).after 2 t) = _
  rw [after3_2]
  funext y
  obtain ⟨r, d, rfl⟩ : ∃ (r : Fin 1024) (d : Fin 64), y = ix2 r d := ⟨y 0, y 1, eq_ix2 y⟩
  show acc3 (F := Ideal) V c t.val t.isLt (ix2 r d) = G3 V c (((cfg3.win 2).blk t).view.emb (ix2 r d))
  have e0 : ((((cfg3.win 2).blk t).view.emb (ix2 r d)) 0).val = win3_2.index t (0 : Fin 2) * 1024 + 1 * r.val := rfl
  have e1 : ((((cfg3.win 2).blk t).view.emb (ix2 r d)) 1).val = win3_2.index t (1 : Fin 2) * 64 + 1 * d.val := rfl
  rw [(idx3_2 t).1] at e0
  rw [(idx3_2 t).2] at e1
  unfold G3
  exact acc3_congr V c _ _ (by rw [e0]; omega) (by show r.val = _ % 1024; rw [e0]; have := r.isLt; omega) (by show d.val = _; rw [e1]; omega)

theorem cover3 (i : S600064x64.Idx) : ∃ t : Fin cfg3.N, (cfg3.win 2).flush t = true ∧ i ∈ ((cfg3.win 2).blk t).view.set := by
  have h0 := idx2_lt0 i
  have h1 := idx2_lt1 i
  refine ⟨⟨25 * ((i 0).val / 1024) + 24, last3_lt i⟩, (flush3_2 _).mpr (by show (25 * ((i 0).val / 1024) + 24) % 25 = 24; omega), ?_⟩
  show i ∈ ((View.whole main_v32).slice (win3_2.rect ⟨25 * ((i 0).val / 1024) + 24, last3_lt i⟩)).set
  rw [View.set_slice_whole, Rect.mem_set_unit]
  obtain ⟨q0, q1⟩ := idx3_2 ⟨25 * ((i 0).val / 1024) + 24, last3_lt i⟩
  intro a
  match a with
  | ⟨0, _⟩ =>
    show win3_2.index _ (0 : Fin 2) * 1024 ≤ (i 0).val ∧ (i 0).val < win3_2.index _ (0 : Fin 2) * 1024 + 1024
    rw [q0]; show (25 * ((i 0).val / 1024) + 24) / 25 * 1024 ≤ (i 0).val ∧ (i 0).val < (25 * ((i 0).val / 1024) + 24) / 25 * 1024 + 1024; omega
  | ⟨1, _⟩ =>
    show win3_2.index _ (1 : Fin 2) * 64 ≤ (i 1).val ∧ (i 1).val < win3_2.index _ (1 : Fin 2) * 64 + 64
    rw [q1]; omega

theorem final3 (c : Dev nD) : (dat3 (F := Ideal) V c).arrAt 2 cfg3.N = G3 V c :=
  (dat3 (F := Ideal) V c).arrAt_eq_of_cover 2 (G3 V c) (flushed3_eq V c) cover3

theorem gather3_val (c : Dev nD) (e : Fin 600064) (d : Fin 64) (hs : ((V c main_v12) (ix2 e 0)).toNat < 51200) :
    (dat3 (F := Ideal) V c).arrAt 2 cfg3.N (ix2 e d) = V c main_v23 (ix2 ⟨((V c main_v12) (ix2 e 0)).toNat, hs⟩ d) := by
  rw [final3]
  show acc3 (F := Ideal) V c (25 * (e.val / 1024) + 24) _ (ix2 ⟨e.val % 1024, _⟩ ⟨d.val, _⟩) = feat3 V c ⟨(src3 V c e).toNat, hs⟩ d
  have hs' : (src3 V c e).toNat < 51200 := hs
  refine (acc3_row V c e d hs' 24 ⟨25 * (e.val / 1024) + 24, last3_lt (ix2 e d)⟩ rfl (by norm_num)).trans ?_
  exact if_pos (by omega)

end Cert.KernelIdeal.Hand

end
-- ==== Proof.KI.R4ValPay.lean ====
import proofs.«421913_j33337536151789_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«421913_j33337536151789_3_alg».proof.Proof.ValLib

noncomputable section

namespace Cert.KernelIdeal.Hand

open Idealize.ShloMosaic Idealize.ShloMosaic.ValueIdx
open Cert.KernelIdeal Cert.KernelIdeal.Gen Cert.ValLib

theorem k4_pay1_apply (r : Fin 2048) (d : Fin 64) : (k4_pay1 (F := Ideal)) (ix2 r d) = 0 := by
  unfold k4_pay1
  exact (congrFun (shapeCast_self _ _) (ix2 r d)).trans Ideal.ofBits_zero_f32

theorem k4_pay2_apply (r : Fin 2048) (j : Fin 1024) : k4_pay2 (ix2 r j) = BitVec.ofNat 32 r.val :=
  (congrFun (shapeCast_self _ _) (ix2 r j)).trans (iota_single_apply .tc S2048x1024 32 0 iota_S2048x1024_d0_w32 (ix2 r j))

theorem k4_sub_apply (v4 : IVec S1x1024 32) (w : BitVec 32) (r : Fin 2048) (j : Fin 1024) :
    broadcastTo S2048x1024 (shapeCast S1x1024 (subi (shapeCast S1x1024 v4 shapeCasts_S1x1024_S1x1024) (broadcast S1x1024 w)) shapeCasts_S1x1024_S1x1024)
      broadcasts_S1x1024_S2048x1024 (ix2 r j) = v4 (ix2 0 j) - w := by
  refine (broadcastTo_1b_ab_apply _ _ r j).trans ?_
  rw [shapeCast_self, shapeCast_self]
  rfl

theorem k4_pay3_apply (i : grid4.Coords) (v4 : Vec Ideal S1x1024 .i32) (v8 : Vec Ideal S2048x1024 .i32)
    (v15 : Vec Ideal S2048x64 .f32) (v16 : Vec Ideal S1024x64 .bf16) (r : Fin 2048) (d : Fin 64) :
    k4_pay3 i v4 v8 v15 v16 (ix2 r d) = v15 (ix2 r d) + ∑ j : Fin 1024,
      (if v8 (ix2 r j) = v4 (ix2 0 j) - BitVec.ofNat 32 (i 0).val * 2048#32 then v16 (ix2 j d) else 0) := by
  unfold k4_pay3
  refine (congrFun (shapeCast_self _ _) (ix2 r d)).trans ?_
  refine congrArg (v15 (ix2 r d) + ·) ?_
  refine (matmul_plain_apply .bf16 .bf16 _ _ r d).trans (Finset.sum_congr rfl fun j _ => ?_)
  refine (congrArg₂ (· * ·) (sel_eq _ _) (congrFun (shapeCast_self v16 _) (ix2 j d))).trans ?_
  refine (congrArg (fun w => (if v8 (ix2 r j) = w then (1 : EReal) else 0) * v16 (ix2 j d)) (k4_sub_apply v4 _ r j)).trans ?_
  exact boole_mul _ _

end Cert.KernelIdeal.Hand

end
-- ==== Proof.KI.R4ValIdx.lean ====
import proofs.«421913_j33337536151789_3_alg».proof.Proof.KI.R4Defs
import Idealize.ShloMosaic.Lib.ValueIdx

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

theorem k4_idx_facts : ∀ t : Fin cfg4.N,
    win4_0.index t (0 : Fin 2) = 0 ∧ win4_0.index t (1 : Fin 2) = t.val % 586
    ∧ win4_1.index t (0 : Fin 2) = t.val % 586 ∧ win4_1.index t (1 : Fin 2) = 0
    ∧ win4_2.index t (0 : Fin 2) = t.val / 586 ∧ win4_2.index t (1 : Fin 2) = 0
    ∧ (grid4.coords t 0).val = t.val / 586 :=
  (by decide +kernel : ∀ t : Fin grid4.N, _)

variable {F : FTy → Type} [FloatOps F]
variable (V : (c : Dev nD) → (b : Ref sig .tc) → Buf (Elt F) ((c : Thread nD τ).loc b))

theorem iblk4_0_apply (c : Dev nD) (t : Fin cfg4.N) (j : Fin 1024) (e : Fin 600064)
    (he : e.val = 1024 * (t.val % 586) + j.val) :
    iblk4 V c 0 t (ix2 0 j) = V c main_v13 (ix2 0 e) := by
  obtain ⟨e0, e1, -, -, -, -, -⟩ := k4_idx_facts t
  show V c main_v13 (((cfg4.win 0).blk t).view.emb (ix2 0 j)) = V c main_v13 (ix2 0 e)
  refine congrArg (V c main_v13) (funext fun a => Fin.ext ?_)
  match a with
  | ⟨0, _⟩ => show win4_0.index t (0 : Fin 2) * 1 + 1 * 0 = 0; omega
  | ⟨1, _⟩ => show win4_0.index t (1 : Fin 2) * 1024 + 1 * j.val = e.val; omega

theorem iblk4_1_apply (c : Dev nD) (t : Fin cfg4.N) (j : Fin 1024) (d : Fin 64) (e : Fin 600064)
    (he : e.val = 1024 * (t.val % 586) + j.val) :
    iblk4 V c 1 t (ix2 j d) = V c main_v32 (ix2 e d) := by
  obtain ⟨-, -, e2, e3, -, -, -⟩ := k4_idx_facts t
  show V c main_v32 (((cfg4.win 1).blk t).view.emb (ix2 j d)) = V c main_v32 (ix2 e d)
  refine congrArg (V c main_v32) (funext fun a => Fin.ext ?_)
  match a with
  | ⟨0, _⟩ => show win4_1.index t (0 : Fin 2) * 1024 + 1 * j.val = e.val; omega
  | ⟨1, _⟩ => show win4_1.index t (1 : Fin 2) * 64 + 1 * d.val = d.val; omega

end Cert.KernelIdeal.Hand

end
-- ==== Proof.KI.R4ValAcc.lean ====
import proofs.«421913_j33337536151789_3_alg».proof.Proof.KI.R4ValPay
import proofs.«421913_j33337536151789_3_alg».proof.Proof.KI.R4ValIdx
import proofs.«421913_j33337536151789_3_alg».proof.Proof.ValLib

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen Cert.ValLib

variable (V : (c : Dev nD) → (b : Ref sig .tc) → Buf (Elt Ideal) ((c : Thread nD τ).loc b))

abbrev k4_edge (s : ℕ) (hs : s < 586) (j : Fin 1024) : Fin 600064 := ⟨1024 * s + j.val, by omega⟩

def k4_tile (c : Dev nD) (R : ℕ) (d : Fin 64) (s : ℕ) : EReal :=
  if hs : s < 586 then
    ∑ j : Fin 1024, (if V c main_v13 (ix2 0 (k4_edge s hs j)) = BitVec.ofNat 32 R then V c main_v32 (ix2 (k4_edge s hs j) d) else 0)
  else 0

theorem k4_step_apply (c : Dev nD) (t : Fin cfg4.N) (old : Vec Ideal S2048x64 .f32) (r : Fin 2048) (d : Fin 64) :
    k4_pay3 (grid4.coords t) (iblk4 V c 0 t) k4_pay2 old (iblk4 V c 1 t) (ix2 r d)
      = old (ix2 r d) + k4_tile V c (2048 * (t.val / 586) + r.val) d (t.val % 586) := by
  have hs : t.val % 586 < 586 := Nat.mod_lt _ (by decide)
  obtain ⟨-, -, -, -, -, -, e6⟩ := k4_idx_facts t
  refine (k4_pay3_apply (grid4.coords t) (iblk4 V c 0 t) k4_pay2 old (iblk4 V c 1 t) r d).trans ?_
  refine congrArg (old (ix2 r d) + ·) ?_
  unfold k4_tile
  rw [dif_pos hs]
  refine Finset.sum_congr rfl fun j _ => ?_
  have h0 : (iblk4 V c 0 t : Vec Ideal S1x1024 .i32) (ix2 (0 : Fin 1) j) = V c main_v13 (ix2 0 (k4_edge _ hs j)) :=
    iblk4_0_apply V c t j (k4_edge _ hs j) rfl
  have h1 : (iblk4 V c 1 t : Vec Ideal S1024x64 .bf16) (ix2 j d) = V c main_v32 (ix2 (k4_edge _ hs j) d) :=
    iblk4_1_apply V c t j d (k4_edge _ hs j) rfl
  rw [k4_pay2_apply r j, h0, h1, e6]
  exact if_congr (word_iff _ _ _) rfl rfl

theorem acc4_congr (c : Dev nD) (n n' : ℕ) (h : n < cfg4.N) (h' : n' < cfg4.N) (e : n = n') :
    acc4 V c n h = acc4 V c n' h' := by subst e; rfl

theorem acc4_apply (c : Dev nD) (I : ℕ) (r : Fin 2048) (d : Fin 64) :
    ∀ (k : ℕ) (hk : k < 586) (h : 586 * I + k < cfg4.N),
      acc4 V c (586 * I + k) h (ix2 r d) = ∑ s ∈ Finset.range (k + 1), k4_tile V c (2048 * I + r.val) d s
  | 0, hk, h => by
    have hm : (⟨586 * I + 0, h⟩ : Fin cfg4.N).val % 586 = 0 := by show (586 * I + 0) % 586 = 0; omega
    refine (congrFun (acc4_first V c ⟨586 * I + 0, h⟩ hm) (ix2 r d)).trans ?_
    refine (k4_step_apply V c ⟨586 * I + 0, h⟩ (k4_pay1 (F := Ideal)) r d).trans ?_
    rw [k4_pay1_apply, zero_add, Finset.sum_range_one]
    show k4_tile V c (2048 * ((586 * I + 0) / 586) + r.val) d ((586 * I + 0) % 586) = _
    rw [show (586 * I + 0) / 586 = I by omega, show (586 * I + 0) % 586 = 0 by omega]
  | k + 1, hk, h => by
    have hm : ¬ (⟨586 * I + (k + 1), h⟩ : Fin cfg4.N).val % 586 = 0 := by show ¬ (586 * I + (k + 1)) % 586 = 0; omega
    have hlt : 586 * I + k < cfg4.N := by omega
    refine (congrFun (acc4_next V c ⟨586 * I + (k + 1), h⟩ hm) (ix2 r d)).trans ?_
    refine (k4_step_apply V c ⟨586 * I + (k + 1), h⟩ _ r d).trans ?_
    have eo := congrFun (acc4_congr V c ((⟨586 * I + (k + 1), h⟩ : Fin cfg4.N).val - 1) (586 * I + k)
      (Nat.lt_of_le_of_lt (Nat.sub_le _ _) h) hlt (by show 586 * I + (k + 1) - 1 = 586 * I + k; omega)) (ix2 r d)
    rw [eo, acc4_apply c I r d k (by omega) hlt, Finset.sum_range_succ _ (k + 1)]
    show _ + k4_tile V c (2048 * ((586 * I + (k + 1)) / 586) + r.val) d ((586 * I + (k + 1)) % 586) = _
    rw [show (586 * I + (k + 1)) / 586 = I by omega, show (586 * I + (k + 1)) % 586 = k + 1 by omega]

theorem k4_row_sum (c : Dev nD) (R : ℕ) (d : Fin 64) :
    ∑ s ∈ Finset.range 586, k4_tile V c R d s
      = ∑ e : Fin 600064, (if V c main_v13 (ix2 0 e) = BitVec.ofNat 32 R then V c main_v32 (ix2 e d) else 0 : EReal) := by
  rw [← Fin.sum_univ_eq_sum_range (fun s => k4_tile V c R d s) 586,
    ← sum_edges (fun e => (if V c main_v13 (ix2 0 e) = BitVec.ofNat 32 R then V c main_v32 (ix2 e d) else 0 : EReal))]
  refine Finset.sum_congr rfl fun s _ => ?_
  unfold k4_tile
  rw [dif_pos s.isLt]

theorem acc4_last_apply (c : Dev nD) (t : Fin cfg4.N) (h585 : t.val % 586 = 585) (r : Fin 2048) (d : Fin 64) :
    acc4 V c t.val t.isLt (ix2 r d)
      = ∑ e : Fin 600064, (if V c main_v13 (ix2 0 e) = BitVec.ofNat 32 (2048 * (t.val / 586) + r.val) then V c main_v32 (ix2 e d) else 0 : EReal) := by
  have ht : t.val = 586 * (t.val / 586) + 585 := by omega
  have hlt : 586 * (t.val / 586) + 585 < cfg4.N := ht ▸ t.isLt
  rw [← k4_row_sum V c (2048 * (t.val / 586) + r.val) d]
  refine (congrFun (acc4_congr V c t.val (586 * (t.val / 586) + 585) t.isLt hlt ht) (ix2 r d)).trans ?_
  exact acc4_apply V c (t.val / 586) r d 585 (by decide) hlt

end Cert.KernelIdeal.Hand

end
-- ==== Proof.KI.R4Val.lean ====
import proofs.«421913_j33337536151789_3_alg».proof.Proof.KI.R4ValAcc
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

def G4 (c : Dev nD) : S51200x64.Idx → EReal := fun i =>
  ∑ e : Fin 600064, if V c main_v13 (ix2 0 e) = BitVec.ofNat 32 (i 0).val then V c main_v32 (ix2 e (i 1)) else 0

theorem G4_apply (c : Dev nD) (R : Fin 51200) (d : Fin 64) :
    G4 V c (ix2 R d) = (∑ e : Fin 600064, if V c main_v13 (ix2 0 e) = BitVec.ofNat 32 R.val then V c main_v32 (ix2 e d) else 0 : EReal) := rfl

attribute [local irreducible] G4

theorem k4_flushed_eq (c : Dev nD) (t : Fin cfg4.N) (hf : (cfg4.win 2).flush t = true) :
    (dat4 (F := Ideal) V c).flushed 2 t = ((cfg4.win 2).blk t).view.read (Elt Ideal) (G4 V c) := by
  have h585 : t.val % 586 = 585 := (flush4_2 t).mp hf
  obtain ⟨-, -, -, -, e4, e5, -⟩ := k4_idx_facts t
  have hN : cfg4.N = 14650 := N_4
  have htl : t.val < 14650 := hN ▸ t.isLt
  show (cfg4.win 2).cut (grid4.coords t) ((dat4 V c).after 2 t) = _
  rw [after4_2]
  funext y
  have hy0 : (y 0).val < 2048 := (y 0).isLt
  have hy1 : (y 1).val < 64 := (y 1).isLt
  have ey : (cfg4.win 2).xinj (grid4.coords t) y = ix2 (⟨(y 0).val, hy0⟩ : Fin 2048) (⟨(y 1).val, hy1⟩ : Fin 64) :=
    funext fun a => Fin.ext (match a with | ⟨0, _⟩ => rfl | ⟨1, _⟩ => rfl)
  refine (congrArg (acc4 V c t.val t.isLt) ey).trans ?_
  refine (acc4_last_apply V c t h585 ⟨(y 0).val, hy0⟩ ⟨(y 1).val, hy1⟩).trans ?_
  have hR : 2048 * (t.val / 586) + (y 0).val < 51200 := by omega
  refine (G4_apply V c ⟨2048 * (t.val / 586) + (y 0).val, hR⟩ ⟨(y 1).val, hy1⟩).symm.trans ?_
  show G4 V c (ix2 (⟨2048 * (t.val / 586) + (y 0).val, hR⟩ : Fin 51200) (⟨(y 1).val, hy1⟩ : Fin 64))
    = G4 V c (((cfg4.win 2).blk t).view.emb y)
  refine congrArg (G4 V c) (funext fun a => Fin.ext ?_)
  match a with
  | ⟨0, _⟩ => show 2048 * (t.val / 586) + (y 0).val = win4_2.index t (0 : Fin 2) * 2048 + 1 * (y 0).val; omega
  | ⟨1, _⟩ => show (y 1).val = win4_2.index t (1 : Fin 2) * 64 + 1 * (y 1).val; omega

theorem k4_cover (i : S51200x64.Idx) :
    ∃ t : Fin cfg4.N, (cfg4.win 2).flush t = true ∧ i ∈ ((cfg4.win 2).blk t).view.set := by
  have hi0 : (i 0).val < 51200 := (i 0).isLt
  have hi1 : (i 1).val < 64 := (i 1).isLt
  have hN : cfg4.N = 14650 := N_4
  have hlt : 586 * ((i 0).val / 2048) + 585 < cfg4.N := by omega
  obtain ⟨-, -, -, -, e4, e5, -⟩ := k4_idx_facts ⟨586 * ((i 0).val / 2048) + 585, hlt⟩
  have e4' : win4_2.index ⟨586 * ((i 0).val / 2048) + 585, hlt⟩ (0 : Fin 2) = (586 * ((i 0).val / 2048) + 585) / 586 := e4
  refine ⟨⟨586 * ((i 0).val / 2048) + 585, hlt⟩, (flush4_2 _).mpr (by show (586 * ((i 0).val / 2048) + 585) % 586 = 585; omega), ?_⟩
  show i ∈ ((View.whole main_v33).slice (win4_2.rect ⟨586 * ((i 0).val / 2048) + 585, hlt⟩)).set
  rw [View.set_slice_whole, Rect.mem_set_unit]
  intro a
  match a with
  | ⟨0, _⟩ =>
    show win4_2.index ⟨586 * ((i 0).val / 2048) + 585, hlt⟩ (0 : Fin 2) * 2048 ≤ (i 0).val
      ∧ (i 0).val < win4_2.index ⟨586 * ((i 0).val / 2048) + 585, hlt⟩ (0 : Fin 2) * 2048 + 2048
    rw [e4']; omega
  | ⟨1, _⟩ =>
    show win4_2.index ⟨586 * ((i 0).val / 2048) + 585, hlt⟩ (1 : Fin 2) * 64 ≤ (i 1).val
      ∧ (i 1).val < win4_2.index ⟨586 * ((i 0).val / 2048) + 585, hlt⟩ (1 : Fin 2) * 64 + 64
    rw [e5]; omega

theorem scatter4_val (c : Dev nD) (r : Fin 51200) (d : Fin 64) :
    (dat4 (F := Ideal) V c).arrAt 2 cfg4.N (ix2 r d) = (∑ e : Fin 600064, if (V c main_v13) (ix2 0 e) = BitVec.ofNat 32 r.val then V c main_v32 (ix2 e d) else 0 : EReal) := by
  have hfin : (dat4 (F := Ideal) V c).arrAt 2 cfg4.N = G4 V c :=
    (dat4 (F := Ideal) V c).arrAt_eq_of_cover 2 (G4 V c) (k4_flushed_eq V c) k4_cover
  exact (congrFun hfin (ix2 r d)).trans (G4_apply V c r d)

end Cert.KernelIdeal.Hand

end
-- ==== Proof.KI.R5ValPay.lean ====
import proofs.«421913_j33337536151789_3_alg».proof.Proof.Gen.KernelIdeal.Skeleton
import Idealize.ShloMosaic.Lib.Pipeline.Value
import Idealize.ShloMosaic.Lib.ValueIdx
import Idealize.ShloMosaic.PureOps.Ideal.Laws
import Idealize.ShloMosaic.Lib.IdealHost
import proofs.«421913_j33337536151789_3_alg».proof.Proof.ValLib

set_option maxRecDepth 16384

noncomputable section

namespace Cert.KernelIdeal.Hand

open Idealize.ShloMosaic Idealize.ShloMosaic.TcCoe
open Cert.KernelIdeal Cert.KernelIdeal.Gen Idealize.ShloMosaic.ValueIdx Cert.ValLib

theorem mm5_apply {φ₁ φ₂ : FTy} (a : FVec Ideal S2048x64 φ₁) (b : FVec Ideal S64x128 φ₂) (r : Fin 2048) (j : Fin 128) :
    FloatOps.matmul dot_S2048x64_S64x128_S2048x128_1_0_0_1_n_n none a b (constant (F := Ideal) S2048x128 .f32 0x00000000#32) (ix2 r j)
      = ∑ k : Fin 64, a (ix2 r k) * b (ix2 k j) :=
  matmul_plain_apply φ₁ φ₂ a b r j

theorem pay5_apply (i : grid5.Coords) (v0 : Vec Ideal S2048x64 .f32) (v2 : Vec Ideal S2048x1 .f32) (v9 : Vec Ideal S64x128 .bf16)
    (v12 : Vec Ideal S1x128 .f32) (v16 : Vec Ideal S2048x64 .bf16) (v18 : Vec Ideal S64x128 .bf16) (r : Fin 2048) (j : Fin 128) :
    k5_pay1 i v0 v2 v9 v12 v16 v18 (ix2 r j)
      = if 2048 * (i 0).val + r.val < 50000 then
          ((∑ k : Fin 64, Ideal.div (v0 (ix2 r k)) (max (v2 (ix2 r 0)) 1) * v9 (ix2 k j)) + v12 (ix2 0 j)
            + ∑ k : Fin 64, v16 (ix2 r k) * v18 (ix2 k j))
        else 0 := by
  unfold k5_pay1
  simp only [shapeCast_self]
  show Scalar.select
      (IntOp.cmpi .slt (IntOp.addi (iota .tc S2048x128 32 [0] iota_S2048x128_d0_w32 (ix2 r j)) (Scalar.muli (BitVec.ofNat 32 (i 0).val) 2048#32)) 50000#32)
      (((FloatOps.matmul dot_S2048x64_S64x128_S2048x128_1_0_0_1_n_n none
            (truncf .bf16 (divf v0 (broadcastTo S2048x64 (maximumf v2 (broadcast S2048x1 (FloatOps.ofBits .f32 0x3F800000#32))) broadcasts_S2048x1_S2048x64)) bitsLt_bf16_f32)
            v9 (constant (F := Ideal) S2048x128 .f32 0x00000000#32) (ix2 r j)
          + broadcastTo S2048x128 v12 broadcasts_S1x128_S2048x128 (ix2 r j))
        + FloatOps.matmul dot_S2048x64_S64x128_S2048x128_1_0_0_1_n_n none v16 v18 (constant (F := Ideal) S2048x128 .f32 0x00000000#32) (ix2 r j)))
      (Ideal.ofBits .f32 0x00000000#32) = _
  have hio : iota .tc S2048x128 32 [0] iota_S2048x128_d0_w32 (ix2 r j) = BitVec.ofNat 32 r.val :=
    iota_single_apply .tc S2048x128 32 0 iota_S2048x128_d0_w32 (ix2 r j)
  rw [mm5_apply, mm5_apply, broadcastTo_1b_ab_apply, hio, mask_word (i 0).val r.val (i 0).isLt r.isLt]
  have hdiv : ∀ k : Fin 64,
      truncf (F := Ideal) .bf16 (divf (F := Ideal) v0 (broadcastTo S2048x64 (maximumf (F := Ideal) v2 (broadcast S2048x1 (FloatOps.ofBits .f32 0x3F800000#32))) broadcasts_S2048x1_S2048x64)) bitsLt_bf16_f32 (ix2 r k)
        = Ideal.div (v0 (ix2 r k)) (max (v2 (ix2 r 0)) 1) := fun k => by
    show Ideal.div (v0 (ix2 r k)) (broadcastTo S2048x64 (maximumf (F := Ideal) v2 (broadcast S2048x1 (FloatOps.ofBits .f32 0x3F800000#32))) broadcasts_S2048x1_S2048x64 (ix2 r k)) = _
    rw [broadcastTo_a1_ab_apply]
    show Ideal.div (v0 (ix2 r k)) (max (v2 (ix2 r 0)) (Ideal.ofBits .f32 0x3F800000#32)) = _
    rw [Ideal.ofBits_one_f32]
  simp only [hdiv]
  by_cases h : 2048 * (i 0).val + r.val < 50000
  · rw [if_pos h, if_pos h, select_one]
  · rw [if_neg h, if_neg h, select_zero, Ideal.ofBits_zero_f32]

end Cert.KernelIdeal.Hand

end
-- ==== Proof.KI.R5Val.lean ====
import proofs.«421913_j33337536151789_3_alg».proof.Proof.KI.R5Defs
import proofs.«421913_j33337536151789_3_alg».proof.Proof.KI.R5ValPay
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Idealize.ShloMosaic.ValueIdx

variable (V : (c : Dev nD) → (b : Ref sig .tc) → Buf (Elt Ideal) ((c : Thread nD τ).loc b))

def val5 (c : Dev nD) (r : Fin 51200) (j : Fin 128) : EReal :=
  if r.val < 50000 then
    ((∑ k : Fin 64, Ideal.div (V c main_v33 (ix2 r k)) (max (V c main_v9 (ix2 r 0)) 1) * V c main_v29 (ix2 k j))
      + V c main_v30 (ix2 0 j) + ∑ k : Fin 64, HMul.hMul (α := EReal) (β := EReal) (γ := EReal) (V c main_v23 (ix2 r k)) (V c main_v31 (ix2 k j)))
  else 0

def G5 (c : Dev nD) : S51200x128.Idx → EReal :=
  fun i => val5 V c ⟨(i 0).val, idx2_lt0 i⟩ ⟨(i 1).val, idx2_lt1 i⟩

theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0
    ∧ ((grid5.coords t) 0).val = t.val :=
  (by decide +kernel : ∀ t : Fin grid5.N, _)

theorem blk5_0 (c : Dev nD) (t : Fin cfg5.N) (p : Fin 2048) (R : Fin 51200) (hR : R.val = 2048 * t.val + p.val) (k : Fin 64) :
    iblk5 V c 0 t (ix2 p k) = V c main_v33 (ix2 R k) := by
  show V c main_v33 (((cfg5.win 0).blk t).view.emb (ix2 p k)) = V c main_v33 (ix2 R k)
  have h := idx_facts5 t
  refine congrArg _ (funext fun a => Fin.ext ?_)
  match a with
  | ⟨0, _⟩ => show win5_0.index t (0 : Fin 2) * 2048 + 1 * p.val = R.val; omega
  | ⟨1, _⟩ => show win5_0.index t (1 : Fin 2) * 64 + 1 * k.val = k.val; omega

theorem blk5_1 (c : Dev nD) (t : Fin cfg5.N) (p : Fin 2048) (R : Fin 51200) (hR : R.val = 2048 * t.val + p.val) (k : Fin 64) :
    iblk5 V c 1 t (ix2 p k) = V c main_v23 (ix2 R k) := by
  show V c main_v23 (((cfg5.win 1).blk t).view.emb (ix2 p k)) = V c main_v23 (ix2 R k)
  have h := idx_facts5 t
  refine congrArg _ (funext fun a => Fin.ext ?_)
  match a with
  | ⟨0, _⟩ => show win5_1.index t (0 : Fin 2) * 2048 + 1 * p.val = R.val; omega
  | ⟨1, _⟩ => show win5_1.index t (1 : Fin 2) * 64 + 1 * k.val = k.val; omega

theorem blk5_2 (c : Dev nD) (t : Fin cfg5.N) (p : Fin 2048) (R : Fin 51200) (hR : R.val = 2048 * t.val + p.val) (k : Fin 1) :
    iblk5 V c 2 t (ix2 p k) = V c main_v9 (ix2 R k) := by
  show V c main_v9 (((cfg5.win 2).blk t).view.emb (ix2 p k)) = V c main_v9 (ix2 R k)
  have h := idx_facts5 t
  refine congrArg _ (funext fun a => Fin.ext ?_)
  match a with
  | ⟨0, _⟩ => show win5_2.index t (0 : Fin 2) * 2048 + 1 * p.val = R.val; omega
  | ⟨1, _⟩ => show win5_2.index t (1 : Fin 2) * 1 + 1 * k.val = k.val; omega

theorem blk5_3 (c : Dev nD) (t : Fin cfg5.N) (k : Fin 64) (j : Fin 128) :
    iblk5 V c 3 t (ix2 k j) = V c main_v29 (ix2 k j) := by
  show V c main_v29 (((cfg5.win 3).blk t).view.emb (ix2 k j)) = V c main_v29 (ix2 k j)
  have h := idx_facts5 t
  refine congrArg _ (funext fun a => Fin.ext ?_)
  match a with
  | ⟨0, _⟩ => show win5_3.index t (0 : Fin 2) * 64 + 1 * k.val = k.val; omega
  | ⟨1, _⟩ => show win5_3.index t (1 : Fin 2) * 128 + 1 * j.val = j.val; omega

theorem blk5_4 (c : Dev nD) (t : Fin cfg5.N) (k : Fin 1) (j : Fin 128) :
    iblk5 V c 4 t (ix2 k j) = V c main_v30 (ix2 k j) := by
  show V c main_v30 (((cfg5.win 4).blk t).view.emb (ix2 k j)) = V c main_v30 (ix2 k j)
  have h := idx_facts5 t
  refine congrArg _ (funext fun a => Fin.ext ?_)
  match a with
  | ⟨0, _⟩ => show win5_4.index t (0 : Fin 2) * 1 + 1 * k.val = k.val; omega
  | ⟨1, _⟩ => show win5_4.index t (1 : Fin 2) * 128 + 1 * j.val = j.val; omega

theorem blk5_5 (c : Dev nD) (t : Fin cfg5.N) (k : Fin 64) (j : Fin 128) :
    iblk5 V c 5 t (ix2 k j) = V c main_v31 (ix2 k j) := by
  show V c main_v31 (((cfg5.win 5).blk t).view.emb (ix2 k j)) = V c main_v31 (ix2 k j)
  have h := idx_facts5 t
  refine congrArg _ (funext fun a => Fin.ext ?_)
  match a with
  | ⟨0, _⟩ => show win5_5.index t (0 : Fin 2) * 64 + 1 * k.val = k.val; omega
  | ⟨1, _⟩ => show win5_5.index t (1 : Fin 2) * 128 + 1 * j.val = j.val; omega

theorem emb5_6 (t : Fin cfg5.N) (p : Fin 2048) (q : Fin 128) (R : Fin 51200) (hR : R.val = 2048 * t.val + p.val) :
    ((cfg5.win 6).blk t).view.emb (ix2 p q) = ix2 R q := by
  have h := idx_facts5 t
  refine funext fun a => Fin.ext ?_
  match a with
  | ⟨0, _⟩ => show win5_6.index t (0 : Fin 2) * 2048 + 1 * p.val = R.val; omega
  | ⟨1, _⟩ => show win5_6.index t (1 : Fin 2) * 128 + 1 * q.val = q.val; omega

theorem flushed5_eq (c : Dev nD) (t : Fin cfg5.N) :
    (dat5 (F := Ideal) V c).flushed 6 t = ((cfg5.win 6).blk t).view.read (Elt Ideal) (G5 V c) := by
  show (cfg5.win 6).cut (grid5.coords t) ((dat5 (F := Ideal) V c).after 6 t) = _
  rw [after5_6]
  funext y
  obtain ⟨p, q, rfl⟩ : ∃ (p : Fin 2048) (q : Fin 128), y = ix2 p q := ⟨y 0, y 1, eq_ix2 y⟩
  have hR : 2048 * t.val + p.val < 51200 := by have ht : t.val < 25 := lt_of_lt_of_eq t.isLt N_5; have := p.isLt; omega
  obtain ⟨e00, e01, e10, e11, e20, e21, e30, e31, e40, e41, e50, e51, e60, e61, eg⟩ := idx_facts5 t
  rw [View.read_apply, emb5_6 t p q ⟨2048 * t.val + p.val, hR⟩ rfl]
  show k5_pay1 (grid5.coords t) (iblk5 V c 0 t) (iblk5 V c 2 t) (iblk5 V c 3 t) (iblk5 V c 4 t) (iblk5 V c 1 t) (iblk5 V c 5 t) (ix2 p q)
    = val5 V c ⟨2048 * t.val + p.val, hR⟩ q
  refine (pay5_apply (grid5.coords t) (iblk5 V c 0 t) (iblk5 V c 2 t) (iblk5 V c 3 t) (iblk5 V c 4 t) (iblk5 V c 1 t) (iblk5 V c 5 t) p q).trans ?_
  unfold val5
  rw [eg]
  simp only [blk5_0 V c t p ⟨2048 * t.val + p.val, hR⟩ rfl, blk5_1 V c t p ⟨2048 * t.val + p.val, hR⟩ rfl,
    blk5_2 V c t p ⟨2048 * t.val + p.val, hR⟩ rfl, blk5_3 V c t, blk5_4 V c t, blk5_5 V c t]

theorem cover5 (i : S51200x128.Idx) : ∃ t : Fin cfg5.N, (cfg5.win 6).flush t = true ∧ i ∈ ((cfg5.win 6).blk t).view.set := by
  have hi0 : (i 0).val < 51200 := (i 0).isLt
  have hi1 : (i 1).val < 128 := (i 1).isLt
  have ht : (i 0).val / 2048 < cfg5.N := lt_of_lt_of_eq (show (i 0).val / 2048 < 25 by omega) N_5.symm
  obtain ⟨e00, e01, e10, e11, e20, e21, e30, e31, e40, e41, e50, e51, e60, e61, eg⟩ := idx_facts5 ⟨(i 0).val / 2048, ht⟩
  refine ⟨⟨(i 0).val / 2048, ht⟩, flush5_6 _, ?_⟩
  show i ∈ ((View.whole main_v34).slice (win5_6.rect ⟨(i 0).val / 2048, ht⟩)).set
  rw [View.set_slice_whole, Rect.mem_set_unit]
  intro a
  match a with
  | ⟨0, _⟩ =>
    show win5_6.index ⟨(i 0).val / 2048, ht⟩ (0 : Fin 2) * 2048 ≤ (i 0).val ∧ (i 0).val < win5_6.index ⟨(i 0).val / 2048, ht⟩ (0 : Fin 2) * 2048 + 2048
    rw [e60]; show (i 0).val / 2048 * 2048 ≤ (i 0).val ∧ (i 0).val < (i 0).val / 2048 * 2048 + 2048; omega
  | ⟨1, _⟩ =>
    show win5_6.index ⟨(i 0).val / 2048, ht⟩ (1 : Fin 2) * 128 ≤ (i 1).val ∧ (i 1).val < win5_6.index ⟨(i 0).val / 2048, ht⟩ (1 : Fin 2) * 128 + 128
    rw [e61]; omega

theorem final5 (c : Dev nD) : (dat5 (F := Ideal) V c).arrAt 6 cfg5.N = G5 V c :=
  (dat5 (F := Ideal) V c).arrAt_eq_of_cover 6 (G5 V c) (fun t _ => flushed5_eq V c t) cover5

theorem combine5_val (c : Dev nD) (r : Fin 51200) (j : Fin 128) :
    (dat5 (F := Ideal) V c).arrAt 6 cfg5.N (ix2 r j) = if r.val < 50000 then ((∑ k : Fin 64, Ideal.div (V c main_v33 (ix2 r k)) (max (V c main_v9 (ix2 r 0)) 1) * V c main_v29 (ix2 k j)) + V c main_v30 (ix2 0 j) + ∑ k : Fin 64, HMul.hMul (α := EReal) (β := EReal) (γ := EReal) (V c main_v23 (ix2 r k)) (V c main_v31 (ix2 k j))) else 0 := by
  rw [final5]
  rfl

end Cert.KernelIdeal.Hand

end
-- ==== Proof.KI.Final.lean ====
import proofs.«421913_j33337536151789_3_alg».proof.Proof.KI.FinalMath
import proofs.«421913_j33337536151789_3_alg».proof.Proof.KI.RunOuts
import proofs.«421913_j33337536151789_3_alg».proof.Proof.KI.HostVal
import proofs.«421913_j33337536151789_3_alg».proof.Proof.KI.R0Val
import proofs.«421913_j33337536151789_3_alg».proof.Proof.KI.R1Val
import proofs.«421913_j33337536151789_3_alg».proof.Proof.KI.R2Val
import proofs.«421913_j33337536151789_3_alg».proof.Proof.KI.R3Val
import proofs.«421913_j33337536151789_3_alg».proof.Proof.KI.R4Val
import proofs.«421913_j33337536151789_3_alg».proof.Proof.KI.R5Val

set_option maxRecDepth 16384

noncomputable section

namespace Cert.KernelIdeal.Hand

open Idealize.ShloMosaic Idealize.ShloMosaic.TcCoe
open Cert.KernelIdeal Cert.KernelIdeal.Gen Idealize.ShloMosaic.ValueIdx

variable (m : (ℓ : Loc nD τ sig) → Buf (Elt Ideal) ℓ) (o : Gen.Outs (F := Ideal)) (c : Dev nD)

/-- The host operations between the third call and the fourth write only their own results. -/
theorem p18 (b : Ref sig .tc) (h0 : b ∉ hostOps3_W := by decide) (h1 : b ∉ hostOps3_1_W := by decide) (h2 : b ∉ hostOps3_2_W := by decide)
    (h3 : b ∉ hostOps3_3_W := by decide) (h4 : b ∉ hostOps3_4_W := by decide) (h5 : b ∉ hostOps3_5_W := by decide) :
    Gen.V18 m o c b = Gen.V12 m o c b :=
  (Gen.V18_of m o c b h5).trans <| (Gen.V17_of m o c b h4).trans <| (Gen.V16_of m o c b h3).trans <|
    (Gen.V15_of m o c b h2).trans <| (Gen.V14_of m o c b h1).trans (Gen.V13_of m o c b h0)
theorem p20 (b : Ref sig .tc) (h1 : b ∉ ([main_v32] : List (Ref sig .tc)) := by decide) (h2 : b ∉ ([main_v33] : List (Ref sig .tc)) := by decide) :
    Gen.V20 m o c b = Gen.V18 m o c b := (Gen.V20_of m o c b h2).trans (Gen.V19_of m o c b h1)
theorem u10 : Gen.V10 m o c main_v21 = o 10 main_v21 c := Function.update_self ..
theorem u11 : Gen.V11 m o c main_v22 = o 11 main_v22 c := Function.update_self ..
theorem u12 : Gen.V12 m o c main_v23 = o 12 main_v23 c := Function.update_self ..
theorem u19 : Gen.V19 m o c main_v32 = o 19 main_v32 c := Function.update_self ..
theorem u20 : Gen.V20 m o c main_v33 = o 20 main_v33 c := Function.update_self ..
theorem s12 : Gen.V18 m o c main_v12 = Gen.V9 m c main_v12 := (p18 m o c main_v12).trans (p12 m o c main_v12)
theorem s13 : Gen.V19 m o c main_v13 = Gen.V9 m c main_v13 :=
  (Gen.V19_of m o c main_v13 (by decide)).trans ((p18 m o c main_v13).trans (p12 m o c main_v13))
theorem s9 : Gen.V20 m o c main_v9 = Gen.V9 m c main_v9 := (p20 m o c main_v9).trans ((p18 m o c main_v9).trans (p12 m o c main_v9))
theorem s23 : Gen.V18 m o c main_v23 = o 12 main_v23 c := (p18 m o c main_v23).trans (u12 m o c)
theorem t23 : Gen.V20 m o c main_v23 = o 12 main_v23 c := (p20 m o c main_v23).trans (s23 m o c)

/-- The arrays of the run on core c, read as functions of their indices, satisfy the relations of the padded program. -/
theorem padded :
    Cert.Sage.Padded (fun r k => m ((c : Thread nD τ).loc main_arg0) (ix2 r k)) (fun e => m ((c : Thread nD τ).loc main_arg1) (ix2 0 e)) (fun e => m ((c : Thread nD τ).loc main_arg1) (ix2 1 e))
      (fun j k => m ((c : Thread nD τ).loc main_arg2) (ix2 j k)) (fun j => m ((c : Thread nD τ).loc main_arg3) (ix1 j)) (fun j k => m ((c : Thread nD τ).loc main_arg4) (ix2 j k))
      (fun j k => m ((c : Thread nD τ).loc main_arg5) (ix2 j k)) (fun j => m ((c : Thread nD τ).loc main_arg6) (ix1 j)) (fun j k => m ((c : Thread nD τ).loc main_arg7) (ix2 j k))
      (fun e : Fin 600064 => Gen.V9 m c main_v12 (ix2 e 0)) (fun e : Fin 600064 => Gen.V9 m c main_v13 (ix2 0 e))
      (fun (r : Fin 51200) (k : Fin 128) => Gen.V9 m c main_v15 (ix2 r k)) (fun r : Fin 51200 => Gen.V9 m c main_v9 (ix2 r 0))
      (fun (k : Fin 128) (j : Fin 64) => Gen.V9 m c main_v17 (ix2 k j)) (fun (k : Fin 128) (j : Fin 64) => Gen.V9 m c main_v19 (ix2 k j))
      (fun j : Fin 64 => Gen.V9 m c main_v20 (ix2 0 j))
      (fun (k : Fin 64) (j : Fin 128) => Gen.V18 m (outs m) c main_v29 (ix2 k j))
      (fun (k : Fin 64) (j : Fin 128) => Gen.V18 m (outs m) c main_v31 (ix2 k j))
      (fun j : Fin 128 => Gen.V18 m (outs m) c main_v30 (ix2 0 j))
      (fun (e : Fin 600064) (d : Fin 128) => outs m 10 main_v21 c (ix2 e d)) (fun (r : Fin 51200) (d : Fin 128) => outs m 11 main_v22 c (ix2 r d))
      (fun (r : Fin 51200) (j : Fin 64) => outs m 12 main_v23 c (ix2 r j))
      (fun (e : Fin 600064) (d : Fin 64) => outs m 19 main_v32 c (ix2 e d)) (fun (r : Fin 51200) (d : Fin 64) => outs m 20 main_v33 c (ix2 r d))
      (fun (r : Fin 51200) (j : Fin 128) => outs m 21 main_v34 c (ix2 r j)) where
  psrc_eq := v12_val m c
  pdst_eq := v13_val m c
  px_eq := v15_val m c
  pdeg_eq := v9_val m c
  w17_eq := v17_val m c
  w19_eq := v19_val m c
  b20_eq := v20_val m c
  w29_eq := v29_val m _ c
  w31_eq := v31_val m _ c
  b30_eq := v30_val m _ c
  g1_eq e d hs := by
    beta_reduce
    rw [outs_v21' m c]
    exact gather0_val (fun c b => Gen.V9 m c b) c e d hs
  s1_eq r d := by
    beta_reduce
    rw [outs_v22' m c, scatter1_val (fun c b => Gen.V10 m (outs m) c b) c r d, Gen.V10_of m _ c main_v13 (by decide), u10 m _ c]
  h1_eq r j := by
    beta_reduce
    rw [outs_v23' m c, combine2_val (fun c b => Gen.V11 m (outs m) c b) c r j, u11 m _ c, p11 m _ c main_v9, p11 m _ c main_v17,
      p11 m _ c main_v20, p11 m _ c main_v15, p11 m _ c main_v19]
  g2_eq e d hs := by
    beta_reduce
    have h := s12 m (outs m) c
    have hs' : (Gen.V18 m (outs m) c main_v12 (ix2 e 0)).toNat < 51200 := by rw [h]; exact hs
    rw [outs_v32' m c, gather3_val (fun c b => Gen.V18 m (outs m) c b) c e d hs', s23 m _ c]
    exact congrArg (fun i => outs m 12 main_v23 c (ix2 i d)) (Fin.ext (show (Gen.V18 m (outs m) c main_v12 (ix2 e 0)).toNat = (Gen.V9 m c main_v12 (ix2 e 0)).toNat by rw [h]))
  s2_eq r d := by
    beta_reduce
    rw [outs_v33' m c, scatter4_val (fun c b => Gen.V19 m (outs m) c b) c r d, s13 m _ c, u19 m _ c]
  o5_eq r j := by
    beta_reduce
    rw [outs_v34' m c, combine5_val (fun c b => Gen.V20 m (outs m) c b) c r j, u20 m _ c, s9 m _ c, p20 m _ c main_v29, p20 m _ c main_v30,
      t23 m _ c, p20 m _ c main_v31]

end Cert.KernelIdeal.Hand

end
-- ==== Proof.KI.Net.lean ====
import proofs.«421913_j33337536151789_3_alg».proof.Proof.KI.Final

noncomputable section

namespace Cert.KernelIdeal.Hand

open Idealize.ShloMosaic Idealize.ShloMosaic.TcCoe Idealize.SL.Sem Idealize.ShloMosaic.ValueIdx
open Cert.KernelIdeal Cert.KernelIdeal.Gen

/-- The result is the last call's output at the nodes' rows and the 40 kept columns, where it is the network. -/
theorem kernel_result (m : (ℓ : Loc nD τ sig) → Buf (Elt Ideal) ℓ) (c : Dev nD)
    (hsrc : ∀ e : Fin 600000, ((m ((c : Thread nD τ).loc main_arg1)) (ix2 0 e)).toNat < 50000) (r : Fin 50000) (j : Fin 40) :
    Gen.V22 m (outs m) c main_v36 (ix2 r j)
      = Cert.Sage.net (fun r k => (m ((c : Thread nD τ).loc main_arg0)) (ix2 r k)) (fun e => (m ((c : Thread nD τ).loc main_arg1)) (ix2 0 e))
          (fun e => (m ((c : Thread nD τ).loc main_arg1)) (ix2 1 e)) (fun j k => (m ((c : Thread nD τ).loc main_arg2)) (ix2 j k))
          (fun j => (m ((c : Thread nD τ).loc main_arg3)) (ix1 j)) (fun j k => (m ((c : Thread nD τ).loc main_arg4)) (ix2 j k))
          (fun j k => (m ((c : Thread nD τ).loc main_arg5)) (ix2 j k)) (fun j => (m ((c : Thread nD τ).loc main_arg6)) (ix1 j))
          (fun j k => (m ((c : Thread nD τ).loc main_arg7)) (ix2 j k)) r j := by
  rw [v36_val m (outs m) c r j]
  exact (padded m c).o5_is_net hsrc r j

end Cert.KernelIdeal.Hand

end
-- ==== Proof.Ref1.lean ====
import proofs.«421913_j33337536151789_3_alg».proof.Proof.ScatterRead
import Idealize.ShloMosaic.Lib.IdealHost
import Idealize.ShloMosaic.PureOps.Ideal.Laws

noncomputable section

open scoped BigOperators

namespace Cert.ReferenceIdeal.RefValue

open Idealize.ShloMosaic Idealize.ShloMosaic.ValueIdx

section Gather
variable {α : Type}

/-- The dimension numbers of table[idx] over rows: operand [N, D], start words [E, 1], result [E, D]. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at a word that names a row (read signed it is its value, and the clamp leaves it alone): that row. -/
theorem gather_row_of_lt {N E D : Nat} (hN : N ≤ 2 ^ 31)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ 32) (e : Fin E) (k : Fin D)
    (h : (idx (ix2 e (0 : Fin 1))).toNat < N) :
    Host.gather (rowGatherDims N E D wf) x idx (ix2 e k) = x (ix2 ⟨(idx (ix2 e (0 : Fin 1))).toNat, h⟩ k) := by
  unfold Host.gather
  congr 1
  funext a
  refine Fin.ext ?_
  match a with
  | ⟨0, _⟩ =>
    have hsi : (rowGatherDims N E D wf).siIdx (ix2 e k) ⟨0, Nat.one_pos⟩ = ix2 e (0 : Fin 1) :=
      funext fun b => Fin.ext (by match b with | ⟨0, _⟩ => rfl | ⟨1, _⟩ => rfl)
    show min (idx ((rowGatherDims N E D wf).siIdx (ix2 e k) ⟨0, Nat.one_pos⟩)).toInt.toNat (N - 1) + 0 + 0
      = (idx (ix2 e (0 : Fin 1))).toNat
    rw [hsi, StableHlo.Predicate.toInt_eq_toNat_of_lt (lt_of_lt_of_le h hN), Int.toNat_natCast]
    omega
  | ⟨1, _⟩ =>
    show 0 + 0 + k.val = k.val
    omega

end Gather

section Scatter

/-- The dimension numbers of a row scatter: operand [N, D], target words [E, 1], updates [E, D]. -/
abbrev rowScatterDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)

theorem rowScatter_start0 (idx : IVec ⟨2, ![E, 1]⟩ w) (e : Fin E) (k : Fin D) :
    (rowScatterDims N E D wf).start (ix2 e k) idx 0 = (idx (ix2 e (0 : Fin 1))).toInt := by
  unfold ScatterDims.start
  rw [dif_pos (List.mem_singleton.mpr rfl)]
  refine congrArg (fun p => (idx p).toInt) (funext fun b => Fin.ext ?_)
  match b with
  | ⟨0, _⟩ => rfl
  | ⟨1, _⟩ => rfl

theorem rowScatter_start1 (idx : IVec ⟨2, ![E, 1]⟩ w) (j : (⟨2, ![E, D]⟩ : Shape).Idx) :
    (rowScatterDims N E D wf).start j idx 1 = 0 := by
  unfold ScatterDims.start
  rw [dif_neg (by exact (by decide : (1 : Fin 2) ∉ [0]))]

theorem rowScatter_window0 (j : (⟨2, ![E, D]⟩ : Shape).Idx) : (rowScatterDims N E D wf).window j 0 = 0 := by
  unfold ScatterDims.window
  rw [dif_neg (by exact (by decide : (0 : Fin 2) ∉ [1]))]

theorem rowScatter_window1 (e : Fin E) (k : Fin D) : (rowScatterDims N E D wf).window (ix2 e k) 1 = k.val := by
  unfold ScatterDims.window
  rw [dif_pos (by exact (by decide : (1 : Fin 2) ∈ [1]))]
  rfl

/-- Update (e, k') lands at (i, k) exactly when its target word, read signed, is i and k' = k. -/
theorem rowScatter_resultIdx_eq_some_iff (idx : IVec ⟨2, ![E, 1]⟩ w) (e : Fin E) (k' : Fin D) (i : Fin N) (k : Fin D) :
    (rowScatterDims N E D wf).resultIdx? (ix2 e k') idx = some (ix2 i k)
      ↔ (idx (ix2 e (0 : Fin 1))).toInt = (i.val : ℤ) ∧ k' = k := by
  rw [Cert.ScatterRead.resultIdx?_eq_some_iff, Fin.forall_fin_two, rowScatter_start0, rowScatter_window0, rowScatter_start1,
    rowScatter_window1, Fin.ext_iff]
  show _ + ((0 : ℕ) : ℤ) = (i.val : ℤ) ∧ (0 : ℤ) + (k'.val : ℤ) = (k.val : ℤ) ↔ _
  omega

/-- The row scatter-add read at (i, k): the operand there plus the updates (e, k) whose target word is the word i. -/
theorem scatterAdd_rows_apply {N E D : Nat} (hN : N ≤ 2 ^ 31)
    (wf : ScatterDims.WF ⟨2, ![N, D]⟩ ⟨2, ![E, 1]⟩ ⟨2, ![E, D]⟩ [1] [0] [0] 1)
    (z : (⟨2, ![N, D]⟩ : Shape).Idx → EReal) (idx : IVec ⟨2, ![E, 1]⟩ 32) (upd : (⟨2, ![E, D]⟩ : Shape).Idx → EReal)
    (i : Fin N) (k : Fin D) :
    Ideal.hostScatterAdd (rowScatterDims N E D wf) z idx upd (ix2 i k)
      = z (ix2 i k) + ∑ e : Fin E, if idx (ix2 e (0 : Fin 1)) = BitVec.ofNat 32 i.val then upd (ix2 e k) else 0 := by
  unfold Ideal.hostScatterAdd
  congr 1
  rw [Finset.sum_filter, sum_idx2]
  refine Finset.sum_congr rfl fun e _ => ?_
  simp only [rowScatter_resultIdx_eq_some_iff, Cert.ScatterRead.toInt_eq_natCast_iff _ _ (lt_of_lt_of_le i.isLt hN)]
  by_cases hw : idx (ix2 e (0 : Fin 1)) = BitVec.ofNat 32 i.val
  · simp only [hw, true_and, if_true]
    rw [Finset.sum_ite_eq' Finset.univ k (fun k' => upd (ix2 e k'))]
    simp only [Finset.mem_univ, if_true]
  · simp only [hw, false_and, if_false, Finset.sum_const_zero]

end Scatter

/-- The reference's index fix-up (a negative word gets the row count added) leaves a non-negative word alone. -/
theorem fixup_eq (s a : BitVec 32) (hs : s.toNat < 2 ^ 31) : Scalar.select (IntOp.cmpi .slt s 0#32) a s = s := by
  unfold Scalar.select
  rw [if_neg]
  intro h
  have := (StableHlo.Predicate.slt_iff_toNat hs (by decide)).mp h
  simp at this

end Cert.ReferenceIdeal.RefValue

end
-- ==== Proof.Ref2.lean ====
import proofs.«421913_j33337536151789_3_alg».proof.Proof.Spec
import proofs.«421913_j33337536151789_3_alg».proof.Proof.Gen.ReferenceIdeal.Read
import proofs.«421913_j33337536151789_3_alg».proof.Proof.Ref1
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Sage

theorem zero_bits : (FloatOps.ofBits (F := Ideal) .f32 0x00000000#32 : EReal) = 0 := Ideal.ofBits_zero_f32
theorem one_bits : (FloatOps.ofBits (F := Ideal) .f32 0x3F800000#32 : EReal) = 1 := Ideal.ofBits_one_f32

/-- At the exact instance the accumulating scatter is the operand's element plus the sum of the updates that land there. -/
theorem hostScatterAdd_eq {s si u : Shape} {w : ℕ} {φ : FTy} (d : ScatterDims s si u) (x : FVec Ideal s φ)
    (idx : IVec si w) (upd : FVec Ideal u φ) :
    Host.scatterAdd (F := Ideal) d x idx upd = Ideal.hostScatterAdd d x idx upd := rfl

section Stage
variable {src dst : Fin 600000 → BitVec 32} {si : IVec S600000x1 32} (hs : ∀ e, si (ix2 e 0) = dst e)
include hs

/-- A scatter-add of ones into zeros by the end words counts the edges that end at each node. -/
theorem deg_read {z : FVec Ideal S50000 .f32} {o : FVec Ideal S600000 .f32} (hz : ∀ i, z i = 0) (ho : ∀ e, o e = 1) :
    ∀ p, Host.scatterAdd (F := Ideal) scatter_S50000_S600000x1_S600000_n_0_0_1 z si o p = deg dst (p 0) := fun p => by
  obtain ⟨i, rfl⟩ : ∃ i, p = ix1 i := ⟨_, eq_ix1 p⟩
  rw [hostScatterAdd_eq, Cert.ScatterRead.count_apply _ (by norm_num) rfl rfl rfl rfl, hz, zero_add]
  unfold deg
  refine Finset.sum_congr rfl fun e _ => ?_
  rw [hs, ho]
  exact if_congr Iff.rfl rfl rfl

/-- Rows gathered by the start words and scatter-added into zeros by the end words: the sum over the edges ending at i. -/
theorem aggr_read {D : ℕ} {wg wd} {t : FVec Ideal ⟨2, ![50000, D]⟩ .f32} {z : FVec Ideal ⟨2, ![50000, D]⟩ .f32}
    {gi : IVec S600000x1 32} (hz : ∀ i, z i = 0) (hg : ∀ e, gi (ix2 e 0) = src e) (hsrc : ∀ e, (src e).toNat < 50000) :
    ∀ i k, Host.scatterAdd (F := Ideal) (rowScatterDims 50000 600000 D wd) z si
        (Host.gather (rowGatherDims 50000 600000 D wg) t gi) (ix2 i k) = aggr (fun r k => t (ix2 r k)) src dst i k := fun i k => by
  rw [hostScatterAdd_eq, scatterAdd_rows_apply (by norm_num), hz, zero_add]
  unfold aggr
  refine Finset.sum_congr rfl fun e _ => ?_
  have h : (gi (ix2 e 0)).toNat < 50000 := by rw [hg]; exact hsrc e
  rw [hs, gather_row_of_lt (by norm_num) wg t gi e k h]
  refine if_congr Iff.rfl (congrArg (fun r => t (ix2 r k)) (Fin.ext ?_)) rfl
  show (gi (ix2 e 0)).toNat = (src e).toNat % 50000
  rw [hg, Nat.mod_eq_of_lt (hsrc e)]

end Stage

section Words
variable (ei : IVec S2x600000 32)

abbrev srcW : Fin 600000 → BitVec 32 := fun e => ei (ix2 (0 : Fin 2) e)
abbrev dstW : Fin 600000 → BitVec 32 := fun e => ei (ix2 (1 : Fin 2) e)

/-- Row 0 sliced out and flattened is the start words. -/
theorem src_at (i : S600000.Idx) : val_main_v1 (F := Ideal) ei i = srcW ei (i 0) := by
  rw [val_main_v1_apply, val_main_v0_apply]
  refine congrArg ei (funext fun a => ?_)
  match a with
  | ⟨0, _⟩ => rfl
  | ⟨1, _⟩ => exact Fin.ext (Nat.mod_eq_of_lt (i 0).isLt)

/-- Row 1 is the end words. -/
theorem dst_at (i : S600000.Idx) : val_main_v3 (F := Ideal) ei i = dstW ei (i 0) := by
  rw [val_main_v3_apply, val_main_v2_apply]
  refine congrArg ei (funext fun a => ?_)
  match a with
  | ⟨0, _⟩ => rfl
  | ⟨1, _⟩ => exact Fin.ext (Nat.mod_eq_of_lt (i 0).isLt)

/-- The index fix-up before each gather does nothing to a word that names a node. -/
theorem fix9 (e : Fin 600000) (h : (srcW ei e).toNat < 50000) :
    val_main_v9 (F := Ideal) ei (ix2 e (0 : Fin 1)) = srcW ei e := by
  rw [val_main_v9_apply, val_main_v8_apply, val_main_v5_apply, val_main_v4_apply, val_main_c_apply, src_at]
  exact fixup_eq _ _ (lt_trans h (by norm_num))

theorem fix42 (e : Fin 600000) (h : (srcW ei e).toNat < 50000) :
    val_main_v42 (F := Ideal) ei (ix2 e (0 : Fin 1)) = srcW ei e := by
  rw [val_main_v42_apply, val_main_v41_apply, val_main_v38_apply, val_main_v37_apply, val_main_c_6_apply, src_at]
  exact fixup_eq _ _ (lt_trans h (by norm_num))

/-- Each layer's divisor, laid along the features: the larger of the count and one. -/
theorem den21 (i : Fin 50000) (k : Fin 128) : val_main_v21 (F := Ideal) ei (ix2 i k) = max (deg (dstW ei) i) 1 := by
  rw [val_main_v21_apply, val_main_v20_apply, val_main_v19_apply, val_main_v18_apply, val_main_cst_3_apply, one_bits,
    Ideal.maximumf_def]
  refine congrArg (max · (1 : EReal)) (deg_read (dst := dstW ei) ?_ ?_ ?_ _)
  exacts [fun e => (val_main_v16_apply ei _).trans (dst_at ei _), fun _ => (val_main_v15_apply _).trans zero_bits,
    fun _ => (val_main_v14_apply _).trans one_bits]

theorem den54 (i : Fin 50000) (k : Fin 64) : val_main_v54 (F := Ideal) ei (ix2 i k) = max (deg (dstW ei) i) 1 := by
  rw [val_main_v54_apply, val_main_v53_apply, val_main_v52_apply, val_main_v51_apply, val_main_cst_11_apply, one_bits,
    Ideal.maximumf_def]
  refine congrArg (max · (1 : EReal)) (deg_read (dst := dstW ei) ?_ ?_ ?_ _)
  exacts [fun e => (val_main_v49_apply ei _).trans (dst_at ei _), fun _ => (val_main_v48_apply _).trans zero_bits,
    fun _ => (val_main_v47_apply _).trans one_bits]

end Words

end Cert.ReferenceIdeal.RefValue

end
-- ==== Proof.Ref.lean ====
import proofs.«421913_j33337536151789_3_alg».proof.Proof.Spec
import proofs.«421913_j33337536151789_3_alg».proof.Proof.Gen.ReferenceIdeal.Read
import proofs.«421913_j33337536151789_3_alg».proof.Proof.Ref2

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Sage

section Layer1
variable (x : FVec Ideal S50000x128 .f32) (ei : IVec S2x600000 32)
  (Wl1 : FVec Ideal S64x128 .f32) (bl1 : FVec Ideal S64 .f32) (Wr1 : FVec Ideal S64x128 .f32)

/-- The first gather and scatter-add: at node i, the sum of the start nodes' rows over the edges that end at i. -/
theorem aggr13 (hsrc : ∀ e, (srcW ei e).toNat < 50000) :
    ∀ i k, val_main_v13 (F := Ideal) x ei (ix2 i k) = aggr (fun r k => x (ix2 r k)) (srcW ei) (dstW ei) i k :=
  aggr_read (fun e => (val_main_v12_apply ei _).trans (dst_at ei _)) (fun _ => (val_main_v11_apply _).trans zero_bits)
    (fun e => fix9 ei e (hsrc e)) hsrc

/-- Divided by the larger of the count and one: the mean over the incoming edges. -/
theorem mean22 (hsrc : ∀ e, (srcW ei e).toNat < 50000) (p : S50000x128.Idx) :
    val_main_v22 (F := Ideal) x ei p = mean (fun r k => x (ix2 r k)) (srcW ei) (dstW ei) (p 0) (p 1) := by
  obtain ⟨i, k, rfl⟩ : ∃ i k, p = ix2 i k := ⟨_, _, eq_ix2 p⟩
  rw [val_main_v22_apply, aggr13 x ei hsrc, den21, Ideal.hostDivf_def]
  rfl

/-- The two products and the bias: the first layer. -/
theorem layer30 (hsrc : ∀ e, (srcW ei e).toNat < 50000) (i : Fin 50000) (j : Fin 64) :
    val_main_v30 (F := Ideal) x ei Wl1 bl1 Wr1 (ix2 i j)
      = layer (fun r k => x (ix2 r k)) (srcW ei) (dstW ei) (fun j k => Wl1 (ix2 j k)) (fun j => bl1 (ix1 j))
          (fun j k => Wr1 (ix2 j k)) i j := by
  have hr : ∀ k : Fin 128, idx_main_v23 (ridx_main_v24 (ix2 i j) k) = ix2 j k := fun k => eq_ix2 _
  have hl' : ∀ k : Fin 128, lidx_main_v29 (ix2 i j) k = ix2 i k := fun k => eq_ix2 _
  have hr' : ∀ k : Fin 128, idx_main_v28 (ridx_main_v29 (ix2 i j) k) = ix2 j k := fun k => eq_ix2 _
  have hb : idx_main_v25 (idx_main_v26 (ix2 i j)) = ix1 j := eq_ix1 _
  rw [val_main_v30_apply, val_main_v27_apply, val_main_v24_apply, val_main_v26_apply, val_main_v25_apply, hb,
    val_main_v29_apply, Ideal.addf_def, Ideal.addf_def]
  simp only [val_main_v23_apply, val_main_v28_apply, hr, hl', hr', mean22 x ei hsrc]
  rfl

/-- Under one over one plus the exponential of the negative: the hidden features. -/
theorem hidden36 (hsrc : ∀ e, (srcW ei e).toNat < 50000) (i : Fin 50000) (j : Fin 64) :
    val_main_v36 (F := Ideal) x ei Wl1 bl1 Wr1 (ix2 i j)
      = hidden (fun r k => x (ix2 r k)) (srcW ei) (dstW ei) (fun j k => Wl1 (ix2 j k)) (fun j => bl1 (ix1 j))
          (fun j k => Wr1 (ix2 j k)) i j := by
  rw [val_main_v36_apply, val_main_v35_apply, val_main_cst_5_apply, val_main_v34_apply, val_main_v33_apply,
    val_main_cst_4_apply, val_main_v32_apply, val_main_v31_apply, layer30 x ei Wl1 bl1 Wr1 hsrc, one_bits,
    Ideal.hostDivf_def, Ideal.addf_def, Ideal.hostUnary_exp_def, Ideal.hostNegf_def, Ideal.negf_def]
  rfl

end Layer1

section Layer2
variable (x : FVec Ideal S50000x128 .f32) (ei : IVec S2x600000 32)
  (Wl1 : FVec Ideal S64x128 .f32) (bl1 : FVec Ideal S64 .f32) (Wr1 : FVec Ideal S64x128 .f32)
  (Wl2 : FVec Ideal S40x64 .f32) (bl2 : FVec Ideal S40 .f32) (Wr2 : FVec Ideal S40x64 .f32)

/-- The hidden table as the reference holds it. -/
abbrev hid : Fin 50000 → Fin 64 → EReal := fun r k => val_main_v36 (F := Ideal) x ei Wl1 bl1 Wr1 (ix2 r k)

theorem aggr46 (hsrc : ∀ e, (srcW ei e).toNat < 50000) :
    ∀ i k, val_main_v46 (F := Ideal) x ei Wl1 bl1 Wr1 (ix2 i k) = aggr (hid x ei Wl1 bl1 Wr1) (srcW ei) (dstW ei) i k :=
  aggr_read (fun e => (val_main_v45_apply ei _).trans (dst_at ei _)) (fun _ => (val_main_v44_apply _).trans zero_bits)
    (fun e => fix42 ei e (hsrc e)) hsrc

theorem mean55 (hsrc : ∀ e, (srcW ei e).toNat < 50000) (p : S50000x64.Idx) :
    val_main_v55 (F := Ideal) x ei Wl1 bl1 Wr1 p = mean (hid x ei Wl1 bl1 Wr1) (srcW ei) (dstW ei) (p 0) (p 1) := by
  obtain ⟨i, k, rfl⟩ : ∃ i k, p = ix2 i k := ⟨_, _, eq_ix2 p⟩
  rw [val_main_v55_apply, aggr46 x ei Wl1 bl1 Wr1 hsrc, den54, Ideal.hostDivf_def]
  rfl

/-- The second layer, over the hidden table as the reference holds it. -/
theorem layer63 (hsrc : ∀ e, (srcW ei e).toNat < 50000) (i : Fin 50000) (j : Fin 40) :
    val_main_v63 (F := Ideal) x ei Wl1 bl1 Wr1 Wl2 bl2 Wr2 (ix2 i j)
      = layer (hid x ei Wl1 bl1 Wr1) (srcW ei) (dstW ei) (fun j k => Wl2 (ix2 j k)) (fun j => bl2 (ix1 j))
          (fun j k => Wr2 (ix2 j k)) i j := by
  have hr : ∀ k : Fin 64, idx_main_v56 (ridx_main_v57 (ix2 i j) k) = ix2 j k := fun k => eq_ix2 _
  have hl' : ∀ k : Fin 64, lidx_main_v62 (ix2 i j) k = ix2 i k := fun k => eq_ix2 _
  have hr' : ∀ k : Fin 64, idx_main_v61 (ridx_main_v62 (ix2 i j) k) = ix2 j k := fun k => eq_ix2 _
  have hb : idx_main_v58 (idx_main_v59 (ix2 i j)) = ix1 j := eq_ix1 _
  rw [val_main_v63_apply, val_main_v60_apply, val_main_v57_apply, val_main_v59_apply, val_main_v58_apply, hb,
    val_main_v62_apply, Ideal.addf_def, Ideal.addf_def]
  simp only [val_main_v56_apply, val_main_v61_apply, hr, hl', hr', mean55 x ei Wl1 bl1 Wr1 hsrc]
  rfl

/-- The term the reference's run states for its result, as a function of the eight argument arrays. -/
abbrev refTerm : FVec Ideal S50000x40 .f32 := val_main_v63 (F := Ideal) x ei Wl1 bl1 Wr1 Wl2 bl2 Wr2

/-- Where every start word names a node, entry (r, j) of the reference's result is the two-layer network at (r, j). -/
theorem result_net (hsrc : ∀ e : Fin 600000, (ei (ix2 (0 : Fin 2) e)).toNat < 50000) (r : Fin 50000) (j : Fin 40) :
    refTerm x ei Wl1 bl1 Wr1 Wl2 bl2 Wr2 (ix2 r j)
      = Cert.Sage.net (fun r k => x (ix2 r k)) (fun e => ei (ix2 (0 : Fin 2) e)) (fun e => ei (ix2 (1 : Fin 2) e))
          (fun j k => Wl1 (ix2 j k)) (fun j => bl1 (ix1 j)) (fun j k => Wr1 (ix2 j k))
          (fun j k => Wl2 (ix2 j k)) (fun j => bl2 (ix1 j)) (fun j k => Wr2 (ix2 j k)) r j := by
  have hh : hid x ei Wl1 bl1 Wr1 = hidden (fun r k => x (ix2 r k)) (srcW ei) (dstW ei) (fun j k => Wl1 (ix2 j k))
      (fun j => bl1 (ix1 j)) (fun j k => Wr1 (ix2 j k)) :=
    funext fun r => funext fun k => hidden36 x ei Wl1 bl1 Wr1 hsrc r k
  show val_main_v63 (F := Ideal) x ei Wl1 bl1 Wr1 Wl2 bl2 Wr2 (ix2 r j) = _
  rw [layer63 x ei Wl1 bl1 Wr1 Wl2 bl2 Wr2 hsrc r j, hh]
  rfl

end Layer2

end Cert.ReferenceIdeal.RefValue

end
-- ==== Proof.lean ====
import proofs.«421913_j33337536151789_3_alg».proof.Defs
import proofs.«421913_j33337536151789_3_alg».proof.Proof.Gen.Kernel
import proofs.«421913_j33337536151789_3_alg».proof.Proof.Gen.KernelIdeal
import proofs.«421913_j33337536151789_3_alg».proof.Proof.Gen.ReferenceIdeal
import proofs.«421913_j33337536151789_3_alg».proof.Proof.Gen.Pre_finite_inputs
import proofs.«421913_j33337536151789_3_alg».proof.Proof.Gen.ReferenceIdeal.Run
import proofs.«421913_j33337536151789_3_alg».proof.Proof.Gen.ReferenceIdeal.Read
import proofs.«421913_j33337536151789_3_alg».proof.Proof.PreFacts
import proofs.«421913_j33337536151789_3_alg».proof.Proof.KI.Run
import proofs.«421913_j33337536151789_3_alg».proof.Proof.KB.Run
import proofs.«421913_j33337536151789_3_alg».proof.Proof.KI.Net
import proofs.«421913_j33337536151789_3_alg».proof.Proof.Ref
import Idealize.ShloMosaic.Adequacy
import Idealize.ShloMosaic.Init

noncomputable section

namespace Cert.Proof

open Idealize.ShloMosaic Idealize.ShloMosaic.TcCoe Idealize.SL.Sem Idealize.ShloMosaic.ValueIdx

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ =>
  (θ_run (Cert.Kernel.defs (F := Bits)) _ _).mono (fun _ h c => (h c).2) (Cert.Kernel.Hand.run_main (F := Bits) m ρ)

theorem frame_ki : Cert.frame_KernelIdeal := fun m ρ _ =>
  (θ_run (Cert.KernelIdeal.defs (F := Ideal)) _ _).mono (fun _ h c => (h c).2) (Cert.KernelIdeal.Hand.run_main (F := Ideal) m ρ)

theorem frame_ri : Cert.frame_ReferenceIdeal := fun m ρ _ =>
  (θ_run (Cert.ReferenceIdeal.defs (F := Ideal)) _ _).mono (fun _ h c => (h c).2) (Cert.ReferenceIdeal.Value.run (F := Ideal) m ρ)

theorem algebraic : Cert.algebraic_KernelIdeal_ReferenceIdeal := by
  intro m ρ m' ρ' hpre hagree
  refine ⟨fun c => Cert.KernelIdeal.Gen.V22 m (Cert.KernelIdeal.Hand.outs m) c Cert.KernelIdeal.main_v36,
    Cert.KernelIdeal.Hand.run_main (F := Ideal) m ρ, ?_⟩
  refine (θ_run (Cert.ReferenceIdeal.defs (F := Ideal)) _ _).mono (fun _ h c => ⟨(h c).1.trans ?_, (h c).2⟩)
    (Cert.ReferenceIdeal.Value.run (F := Ideal) m' ρ')
  have hsrc := Cert.Pre_finite_inputs.Hand.src_lt (F := Ideal) _ _ _ _ _ _ _ _ (hpre c)
  obtain ⟨h0, h1, h2, h3, h4, h5, h6, h7⟩ := hagree c
  rw [Cert.ReferenceIdeal.Read.val_main_v63_eq m' c, h0, h1, h2, h3, h4, h5, h6, h7]
  funext i
  obtain ⟨r, j, rfl⟩ : ∃ (r : Fin 50000) (j : Fin 40), i = ix2 r j := ⟨i 0, i 1, eq_ix2 i⟩
  exact (Cert.ReferenceIdeal.RefValue.result_net _ _ _ _ _ _ _ _ hsrc r j).trans
    (Cert.KernelIdeal.Hand.kernel_result m c hsrc r j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
